-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x512 : Shape := ⟨2, ![4096, 512]⟩
abbrev S4096x8192 : Shape := ⟨2, ![4096, 8192]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x512 .f32) (main_arg1 : FVec F S4096x8192 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x4096 .f32) (main_arg1 : FVec F S4096x8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x512 : Shape := ⟨2, ![4096, 512]⟩
abbrev S4096x8192 : Shape := ⟨2, ![4096, 8192]⟩
abbrev S512x8192 : Shape := ⟨2, ![512, 8192]⟩
abbrev S8x512x512 : Shape := ⟨3, ![8, 512, 512]⟩
abbrev S6x512x2048 : Shape := ⟨3, ![6, 512, 2048]⟩
abbrev S7 : Shape := ⟨1, ![7]⟩
abbrev S8 : Shape := ⟨1, ![8]⟩
abbrev S6 : Shape := ⟨1, ![6]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S4096x512, .bf16⟩
  | .local _ .vmem, ⟨3, _⟩ => ⟨S8x512x512, .bf16⟩
  | .local _ .vmem, ⟨4, _⟩ => ⟨S6x512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.addi v2 c1_i32_2
  let c8_i32_3 : BitVec 32 := 8#32
  let v9 : BitVec 32 := Scalar.remsi v8 c8_i32_3
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v12 : BitVec 32 := Scalar.addi v2 c2_i32
  let c8_i32_6 : BitVec 32 := 8#32
  let v13 : BitVec 32 := Scalar.remsi v12 c8_i32_6
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c8_i32_10 : BitVec 32 := 8#32
  let v17 : BitVec 32 := Scalar.remsi v16 c8_i32_10
  let c1_i32_12 : BitVec 32 := 1#32
  let v18 : BitVec 32 := Scalar.muli v17 c1_i32_12
  let v19 : BitVec 32 := Scalar.addi c0_i32_13 v18
  v19.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v20 : BitVec 32 := Scalar.addi v2 c4_i32_14
  let c8_i32_15 : BitVec 32 := 8#32
  let v21 : BitVec 32 := Scalar.remsi v20 c8_i32_15
  let c1_i32_17 : BitVec 32 := 1#32
  let v22 : BitVec 32 := Scalar.muli v21 c1_i32_17
  let v23 : BitVec 32 := Scalar.addi c0_i32_18 v22
  v23.toNat
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v24 : BitVec 32 := Scalar.addi v2 c5_i32
  let c8_i32_19 : BitVec 32 := 8#32
  let v25 : BitVec 32 := Scalar.remsi v24 c8_i32_19
  let c1_i32_21 : BitVec 32 := 1#32
  let v26 : BitVec 32 := Scalar.muli v25 c1_i32_21
  let v27 : BitVec 32 := Scalar.addi c0_i32_22 v26
  v27.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v28 : BitVec 32 := Scalar.addi v2 c6_i32
  let c8_i32_23 : BitVec 32 := 8#32
  let v29 : BitVec 32 := Scalar.remsi v28 c8_i32_23
  let c1_i32_25 : BitVec 32 := 1#32
  let v30 : BitVec 32 := Scalar.muli v29 c1_i32_25
  let v31 : BitVec 32 := Scalar.addi c0_i32_26 v30
  v31.toNat
def k0_dev7 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v32 : BitVec 32 := Scalar.addi v2 c7_i32
  let c8_i32_27 : BitVec 32 := 8#32
  let v33 : BitVec 32 := Scalar.remsi v32 c8_i32_27
  let c1_i32_29 : BitVec 32 := 1#32
  let v34 : BitVec 32 := Scalar.muli v33 c1_i32_29
  let v35 : BitVec 32 := Scalar.addi c0_i32_30 v34
  v35.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v36 : BitVec 32 := Scalar.muli v2 c512_i32
  let c0_i32_35 : BitVec 32 := 0#32
  ![v36.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_36 : BitVec 32 := 512#32
  let v42 : BitVec 32 := Scalar.muli v2 c512_i32_36
  let c2048_i32 : BitVec 32 := 2048#32
  ![v42.toNat, 2048]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_41 : BitVec 32 := 512#32
  let v48 : BitVec 32 := Scalar.muli v2 c512_i32_41
  let c4096_i32 : BitVec 32 := 4096#32
  ![v48.toNat, 4096]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_46 : BitVec 32 := 512#32
  let v54 : BitVec 32 := Scalar.muli v2 c512_i32_46
  let c6144_i32 : BitVec 32 := 6144#32
  ![v54.toNat, 6144]
def k0_off5 (d0 : Dev nD) (c1_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let v60 : BitVec 32 := Scalar.subi v5 c1_i32_51
  let c4_i32_52 : BitVec 32 := 4#32
  let v61 : BitVec 32 := Scalar.addi v60 c4_i32_52
  let c4_i32_53 : BitVec 32 := 4#32
  let v62 : BitVec 32 := Scalar.remsi v61 c4_i32_53
  let v63 : BitVec 32 := Scalar.addi v4 v62
  let c512_i32_54 : BitVec 32 := 512#32
  let v64 : BitVec 32 := Scalar.muli v63 c512_i32_54
  let c0_i32_59 : BitVec 32 := 0#32
  ![v64.toNat, 0]
def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let c0_i32_83 : BitVec 32 := 0#32
  ![v2.toNat, 0, 0]
def k0_off8 (d0 : Dev nD) (c1_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let v76 : BitVec 32 := Scalar.addi v5 c1_i32_64
  let c4_i32_65 : BitVec 32 := 4#32
  let v77 : BitVec 32 := Scalar.remsi v76 c4_i32_65
  let v78 : BitVec 32 := Scalar.addi v4 v77
  let c512_i32_78 : BitVec 32 := 512#32
  let v97 : BitVec 32 := Scalar.muli v78 c512_i32_78
  let c0_i32_84 : BitVec 32 := 0#32
  ![v97.toNat, 0]
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let c1_i32_64 : BitVec 32 := 1#32
  let v76 : BitVec 32 := Scalar.addi v5 c1_i32_64
  let c4_i32_65 : BitVec 32 := 4#32
  let v77 : BitVec 32 := Scalar.remsi v76 c4_i32_65
  let v78 : BitVec 32 := Scalar.addi v4 v77
  let c1_i32_80 : BitVec 32 := 1#32
  let v98 : BitVec 32 := Scalar.muli v78 c1_i32_80
  let v99 : BitVec 32 := Scalar.addi c0_i32_81 v98
  v99.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let c2_i32_66 : BitVec 32 := 2#32
  let v79 : BitVec 32 := Scalar.addi v5 c2_i32_66
  let c4_i32_67 : BitVec 32 := 4#32
  let v80 : BitVec 32 := Scalar.remsi v79 c4_i32_67
  let v81 : BitVec 32 := Scalar.addi v4 v80
  let c1_i32_87 : BitVec 32 := 1#32
  let v108 : BitVec 32 := Scalar.muli v81 c1_i32_87
  let v109 : BitVec 32 := Scalar.addi c0_i32_88 v108
  v109.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let c3_i32_68 : BitVec 32 := 3#32
  let v82 : BitVec 32 := Scalar.addi v5 c3_i32_68
  let c4_i32_69 : BitVec 32 := 4#32
  let v83 : BitVec 32 := Scalar.remsi v82 c4_i32_69
  let v84 : BitVec 32 := Scalar.addi v4 v83
  let c1_i32_94 : BitVec 32 := 1#32
  let v118 : BitVec 32 := Scalar.muli v84 c1_i32_94
  let v119 : BitVec 32 := Scalar.addi c0_i32_95 v118
  v119.toNat
def k0_off9 (d0 : Dev nD) (c0_i32_70 : BitVec 32) : Fin 2 → Nat :=
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let v85 : BitVec 32 := Scalar.addi v5 c0_i32_70
  let c4_i32_71 : BitVec 32 := 4#32
  let v86 : BitVec 32 := Scalar.remsi v85 c4_i32_71
  let v87 : BitVec 32 := Scalar.addi v6 v86
  let c512_i32_99 : BitVec 32 := 512#32
  let v127 : BitVec 32 := Scalar.muli v87 c512_i32_99
  let c0_i32_105 : BitVec 32 := 0#32
  ![v127.toNat, 0]
def k0_dev11 (d0 : Dev nD) : Nat :=
  let c0_i32_102 : BitVec 32 := 0#32
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let c0_i32_70 : BitVec 32 := 0#32
  let v85 : BitVec 32 := Scalar.addi v5 c0_i32_70
  let c4_i32_71 : BitVec 32 := 4#32
  let v86 : BitVec 32 := Scalar.remsi v85 c4_i32_71
  let v87 : BitVec 32 := Scalar.addi v6 v86
  let c1_i32_101 : BitVec 32 := 1#32
  let v128 : BitVec 32 := Scalar.muli v87 c1_i32_101
  let v129 : BitVec 32 := Scalar.addi c0_i32_102 v128
  v129.toNat
def k0_dev12 (d0 : Dev nD) : Nat :=
  let c0_i32_109 : BitVec 32 := 0#32
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let c1_i32_72 : BitVec 32 := 1#32
  let v88 : BitVec 32 := Scalar.addi v5 c1_i32_72
  let c4_i32_73 : BitVec 32 := 4#32
  let v89 : BitVec 32 := Scalar.remsi v88 c4_i32_73
  let v90 : BitVec 32 := Scalar.addi v6 v89
  let c1_i32_108 : BitVec 32 := 1#32
  let v138 : BitVec 32 := Scalar.muli v90 c1_i32_108
  let v139 : BitVec 32 := Scalar.addi c0_i32_109 v138
  v139.toNat
def k0_dev13 (d0 : Dev nD) : Nat :=
  let c0_i32_116 : BitVec 32 := 0#32
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let c2_i32_74 : BitVec 32 := 2#32
  let v91 : BitVec 32 := Scalar.addi v5 c2_i32_74
  let c4_i32_75 : BitVec 32 := 4#32
  let v92 : BitVec 32 := Scalar.remsi v91 c4_i32_75
  let v93 : BitVec 32 := Scalar.addi v6 v92
  let c1_i32_115 : BitVec 32 := 1#32
  let v148 : BitVec 32 := Scalar.muli v93 c1_i32_115
  let v149 : BitVec 32 := Scalar.addi c0_i32_116 v148
  v149.toNat
def k0_dev14 (d0 : Dev nD) : Nat :=
  let c0_i32_123 : BitVec 32 := 0#32
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let c3_i32_76 : BitVec 32 := 3#32
  let v94 : BitVec 32 := Scalar.addi v5 c3_i32_76
  let c4_i32_77 : BitVec 32 := 4#32
  let v95 : BitVec 32 := Scalar.remsi v94 c4_i32_77
  let v96 : BitVec 32 := Scalar.addi v6 v95
  let c1_i32_122 : BitVec 32 := 1#32
  let v158 : BitVec 32 := Scalar.muli v96 c1_i32_122
  let v159 : BitVec 32 := Scalar.addi c0_i32_123 v158
  v159.toNat
def k0_off10 (d0 : Dev nD) (c1_i32_127 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let v167 : BitVec 32 := Scalar.subi v5 c1_i32_127
  let c4_i32_128 : BitVec 32 := 4#32
  let v168 : BitVec 32 := Scalar.addi v167 c4_i32_128
  let c4_i32_129 : BitVec 32 := 4#32
  let v169 : BitVec 32 := Scalar.remsi v168 c4_i32_129
  let v170 : BitVec 32 := Scalar.addi v4 v169
  let c512_i32_130 : BitVec 32 := 512#32
  let v171 : BitVec 32 := Scalar.muli v170 c512_i32_130
  let c2048_i32_135 : BitVec 32 := 2048#32
  ![v171.toNat, 2048]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_141 : BitVec 32 := 512#32
  let v182 : BitVec 32 := Scalar.muli v2 c512_i32_141
  let v183 : Index := Scalar.indexCast v182
  let c0_142 : Index := 0#32
  ![v183.toNat, 0]
def k0_off12 (d0 : Dev nD) (c1_i32_148 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let v190 : BitVec 32 := Scalar.subi v5 c1_i32_148
  let c4_i32_149 : BitVec 32 := 4#32
  let v191 : BitVec 32 := Scalar.addi v190 c4_i32_149
  let c4_i32_150 : BitVec 32 := 4#32
  let v192 : BitVec 32 := Scalar.remsi v191 c4_i32_150
  let v193 : BitVec 32 := Scalar.addi v4 v192
  let c512_i32_151 : BitVec 32 := 512#32
  let v194 : BitVec 32 := Scalar.muli v193 c512_i32_151
  let c4096_i32_156 : BitVec 32 := 4096#32
  ![v194.toNat, 4096]
def k0_off13 (d0 : Dev nD) (c1_i32_168 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let v213 : BitVec 32 := Scalar.subi v5 c1_i32_168
  let c4_i32_169 : BitVec 32 := 4#32
  let v214 : BitVec 32 := Scalar.addi v213 c4_i32_169
  let c4_i32_170 : BitVec 32 := 4#32
  let v215 : BitVec 32 := Scalar.remsi v214 c4_i32_170
  let v216 : BitVec 32 := Scalar.addi v4 v215
  let c512_i32_171 : BitVec 32 := 512#32
  let v217 : BitVec 32 := Scalar.muli v216 c512_i32_171
  let c6144_i32_176 : BitVec 32 := 6144#32
  ![v217.toNat, 6144]
def k0_off14 (d0 : Dev nD) (c1_i32_208 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let v259 : BitVec 32 := Scalar.subi v5 c1_i32_208
  let c4_i32_209 : BitVec 32 := 4#32
  let v260 : BitVec 32 := Scalar.addi v259 c4_i32_209
  let c4_i32_210 : BitVec 32 := 4#32
  let v261 : BitVec 32 := Scalar.remsi v260 c4_i32_210
  let v262 : BitVec 32 := Scalar.addi v4 v261
  ![v262.toNat]
def k0_off15 (d0 : Dev nD) (c1_i32_208 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let v259 : BitVec 32 := Scalar.subi v5 c1_i32_208
  let c4_i32_209 : BitVec 32 := 4#32
  let v260 : BitVec 32 := Scalar.addi v259 c4_i32_209
  let c4_i32_210 : BitVec 32 := 4#32
  let v261 : BitVec 32 := Scalar.remsi v260 c4_i32_210
  let v262 : BitVec 32 := Scalar.addi v4 v261
  let c0_i32_223 : BitVec 32 := 0#32
  let c0_i32_224 : BitVec 32 := 0#32
  ![v262.toNat, 0, 0]
def k0_off16 (d0 : Dev nD) (c1_i32_208 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v5 : BitVec 32 := Scalar.subi v2 v4
  let v259 : BitVec 32 := Scalar.subi v5 c1_i32_208
  let c4_i32_209 : BitVec 32 := 4#32
  let v260 : BitVec 32 := Scalar.addi v259 c4_i32_209
  let c4_i32_210 : BitVec 32 := 4#32
  let v261 : BitVec 32 := Scalar.remsi v260 c4_i32_210
  let v262 : BitVec 32 := Scalar.addi v4 v261
  let v286 : Index := Scalar.indexCast v262
  let c0_232 : Index := 0#32
  let c0_233 : Index := 0#32
  ![v286.toNat, 0, 0]
def k0_off17 (d0 : Dev nD) (c0_i32_412 : BitVec 32) : Fin 2 → Nat :=
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let v489 : BitVec 32 := Scalar.subi v5 c0_i32_412
  let c4_i32_413 : BitVec 32 := 4#32
  let v490 : BitVec 32 := Scalar.addi v489 c4_i32_413
  let c4_i32_414 : BitVec 32 := 4#32
  let v491 : BitVec 32 := Scalar.remsi v490 c4_i32_414
  let v492 : BitVec 32 := Scalar.addi v6 v491
  let c512_i32_415 : BitVec 32 := 512#32
  let v493 : BitVec 32 := Scalar.muli v492 c512_i32_415
  let c0_i32_420 : BitVec 32 := 0#32
  ![v493.toNat, 0]
def k0_off18 (d0 : Dev nD) (c0_i32_439 : BitVec 32) : Fin 2 → Nat :=
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let v519 : BitVec 32 := Scalar.subi v5 c0_i32_439
  let c4_i32_440 : BitVec 32 := 4#32
  let v520 : BitVec 32 := Scalar.addi v519 c4_i32_440
  let c4_i32_441 : BitVec 32 := 4#32
  let v521 : BitVec 32 := Scalar.remsi v520 c4_i32_441
  let v522 : BitVec 32 := Scalar.addi v6 v521
  let c512_i32_442 : BitVec 32 := 512#32
  let v523 : BitVec 32 := Scalar.muli v522 c512_i32_442
  let c2048_i32_447 : BitVec 32 := 2048#32
  ![v523.toNat, 2048]
def k0_off19 (d0 : Dev nD) (c0_i32_473 : BitVec 32) : Fin 2 → Nat :=
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let v557 : BitVec 32 := Scalar.subi v5 c0_i32_473
  let c4_i32_474 : BitVec 32 := 4#32
  let v558 : BitVec 32 := Scalar.addi v557 c4_i32_474
  let c4_i32_475 : BitVec 32 := 4#32
  let v559 : BitVec 32 := Scalar.remsi v558 c4_i32_475
  let v560 : BitVec 32 := Scalar.addi v6 v559
  let c512_i32_476 : BitVec 32 := 512#32
  let v561 : BitVec 32 := Scalar.muli v560 c512_i32_476
  let c4096_i32_481 : BitVec 32 := 4096#32
  ![v561.toNat, 4096]
def k0_off20 (d0 : Dev nD) (c0_i32_500 : BitVec 32) : Fin 2 → Nat :=
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let v587 : BitVec 32 := Scalar.subi v5 c0_i32_500
  let c4_i32_501 : BitVec 32 := 4#32
  let v588 : BitVec 32 := Scalar.addi v587 c4_i32_501
  let c4_i32_502 : BitVec 32 := 4#32
  let v589 : BitVec 32 := Scalar.remsi v588 c4_i32_502
  let v590 : BitVec 32 := Scalar.addi v6 v589
  let c512_i32_503 : BitVec 32 := 512#32
  let v591 : BitVec 32 := Scalar.muli v590 c512_i32_503
  let c6144_i32_508 : BitVec 32 := 6144#32
  ![v591.toNat, 6144]
def k0_off21 (d0 : Dev nD) (c0_i32_551 : BitVec 32) : Fin 1 → Nat :=
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let v643 : BitVec 32 := Scalar.subi v5 c0_i32_551
  let c4_i32_552 : BitVec 32 := 4#32
  let v644 : BitVec 32 := Scalar.addi v643 c4_i32_552
  let c4_i32_553 : BitVec 32 := 4#32
  let v645 : BitVec 32 := Scalar.remsi v644 c4_i32_553
  let v646 : BitVec 32 := Scalar.addi v6 v645
  ![v646.toNat]
def k0_off22 (d0 : Dev nD) (c0_i32_551 : BitVec 32) : Fin 3 → Nat :=
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let v643 : BitVec 32 := Scalar.subi v5 c0_i32_551
  let c4_i32_552 : BitVec 32 := 4#32
  let v644 : BitVec 32 := Scalar.addi v643 c4_i32_552
  let c4_i32_553 : BitVec 32 := 4#32
  let v645 : BitVec 32 := Scalar.remsi v644 c4_i32_553
  let v646 : BitVec 32 := Scalar.addi v6 v645
  let c0_i32_566 : BitVec 32 := 0#32
  let c0_i32_567 : BitVec 32 := 0#32
  ![v646.toNat, 0, 0]
def k0_off23 (d0 : Dev nD) (c0_i32_551 : BitVec 32) : Fin 3 → Nat :=
  let c4_i32_1 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_0 : BitVec 32 := 4#32
  let v4 : BitVec 32 := Scalar.muli v3 c4_i32_0
  let v6 : BitVec 32 := Scalar.subi c4_i32_1 v4
  let v5 : BitVec 32 := Scalar.subi v2 v4
  let v643 : BitVec 32 := Scalar.subi v5 c0_i32_551
  let c4_i32_552 : BitVec 32 := 4#32
  let v644 : BitVec 32 := Scalar.addi v643 c4_i32_552
  let c4_i32_553 : BitVec 32 := 4#32
  let v645 : BitVec 32 := Scalar.remsi v644 c4_i32_553
  let v646 : BitVec 32 := Scalar.addi v6 v645
  let v670 : Index := Scalar.indexCast v646
  let c0_575 : Index := 0#32
  let c0_576 : Index := 0#32
  ![v670.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S6_S1_0 : ∀ a, (![0] : Fin 1 → Nat) a + S1.size a ≤ S6.size a
  squeezes_S1_S_ : S1.Squeezes S_
  inb_S6x512x2048_S1x512x2048_0_0_0 : ∀ a, (![0, 0, 0] : Fin 3 → Nat) a + S1x512x2048.size a ≤ S6x512x2048.size a
  squeezes_S1x512x2048_S512x2048 : S1x512x2048.Squeezes S512x2048
  inb_S6_S1_1 : ∀ a, (![1] : Fin 1 → Nat) a + S1.size a ≤ S6.size a
  inb_S6x512x2048_S1x512x2048_1_0_0 : ∀ a, (![1, 0, 0] : Fin 3 → Nat) a + S1x512x2048.size a ≤ S6x512x2048.size a
  inb_S6_S1_2 : ∀ a, (![2] : Fin 1 → Nat) a + S1.size a ≤ S6.size a
  inb_S6x512x2048_S1x512x2048_2_0_0 : ∀ a, (![2, 0, 0] : Fin 3 → Nat) a + S1x512x2048.size a ≤ S6x512x2048.size a
  inb_S6_S1_3 : ∀ a, (![3] : Fin 1 → Nat) a + S1.size a ≤ S6.size a
  inb_S6x512x2048_S1x512x2048_3_0_0 : ∀ a, (![3, 0, 0] : Fin 3 → Nat) a + S1x512x2048.size a ≤ S6x512x2048.size a
  inb_S6_S1_4 : ∀ a, (![4] : Fin 1 → Nat) a + S1.size a ≤ S6.size a
  inb_S6x512x2048_S1x512x2048_4_0_0 : ∀ a, (![4, 0, 0] : Fin 3 → Nat) a + S1x512x2048.size a ≤ S6x512x2048.size a
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  packedbf16_S4096x512_S4096x512_0_0 : (Rect.unit (s := S4096x512) ![0, 0] S4096x512.size inb_S4096x512_S4096x512_0_0).PackedRows (EltTy.packing .bf16)
  hamt_7 : (7#32 : BitVec 32).msb = false
  inb_S7_S1_0 : ∀ a, (![0] : Fin 1 → Nat) a + S1.size a ≤ S7.size a
  squeezes_S1x512x512_S512x512 : S1x512x512.Squeezes S512x512
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  inb_S6_S1_5 : ∀ a, (![5] : Fin 1 → Nat) a + S1.size a ≤ S6.size a
  inb_S6x512x2048_S1x512x2048_5_0_0 : ∀ a, (![5, 0, 0] : Fin 3 → Nat) a + S1x512x2048.size a ≤ S6x512x2048.size a
  h_S512x512 : 0 < S512x512.numel
  shapeCasts_S512x512_S512x512 : S512x512.ShapeCasts S512x512
  h_S1x512x2048 : 0 < S1x512x2048.numel
  shapeCasts_S1x512x2048_S512x2048 : S1x512x2048.ShapeCasts S512x2048
  inb_S512x8192_S512x2048_0_0 : ∀ a, (![0, 0] : Fin 2 → Nat) a + S512x2048.size a ≤ S512x8192.size a
  h_S512x2048 : 0 < S512x2048.numel
  inb_S512x8192_S512x2048_0_2048 : ∀ a, (![0, 2048] : Fin 2 → Nat) a + S512x2048.size a ≤ S512x8192.size a
  inb_S512x8192_S512x2048_0_4096 : ∀ a, (![0, 4096] : Fin 2 → Nat) a + S512x2048.size a ≤ S512x8192.size a
  inb_S512x8192_S512x2048_0_6144 : ∀ a, (![0, 6144] : Fin 2 → Nat) a + S512x2048.size a ≤ S512x8192.size a
  h_S1x512x512 : 0 < S1x512x512.numel
  shapeCasts_S1x512x512_S512x512 : S1x512x512.ShapeCasts S512x512
  shapeCasts_S512x2048_S512x2048 : S512x2048.ShapeCasts S512x2048
  dot_S512x512_S512x2048_S512x2048_1_0_0_1_n_n_wf : DotDims.WF S512x512 S512x2048 S512x2048 [1] [0] [0] [1] [] []
  hcc0_scratch3 : 2 + S7.numel ≤ 23
  hcc0_scratch4 : 9 + S8.numel ≤ 23
  hcc0_scratch5 : 17 + S6.numel ≤ 23
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S512x2048.size a ≤ S4096x8192.size a
  k0_off2_inb : ∀ d0 : Dev nD, ∀ a, (k0_off2 d0) a + S512x2048.size a ≤ S4096x8192.size a
  k0_off3_inb : ∀ d0 : Dev nD, ∀ a, (k0_off3 d0) a + S512x2048.size a ≤ S4096x8192.size a
  k0_off4_inb : ∀ d0 : Dev nD, ∀ a, (k0_off4 d0) a + S512x2048.size a ≤ S4096x8192.size a
  k0_off5_inb : ∀ d0 : Dev nD, ∀ (r : Fin 3), ∀ a, (k0_off5 d0 (BitVec.ofNat 32 (1 + r.val))) a + S512x2048.size a ≤ S4096x8192.size a
  k0_off6_inb : ∀ d0 : Dev nD, ∀ a, (k0_off6 d0) a + S1.size a ≤ S8.size a
  k0_off7_inb : ∀ d0 : Dev nD, ∀ a, (k0_off7 d0) a + S1x512x512.size a ≤ S8x512x512.size a
  k0_off8_inb : ∀ d0 : Dev nD, ∀ (r : Fin 3), ∀ a, (k0_off8 d0 (BitVec.ofNat 32 (1 + r.val))) a + S512x512.size a ≤ S4096x512.size a
  k0_off8_wordsbf16 : ∀ d0 : Dev nD, ∀ (r : Fin 3), (Rect.unit (s := S4096x512) (k0_off8 d0 (BitVec.ofNat 32 (1 + r.val))) S512x512.size (k0_off8_inb d0 r)).WholeWords (EltTy.packing .bf16)
  k0_off7_wordsbf16 : ∀ d0 : Dev nD, (Rect.unit (s := S8x512x512) (k0_off7 d0) S1x512x512.size (k0_off7_inb d0)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off9_inb : ∀ d0 : Dev nD, ∀ (r : Fin 4), ∀ a, (k0_off9 d0 (BitVec.ofNat 32 r.val)) a + S512x512.size a ≤ S4096x512.size a
  k0_off9_wordsbf16 : ∀ d0 : Dev nD, ∀ (r : Fin 4), (Rect.unit (s := S4096x512) (k0_off9 d0 (BitVec.ofNat 32 r.val)) S512x512.size (k0_off9_inb d0 r)).WholeWords (EltTy.packing .bf16)
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off10_inb : ∀ d0 : Dev nD, ∀ (r : Fin 3), ∀ a, (k0_off10 d0 (BitVec.ofNat 32 (1 + r.val))) a + S512x2048.size a ≤ S4096x8192.size a
  k0_off11_inb : ∀ d0 : Dev nD, ∀ a, (k0_off11 d0) a + S512x512.size a ≤ S4096x512.size a
  k0_off12_inb : ∀ d0 : Dev nD, ∀ (r : Fin 3), ∀ a, (k0_off12 d0 (BitVec.ofNat 32 (1 + r.val))) a + S512x2048.size a ≤ S4096x8192.size a
  k0_off13_inb : ∀ d0 : Dev nD, ∀ (r : Fin 3), ∀ a, (k0_off13 d0 (BitVec.ofNat 32 (1 + r.val))) a + S512x2048.size a ≤ S4096x8192.size a
  k0_off14_inb : ∀ d0 : Dev nD, ∀ (r : Fin 3), ∀ a, (k0_off14 d0 (BitVec.ofNat 32 (1 + r.val))) a + S1.size a ≤ S8.size a
  k0_off15_inb : ∀ d0 : Dev nD, ∀ (r : Fin 3), ∀ a, (k0_off15 d0 (BitVec.ofNat 32 (1 + r.val))) a + S1x512x512.size a ≤ S8x512x512.size a
  k0_off15_wordsbf16 : ∀ d0 : Dev nD, ∀ (r : Fin 3), (Rect.unit (s := S8x512x512) (k0_off15 d0 (BitVec.ofNat 32 (1 + r.val))) S1x512x512.size (k0_off15_inb d0 r)).WholeWords (EltTy.packing .bf16)
  k0_off16_inb : ∀ d0 : Dev nD, ∀ (r : Fin 3), ∀ a, (k0_off16 d0 (BitVec.ofNat 32 (1 + r.val))) a + S1x512x512.size a ≤ S8x512x512.size a
  k0_off17_inb : ∀ d0 : Dev nD, ∀ (r : Fin 4), ∀ a, (k0_off17 d0 (BitVec.ofNat 32 r.val)) a + S512x2048.size a ≤ S4096x8192.size a
  k0_off18_inb : ∀ d0 : Dev nD, ∀ (r : Fin 4), ∀ a, (k0_off18 d0 (BitVec.ofNat 32 r.val)) a + S512x2048.size a ≤ S4096x8192.size a
  k0_off19_inb : ∀ d0 : Dev nD, ∀ (r : Fin 4), ∀ a, (k0_off19 d0 (BitVec.ofNat 32 r.val)) a + S512x2048.size a ≤ S4096x8192.size a
  k0_off20_inb : ∀ d0 : Dev nD, ∀ (r : Fin 4), ∀ a, (k0_off20 d0 (BitVec.ofNat 32 r.val)) a + S512x2048.size a ≤ S4096x8192.size a
  k0_off21_inb : ∀ d0 : Dev nD, ∀ (r : Fin 4), ∀ a, (k0_off21 d0 (BitVec.ofNat 32 r.val)) a + S1.size a ≤ S8.size a
  k0_off22_inb : ∀ d0 : Dev nD, ∀ (r : Fin 4), ∀ a, (k0_off22 d0 (BitVec.ofNat 32 r.val)) a + S1x512x512.size a ≤ S8x512x512.size a
  k0_off22_wordsbf16 : ∀ d0 : Dev nD, ∀ (r : Fin 4), (Rect.unit (s := S8x512x512) (k0_off22 d0 (BitVec.ofNat 32 r.val)) S1x512x512.size (k0_off22_inb d0 r)).WholeWords (EltTy.packing .bf16)
  k0_off23_inb : ∀ d0 : Dev nD, ∀ (r : Fin 4), ∀ a, (k0_off23 d0 (BitVec.ofNat 32 r.val)) a + S1x512x512.size a ≤ S8x512x512.size a
  hstage0_0 : ∀ j, (stage0_0 j).IsWhole
  hstage0_1 : ∀ j, (stage0_1 j).IsWhole

variable [Facts₀]

abbrev cc0_scratch3 : DmaSems sig S7 := SemArray.consecutive 2 S7 hcc0_scratch3
abbrev cc0_scratch4 : DmaSems sig S8 := SemArray.consecutive 9 S8 hcc0_scratch4
abbrev cc0_scratch5 : DmaSems sig S6 := SemArray.consecutive 17 S6 hcc0_scratch5
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.A2A.Peers.lean ====
import proofs.«900488_g7700000000000489_dist_a2a_gemm_m4096_k4096_n8192_f32_none_v7x_i8_1_alg».proof.Proof.Gen.KernelIdeal

namespace Cert.KernelIdeal.A2A

open Cert.KernelIdeal Cert.KernelIdeal.Gen Idealize.ShloMosaic

def base (c : Dev nD) : Nat := c.val / 4 * 4

def pos (c : Dev nD) : Nat := c.val - c.val / 4 * 4

def obase (c : Dev nD) : Nat := 4 - c.val / 4 * 4

def ringAt (c : Dev nD) (i : Fin 7) : Dev nD := ⟨(c.val + 1 + i.val) % 8, Nat.mod_lt _ (by decide)⟩

def dstAt (c : Dev nD) (i : Fin 7) : Dev nD :=
  if h : i.val < 3 then ⟨base c + (pos c + (i.val + 1)) % 4, by
    have hc : c.val < 8 := c.isLt
    show c.val / 4 * 4 + (c.val - c.val / 4 * 4 + (i.val + 1)) % 4 < 8
    omega⟩
  else ⟨obase c + (pos c + (i.val - 3)) % 4, by
    have hc : c.val < 8 := c.isLt
    show 4 - c.val / 4 * 4 + (c.val - c.val / 4 * 4 + (i.val - 3)) % 4 < 8
    omega⟩

def srcAt (c : Dev nD) (h : Fin 8) : Dev nD :=
  if h0 : h.val = 0 then c
  else if h3 : h.val ≤ 3 then ⟨base c + (pos c + 4 - h.val) % 4, by
    have hc : c.val < 8 := c.isLt
    show c.val / 4 * 4 + (c.val - c.val / 4 * 4 + 4 - h.val) % 4 < 8
    omega⟩
  else ⟨obase c + (pos c + 4 - (h.val - 4)) % 4, by
    have hc : c.val < 8 := c.isLt
    show 4 - c.val / 4 * 4 + (c.val - c.val / 4 * 4 + 4 - (h.val - 4)) % 4 < 8
    omega⟩

theorem dev1_eq (c : Dev nD) : (⟨k0_dev1 c, k0_dev1_lt c⟩ : Dev nD) = ringAt c 0 := Fin.ext (k0_dev1_eq c)
theorem dev2_eq (c : Dev nD) : (⟨k0_dev2 c, k0_dev2_lt c⟩ : Dev nD) = ringAt c 1 := Fin.ext (k0_dev2_eq c)
theorem dev3_eq (c : Dev nD) : (⟨k0_dev3 c, k0_dev3_lt c⟩ : Dev nD) = ringAt c 2 := Fin.ext (k0_dev3_eq c)
theorem dev4_eq (c : Dev nD) : (⟨k0_dev4 c, k0_dev4_lt c⟩ : Dev nD) = ringAt c 3 := Fin.ext (k0_dev4_eq c)
theorem dev5_eq (c : Dev nD) : (⟨k0_dev5 c, k0_dev5_lt c⟩ : Dev nD) = ringAt c 4 := Fin.ext (k0_dev5_eq c)
theorem dev6_eq (c : Dev nD) : (⟨k0_dev6 c, k0_dev6_lt c⟩ : Dev nD) = ringAt c 5 := Fin.ext (k0_dev6_eq c)
theorem dev7_eq (c : Dev nD) : (⟨k0_dev7 c, k0_dev7_lt c⟩ : Dev nD) = ringAt c 6 := Fin.ext (k0_dev7_eq c)

theorem dev8_eq : ∀ c : Dev nD, (⟨k0_dev8 c, k0_dev8_lt c⟩ : Dev nD) = dstAt c 0 := by decide +kernel
theorem dev9_eq : ∀ c : Dev nD, (⟨k0_dev9 c, k0_dev9_lt c⟩ : Dev nD) = dstAt c 1 := by decide +kernel
theorem dev10_eq : ∀ c : Dev nD, (⟨k0_dev10 c, k0_dev10_lt c⟩ : Dev nD) = dstAt c 2 := by decide +kernel
theorem dev11_eq : ∀ c : Dev nD, (⟨k0_dev11 c, k0_dev11_lt c⟩ : Dev nD) = dstAt c 3 := by decide +kernel
theorem dev12_eq : ∀ c : Dev nD, (⟨k0_dev12 c, k0_dev12_lt c⟩ : Dev nD) = dstAt c 4 := by decide +kernel
theorem dev13_eq : ∀ c : Dev nD, (⟨k0_dev13 c, k0_dev13_lt c⟩ : Dev nD) = dstAt c 5 := by decide +kernel
theorem dev14_eq : ∀ c : Dev nD, (⟨k0_dev14 c, k0_dev14_lt c⟩ : Dev nD) = dstAt c 6 := by decide +kernel

theorem ringAt_ne : ∀ (c : Dev nD) (i : Fin 7), ringAt c i ≠ c := by decide
theorem ringAt_inj : ∀ (c : Dev nD) (i j : Fin 7), ringAt c i = ringAt c j → i = j := by decide
theorem dstAt_ne : ∀ (c : Dev nD) (i : Fin 7), dstAt c i ≠ c := by decide
theorem dstAt_inj : ∀ (c : Dev nD) (i j : Fin 7), dstAt c i = dstAt c j → i = j := by decide
theorem srcAt_inj : ∀ (c : Dev nD) (h k : Fin 8), srcAt c h = srcAt c k → h = k := by decide
theorem srcAt_surj : ∀ (c j : Dev nD), ∃ h : Fin 8, srcAt c h = j := by decide

theorem dstAt_surj : ∀ (c d : Dev nD), d ≠ c → ∃ i : Fin 7, dstAt c i = d := by decide

end Cert.KernelIdeal.A2A
-- ==== Proof.A2A.Data.lean ====
import proofs.«900488_g7700000000000489_dist_a2a_gemm_m4096_k4096_n8192_f32_none_v7x_i8_1_alg».proof.Proof.Gen.KernelIdeal.Skeleton
import proofs.«900488_g7700000000000489_dist_a2a_gemm_m4096_k4096_n8192_f32_none_v7x_i8_1_alg».proof.Proof.A2A.Peers
import Idealize.ShloMosaic.Lib.ValueIdx

noncomputable section

namespace Cert.KernelIdeal.A2A

open Cert.KernelIdeal Cert.KernelIdeal.Gen Idealize.ShloMosaic Idealize.ShloMosaic.ValueIdx

variable {F : FTy → Type} [FloatOps F]

def rowsF (X : Vec F S4096x512 .f32) (c : Dev nD) : Vec F S512x512 .f32 := fun i =>
  X (ix2 (n0 := 4096) (n1 := 512) ⟨512 * c.val + (i 0).val, by
      have hc : c.val < 8 := c.isLt
      have h0 : (i 0).val < 512 := (i 0).isLt
      omega⟩ ⟨(i 1).val, (i 1).isLt⟩)

def rowsB (X : Vec F S4096x512 .bf16) (c : Dev nD) : Vec F S1x512x512 .bf16 := fun i =>
  X (ix2 (n0 := 4096) (n1 := 512) ⟨512 * c.val + (i 1).val, by
      have hc : c.val < 8 := c.isLt
      have h1 : (i 1).val < 512 := (i 1).isLt
      omega⟩ ⟨(i 2).val, (i 2).isLt⟩)

def wBlk (W : Vec F S4096x8192 .f32) (j : Dev nD) (q : Fin 4) : Vec F S1x512x2048 .f32 := fun i =>
  W (ix2 (n0 := 4096) (n1 := 8192) ⟨512 * j.val + (i 1).val, by
      have hj : j.val < 8 := j.isLt
      have h1 : (i 1).val < 512 := (i 1).isLt
      omega⟩ ⟨2048 * q.val + (i 2).val, by
      have hq : q.val < 4 := q.isLt
      have h2 : (i 2).val < 2048 := (i 2).isLt
      omega⟩)

def narrow (X : Vec F S4096x512 .f32) : Vec F S4096x512 .bf16 := k0_pay1 X

def mm0 (a : Vec F S512x512 .f32) (w : Vec F S1x512x2048 .f32) : Vec F S512x2048 .f32 := k0_pay2 a w

def mmAcc (a : Vec F S1x512x512 .bf16) (w : Vec F S1x512x2048 .f32) (o : Vec F S512x2048 .f32) : Vec F S512x2048 .f32 :=
  k0_pay7 a w o

def roundOf (h : Nat) : Fin 8 := ⟨h % 8, Nat.mod_lt _ (by decide)⟩

def chunkAt (X : Dev nD → Vec F S4096x512 .f32) (W : Vec F S4096x8192 .f32) (c : Dev nD) (q : Fin 4) : Nat → Vec F S512x2048 .f32
  | 0 => mm0 (rowsF (X c) c) (wBlk W c q)
  | h + 1 => mmAcc (rowsB (narrow (X (srcAt c (roundOf (h + 1))))) c) (wBlk W (srcAt c (roundOf (h + 1))) q) (chunkAt X W c q h)

def outOf (X : Dev nD → Vec F S4096x512 .f32) (W : Vec F S4096x8192 .f32) (c : Dev nD) : Vec F S512x8192 .f32 := fun i =>
  chunkAt X W c ⟨(i 1).val / 2048, by
      have h1 : (i 1).val < 8192 := (i 1).isLt
      omega⟩ 7
    (ix2 (n0 := 512) (n1 := 2048) ⟨(i 0).val, (i 0).isLt⟩ ⟨(i 1).val % 2048, Nat.mod_lt _ (by decide)⟩)

end Cert.KernelIdeal.A2A

end
-- ==== Proof.A2A.Sched.lean ====
import proofs.«900488_g7700000000000489_dist_a2a_gemm_m4096_k4096_n8192_f32_none_v7x_i8_1_alg».proof.Proof.A2A.Data
import proofs.«900488_g7700000000000489_dist_a2a_gemm_m4096_k4096_n8192_f32_none_v7x_i8_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

abbrev barS : Sem sig := (SemArray.scalar (sig.barrier 0 rfl) : Sems sig S_).sem

def sendS (i : Fin 7) : DmaSem sig := ⟨2 + i.val, by have := i.isLt; show 2 + i.val < 23; omega⟩
def recvS (j : Dev nD) : DmaSem sig := ⟨9 + j.val, by have : j.val < 8 := j.isLt; show 9 + j.val < 23; omega⟩
def wS (s : Fin 6) : DmaSem sig := ⟨17 + s.val, by have := s.isLt; show 17 + s.val < 23; omega⟩

abbrev barCell (c : Dev nD) : GSem nD τ sig := ((c : Thread nD τ), .reg barS)
abbrev sendCell (c : Dev nD) (i : Fin 7) : GSem nD τ sig := ((c : Thread nD τ), .dma (sendS i))
abbrev recvCell (c j : Dev nD) : GSem nD τ sig := ((c : Thread nD τ), .dma (recvS j))

abbrev xM : Memref sig .tc .vmem S4096x512 .f32 := Memref.whole cc0_stg0_0
abbrev oM : Memref sig .tc .vmem S512x8192 .f32 := Memref.whole cc0_stg1_0
abbrev nM : Memref sig .tc .vmem S4096x512 .bf16 := Memref.whole cc0_scratch0
abbrev lM : Memref sig .tc .vmem S8x512x512 .bf16 := Memref.whole cc0_scratch1
abbrev wM : Memref sig .tc .vmem S6x512x2048 .f32 := Memref.whole cc0_scratch2

def xin (c : Dev nD) : (cc0_stg0_0 : Ref sig .tc).ty.Contents (Elt F) :=
  (win0_0.blk t0_0).view.read (Elt F) (m ((c : Thread nD τ).loc main_arg0))

def win (c : Dev nD) : Buf (Elt F) ((c : Thread nD τ).loc main_arg1) := m ((c : Thread nD τ).loc main_arg1)

def x16 (c : Dev nD) : (cc0_scratch0 : Ref sig .tc).ty.Contents (Elt F) := narrow (xin m c)

def landedAll (c : Dev nD) : (cc0_scratch1 : Ref sig .tc).ty.Contents (Elt F) := fun i =>
  rowsB (x16 m ⟨(i 0).val, (i 0).isLt⟩) c
    (ValueIdx.ix3 (n0 := 1) (n1 := 512) (n2 := 512) ⟨0, by decide⟩ ⟨(i 1).val, (i 1).isLt⟩ ⟨(i 2).val, (i 2).isLt⟩)

abbrev slotM (j : Dev nD) : Memref sig .tc .vmem S512x512 .bf16 :=
  ((lM.slice (Rect.unit (s := S8x512x512) (k0_off7 j) S1x512x512.size (k0_off7_inb j)) (fun _ => rfl)).squeeze S512x512 squeezes_S1x512x512_S512x512)

abbrev N : ℕ := (slotM (0 : Dev nD)).view.dmaCredit

def slotPts (d j : Dev nD) (f : Buf (Elt F) ((slotM j).view.loc (d : Thread nD τ))) : sProp 𝕄 :=
  (slotM j).view.loc (d : Thread nD τ) ↦[(slotM j).view.set]{fullShare} f

def srcOff (c : Dev nD) (i : Fin 7) : Fin 2 → Nat :=
  if i.val < 3 then k0_off8 c (BitVec.ofNat 32 (1 + i.val)) else k0_off9 c (BitVec.ofNat 32 (i.val - 3))

theorem srcOff_inb (c : Dev nD) (i : Fin 7) : ∀ a, srcOff c i a + S512x512.size a ≤ S4096x512.size a := by
  unfold srcOff
  by_cases h : i.val < 3
  · rw [if_pos h]; exact k0_off8_inb c ⟨i.val, h⟩
  · rw [if_neg h]; exact k0_off9_inb c ⟨i.val - 3, by have := i.isLt; omega⟩

abbrev srcSliceM (c : Dev nD) (i : Fin 7) : Memref sig .tc .vmem S512x512 .bf16 :=
  nM.slice (Rect.unit (s := S4096x512) (srcOff c i) S512x512.size (srcOff_inb c i)) (fun _ => rfl)

def srcPts (c : Dev nD) (i : Fin 7) : sProp 𝕄 :=
  (srcSliceM c i).view.loc (c : Thread nD τ) ↦[(srcSliceM c i).view.set]{fullShare} x16 m c

def barPay (c d : Dev nD) : sProp 𝕄 := iprop((∃ f, slotPts d c f) ∗ reached ER (recvCell d c) 0)

def recvPay (c j : Dev nD) : sProp 𝕄 := slotPts c j (landedAll m c)

inductive Role where
  | bar
  | send (i : Fin 7)
  | recv (j : Dev nD)
  | other

def roleOf : SemLoc sig → Role
  | .reg s => if s = barS then .bar else .other
  | .dma q =>
    if h : 2 ≤ q.val ∧ q.val < 9 then .send ⟨q.val - 2, by omega⟩
    else if h' : 9 ≤ q.val ∧ q.val < 17 then .recv ⟨q.val - 9, by show q.val - 9 < 8; omega⟩
    else .other

theorem roleOf_bar : roleOf (.reg barS) = .bar := by
  show (if (barS : Sem sig) = barS then Role.bar else Role.other) = Role.bar
  exact if_pos rfl
theorem roleOf_send (i : Fin 7) : roleOf (.dma (sendS i)) = .send i := by
  have hi := i.isLt
  show (if h : 2 ≤ 2 + i.val ∧ 2 + i.val < 9 then Role.send ⟨2 + i.val - 2, by omega⟩ else _) = _
  rw [dif_pos ⟨by omega, by omega⟩]
  exact congrArg Role.send (Fin.ext (by show 2 + i.val - 2 = i.val; omega))
theorem roleOf_recv (j : Dev nD) : roleOf (.dma (recvS j)) = .recv j := by
  have hj : j.val < 8 := j.isLt
  show (if h : 2 ≤ 9 + j.val ∧ 9 + j.val < 9 then Role.send ⟨9 + j.val - 2, by omega⟩
    else if h' : 9 ≤ 9 + j.val ∧ 9 + j.val < 17 then Role.recv ⟨9 + j.val - 9, by show 9 + j.val - 9 < 8; omega⟩ else Role.other) = _
  rw [dif_neg (by omega), dif_pos ⟨by omega, by omega⟩]
  exact congrArg Role.recv (Fin.ext (by show 9 + j.val - 9 = j.val; omega))

theorem N_pos : 0 < N := View.dmaCredit_pos _ (by decide)

def dutiesOf (c : Dev nD) : Role → Finset (Dev nD)
  | .bar => Finset.univ.erase c
  | .send _ => {c}
  | .recv j => if j = c then ∅ else {j}
  | .other => ∅

def unitsOf : Role → ℕ
  | .bar => 1
  | _ => N

theorem unitsOf_pos : (ρ : Role) → 0 < unitsOf ρ
  | .bar => Nat.one_pos
  | .send _ => N_pos
  | .recv _ => N_pos
  | .other => N_pos

def payOf (c d : Dev nD) : Role → sProp 𝕄
  | .bar => barPay c d
  | .send i => srcPts m c i
  | .recv j => recvPay m c j
  | .other => iprop(emp)

instance payOf_storable (c d : Dev nD) : (ρ : Role) → BI.Storable (upEmb : UEmb _ 𝕄) (payOf m c d ρ)
  | .bar => by show BI.Storable upEmb (barPay c d); unfold barPay slotPts; infer_instance
  | .send i => by show BI.Storable upEmb (srcPts m c i); unfold srcPts; infer_instance
  | .recv j => by show BI.Storable upEmb (recvPay m c j); unfold recvPay slotPts; infer_instance
  | .other => by show BI.Storable upEmb (iprop(emp) : sProp 𝕄); infer_instance

def sched : Rounds.Schedule (GSem nD τ sig) (Dev nD) 𝕄 where
  duties g r := if r = 0 ∧ g.1.2 = .tc then dutiesOf g.1.1 (roleOf g.2) else ∅
  amount g _ _ := unitsOf (roleOf g.2)
  payload g _ d := payOf m g.1.1 d (roleOf g.2)
  amount_pos g _ _ _ := unitsOf_pos _

instance sched_payload_storable (g : GSem nD τ sig) (r : ℕ) (d : Dev nD) :
    BI.Storable (upEmb : UEmb _ 𝕄) ((sched m).payload g r d) :=
  payOf_storable m g.1.1 d (roleOf g.2)

def Orecv (c : Dev nD) : CellTallies nD τ sig Unit :=
  tallyAt (recvCell (dstAt c 6) c) () N + tallyAt (recvCell (dstAt c 5) c) () N + tallyAt (recvCell (dstAt c 4) c) () N
    + tallyAt (recvCell (dstAt c 3) c) () N + tallyAt (recvCell (dstAt c 2) c) () N + tallyAt (recvCell (dstAt c 1) c) () N
    + tallyAt (recvCell (dstAt c 0) c) () N

def O₀ (c : Dev nD) : CellTallies nD τ sig Unit :=
  Orecv c + tallyAt (barCell (ringAt c 6)) () 1 + tallyAt (barCell (ringAt c 5)) () 1 + tallyAt (barCell (ringAt c 4)) () 1
    + tallyAt (barCell (ringAt c 3)) () 1 + tallyAt (barCell (ringAt c 2)) () 1 + tallyAt (barCell (ringAt c 1)) () 1
    + tallyAt (barCell (ringAt c 0)) () 1

def L (g : GSem nD τ sig) : Finset Unit := if g.1.2 = .tc then {()} else ∅

def lv (g : GSem nD τ sig) (_ : Unit) : ℕ :=
  match roleOf g.2 with
  | .bar => 1
  | .recv _ => 2
  | _ => 0

theorem dstAt_eq_iff (c : Dev nD) (i j : Fin 7) : dstAt c i = dstAt c j ↔ i = j :=
  ⟨dstAt_inj c i j, fun h => h ▸ rfl⟩
theorem erase_eq_image_dst (c : Dev nD) : Finset.univ.erase c = Finset.univ.image (dstAt c) := by
  ext d
  rw [Finset.mem_erase, Finset.mem_image]
  constructor
  · rintro ⟨h, -⟩; obtain ⟨i, hi⟩ := dstAt_surj c d h; exact ⟨i, Finset.mem_univ _, hi⟩
  · rintro ⟨i, -, rfl⟩; exact ⟨dstAt_ne c i, Finset.mem_univ _⟩

theorem erase_eq_dst (c : Dev nD) :
    Finset.univ.erase c = {dstAt c 0, dstAt c 1, dstAt c 2, dstAt c 3, dstAt c 4, dstAt c 5, dstAt c 6} := by
  rw [erase_eq_image_dst, show (Finset.univ : Finset (Fin 7)) = {0, 1, 2, 3, 4, 5, 6} from by decide]
  simp only [Finset.image_insert, Finset.image_singleton]

theorem duties_eq (c : Dev nD) (s : SemLoc sig) : (sched m).duties ((c : Thread nD τ), s) 0 = dutiesOf c (roleOf s) := by
  dsimp only [sched]; exact if_pos ⟨rfl, rfl⟩
theorem amount_eq (g : GSem nD τ sig) (r : ℕ) (d : Dev nD) : (sched m).amount g r d = unitsOf (roleOf g.2) := rfl
theorem payload_eq (c : Dev nD) (s : SemLoc sig) (r : ℕ) (d : Dev nD) :
    (sched m).payload ((c : Thread nD τ), s) r d = payOf m c d (roleOf s) := rfl

section Tables
variable (c : Dev nD)

theorem duties_bar : (sched m).duties (barCell c) 0 = Finset.univ.erase c := by rw [duties_eq, roleOf_bar]; rfl
theorem duties_bar_list : (sched m).duties (barCell c) 0
    = {dstAt c 0, dstAt c 1, dstAt c 2, dstAt c 3, dstAt c 4, dstAt c 5, dstAt c 6} := by rw [duties_bar, erase_eq_dst]
theorem duties_send (i : Fin 7) : (sched m).duties (sendCell c i) 0 = {c} := by rw [duties_eq, roleOf_send]; rfl
theorem duties_recv (j : Dev nD) (h : j ≠ c) : (sched m).duties (recvCell c j) 0 = {j} := by
  rw [duties_eq, roleOf_recv]; exact if_neg h

theorem duties_recv_dst (i : Fin 7) : (sched m).duties (recvCell (dstAt c i) c) 0 = {c} :=
  duties_recv m (dstAt c i) c (dstAt_ne c i).symm
theorem duties_later (g : GSem nD τ sig) : ∀ r, 1 ≤ r → (sched m).duties g r = ∅ :=
  fun r hr => by dsimp only [sched]; exact if_neg fun h => by omega

theorem mem_bar (d : Dev nD) (h : d ≠ c) : d ∈ (sched m).duties (barCell c) 0 := by
  rw [duties_bar]; exact Finset.mem_erase.mpr ⟨h, Finset.mem_univ _⟩

theorem mem_bar_ring (i : Fin 7) : c ∈ (sched m).duties (barCell (ringAt c i)) 0 := mem_bar m _ c (ringAt_ne c i).symm

theorem mem_send (i : Fin 7) : c ∈ (sched m).duties (sendCell c i) 0 := by rw [duties_send]; exact Finset.mem_singleton_self _

theorem mem_recv_dst (i : Fin 7) : c ∈ (sched m).duties (recvCell (dstAt c i) c) 0 := by
  rw [duties_recv_dst]; exact Finset.mem_singleton_self _

theorem amount_bar (r : ℕ) (d : Dev nD) : (sched m).amount (barCell c) r d = 1 := by rw [amount_eq, roleOf_bar]; rfl
theorem amount_send (i : Fin 7) (r : ℕ) (d : Dev nD) : (sched m).amount (sendCell c i) r d = N := by rw [amount_eq, roleOf_send]; rfl
theorem amount_recv (j : Dev nD) (r : ℕ) (d : Dev nD) : (sched m).amount (recvCell c j) r d = N := by rw [amount_eq, roleOf_recv]; rfl

theorem expect_bar : (sched m).expect (barCell c) 0 = 7 := by
  unfold Schedule.expect Schedule.amountOf
  rw [duties_bar, Finset.sum_congr rfl fun d _ => amount_bar m c 0 d, Finset.sum_const, Finset.card_erase_of_mem (Finset.mem_univ c),
    Finset.card_univ, Fintype.card_fin, smul_eq_mul]
  rfl
theorem expect_send (i : Fin 7) : (sched m).expect (sendCell c i) 0 = N := by
  unfold Schedule.expect Schedule.amountOf; rw [duties_send, Finset.sum_singleton, amount_send]
theorem expect_recv (j : Dev nD) (h : j ≠ c) : (sched m).expect (recvCell c j) 0 = N := by
  unfold Schedule.expect Schedule.amountOf; rw [duties_recv m c j h, Finset.sum_singleton, amount_recv]

theorem payload_bar (r : ℕ) (d : Dev nD) : (sched m).payload (barCell c) r d = barPay c d := by rw [payload_eq, roleOf_bar]; rfl
theorem payload_send (i : Fin 7) (r : ℕ) (d : Dev nD) : (sched m).payload (sendCell c i) r d = srcPts m c i := by
  rw [payload_eq, roleOf_send]; rfl
theorem payload_recv (j : Dev nD) (r : ℕ) (d : Dev nD) : (sched m).payload (recvCell c j) r d = recvPay m c j := by
  rw [payload_eq, roleOf_recv]; rfl

theorem payload_bar' (r : ℕ) (d : Dev nD) : (sched m).payload (barCell c) r d
    = iprop((∃ f, (slotM c).view.loc (d : Thread nD τ) ↦[(slotM c).view.set]{fullShare} f) ∗ reached ER (recvCell d c) 0) := payload_bar m c r d
theorem payload_send' (i : Fin 7) (r : ℕ) (d : Dev nD) : (sched m).payload (sendCell c i) r d
    = ((srcSliceM c i).view.loc (c : Thread nD τ) ↦[(srcSliceM c i).view.set]{fullShare} x16 m c : sProp 𝕄) := payload_send m c i r d
theorem payload_recv' (j : Dev nD) (r : ℕ) (d : Dev nD) : (sched m).payload (recvCell c j) r d
    = ((slotM j).view.loc (c : Thread nD τ) ↦[(slotM j).view.set]{fullShare} landedAll m c : sProp 𝕄) := payload_recv m c j r d

end Tables

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) : () ∈ L ((c : Thread nD τ), sm) := by rw [L_tc]; exact Finset.mem_singleton_self _

theorem lv_bar (c : Dev nD) : lv (barCell c) () = 1 := by unfold lv; rw [roleOf_bar]
theorem lv_recv (c j : Dev nD) : lv (recvCell c j) () = 2 := by unfold lv; rw [roleOf_recv]
theorem lv_dma_low (c : Dev nD) (q : DmaSem sig) (h : q.val < 9 ∨ 17 ≤ q.val) : lv ((c : Thread nD τ), .dma q) () = 0 := by
  unfold lv
  show (match (if h : 2 ≤ q.val ∧ q.val < 9 then Role.send ⟨q.val - 2, by omega⟩
    else if h' : 9 ≤ q.val ∧ q.val < 17 then Role.recv ⟨q.val - 9, by show q.val - 9 < 8; omega⟩ else Role.other) with
    | .bar => 1 | .recv _ => 2 | _ => 0) = 0
  by_cases h1 : 2 ≤ q.val ∧ q.val < 9
  · rw [dif_pos h1]
  · rw [dif_neg h1, dif_neg (by omega)]
theorem pos_add_tally {D : CellTallies nD τ sig Unit} {g' g : GSem nD τ sig} {k : ℕ} {u : Unit}
    (h : 0 < (D + tallyAt g' () k) g u) : 0 < D g u ∨ g = g' :=
  (Pipeline.add_pos_cases h).imp id fun h' => (Pipeline.tallyAt_pos h').1

theorem Orecv_pos {c : Dev nD} {g : GSem nD τ sig} {u : Unit} (h : 0 < Orecv c g u) : ∃ i, g = recvCell (dstAt c i) c := by
  unfold Orecv at h
  rcases pos_add_tally h with h | h; swap; · exact ⟨0, h⟩
  rcases pos_add_tally h with h | h; swap; · exact ⟨1, h⟩
  rcases pos_add_tally h with h | h; swap; · exact ⟨2, h⟩
  rcases pos_add_tally h with h | h; swap; · exact ⟨3, h⟩
  rcases pos_add_tally h with h | h; swap; · exact ⟨4, h⟩
  rcases pos_add_tally h with h | h; swap; · exact ⟨5, h⟩
  exact ⟨6, (Pipeline.tallyAt_pos h).1⟩

theorem O₀_pos {c : Dev nD} {g : GSem nD τ sig} {u : Unit} (h : 0 < O₀ c g u) :
    (∃ i, g = recvCell (dstAt c i) c) ∨ ∃ i, g = barCell (ringAt c i) := by
  unfold O₀ at h
  rcases pos_add_tally h with h | h; swap; · exact .inr ⟨0, h⟩
  rcases pos_add_tally h with h | h; swap; · exact .inr ⟨1, h⟩
  rcases pos_add_tally h with h | h; swap; · exact .inr ⟨2, h⟩
  rcases pos_add_tally h with h | h; swap; · exact .inr ⟨3, h⟩
  rcases pos_add_tally h with h | h; swap; · exact .inr ⟨4, h⟩
  rcases pos_add_tally h with h | h; swap; · exact .inr ⟨5, h⟩
  rcases pos_add_tally h with h | h; swap; · exact .inr ⟨6, h⟩
  exact .inl (Orecv_pos h)

omit [FloatOps F] in

theorem mayWait_stage (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L c _) fun g u hg => ?_
    rcases O₀_pos hg with ⟨i, rfl⟩ | ⟨i, rfl⟩
    · exact ⟨mem_L _ _, by rw [hq, lv_recv]; decide⟩
    · exact ⟨mem_L _ _, by rw [hq, lv_bar]; decide⟩
  · rw [MayWait_zero]; iintro -; iempintro

omit [FloatOps F] in

theorem mayWait_bar (c : Dev nD) :
    (levAts L lv : sProp 𝕄) ⊢ MayWait (c : Thread nD τ) (.reg barS) () (Orecv c) :=
  Pipeline.mayWait_of_levAts (mem_L c _) fun g u hg => by
    obtain ⟨i, rfl⟩ := Orecv_pos hg
    exact ⟨mem_L _ _, by rw [show lv ((c : Thread nD τ), SemLoc.reg barS) () = 1 from lv_bar c, lv_recv]; decide⟩

/-- info: 'Cert.KernelIdeal.A2A.mayWait_bar' depends on axioms: [propext, Classical.choice, Quot.sound] -/
#guard_msgs in #print axioms mayWait_bar

end Cert.KernelIdeal.A2A

end
-- ==== Proof.A2A.State.lean ====
import proofs.«900488_g7700000000000489_dist_a2a_gemm_m4096_k4096_n8192_f32_none_v7x_i8_1_alg».proof.Proof.A2A.Sched
import proofs.«900488_g7700000000000489_dist_a2a_gemm_m4096_k4096_n8192_f32_none_v7x_i8_1_alg».proof.Proof.Gen.KernelIdeal.Points
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev 𝒱₀ : Variants := Variants.none

def t₀ : Fin cfg0.N := t0_0
theorem fin_N (t : Fin cfg0.N) : t = t₀ := fin_N0 t

theorem src_succ_ne : ∀ (c : Dev nD) (h : Fin 7), srcAt c h.succ ≠ c := by decide

theorem src_succ_inj : ∀ (c : Dev nD) (h k : Fin 7), srcAt c h.succ = srcAt c k.succ → h = k := by decide

theorem src_dst : ∀ (d : Dev nD) (i : Fin 7), srcAt (dstAt d i) i.succ = d := by decide
theorem dst_src : ∀ (c : Dev nD) (i : Fin 7), dstAt (srcAt c i.succ) i = c := by decide

theorem src_succ_surj : ∀ (c j : Dev nD), j ≠ c → ∃ h : Fin 7, srcAt c h.succ = j := by decide

def ringBack (c : Dev nD) (i : Fin 7) : Dev nD := ⟨(c.val + 7 - i.val) % 8, Nat.mod_lt _ (by decide)⟩
theorem ring_back : ∀ (c : Dev nD) (i : Fin 7), ringAt (ringBack c i) i = c := by decide
theorem back_ring : ∀ (d : Dev nD) (i : Fin 7), ringBack (ringAt d i) i = d := by decide

omit [FloatOps F] in

theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in

theorem bigSep_fin6 {M : Type} [URA M] (Φ : Fin 6 → sProp M) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

def outAt (c : Dev nD) : (cc0_stg1_0 : Ref sig .tc).ty.Contents (Elt F) := outOf (fun d => xin m d) (win m c) c

def wPts (c : Dev nD) : sProp 𝕄 := (((c : Thread nD τ).loc main_arg1) ↦{fullShare} win m c : sProp 𝕄)

def scratch3 (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def wsems (c : Dev nD) : sProp 𝕄 :=
  iprop((bigSep Finset.univ fun s : Fin 6 => semVal (((c : Thread nD τ), SemLoc.dma (wS s)) : GSem nD τ sig) 0) ∗ semVal (recvCell c c) 0)

def invs (K : GSem nD τ sig → ℕ) (c : Dev nD) : sProp 𝕄 :=
  iprop(cellInv ER (sched m) (K (barCell c)) (barCell c)
    ∗ (bigSep Finset.univ fun i : Fin 7 => cellInv ER (sched m) (K (sendCell c i)) (sendCell c i))
    ∗ (bigSep Finset.univ fun h : Fin 7 => cellInv ER (sched m) (K (recvCell c (srcAt c h.succ))) (recvCell c (srcAt c h.succ)))
    ∗ (bigSep Finset.univ fun i : Fin 7 => cellInv ER (sched m) (K (barCell (ringAt c i))) (barCell (ringAt c i)))
    ∗ (bigSep Finset.univ fun i : Fin 7 => cellInv ER (sched m) (K (recvCell (dstAt c i) c)) (recvCell (dstAt c i) c)))

instance invs_persistent (K : GSem nD τ sig → ℕ) (c : Dev nD) : BI.Persistent (invs m K c) := by unfold invs; infer_instance

def posns (c : Dev nD) : sProp 𝕄 :=
  iprop(atPos ER (barCell c) 0 ∅ 0
    ∗ (bigSep Finset.univ fun i : Fin 7 => atPos ER (sendCell c i) 0 ∅ 0)
    ∗ (bigSep Finset.univ fun h : Fin 7 => atPos ER (recvCell c (srcAt c h.succ)) 0 ∅ 0))

def marks (c : Dev nD) : sProp 𝕄 :=
  iprop(reached ER (barCell c) 0
    ∗ (bigSep Finset.univ fun i : Fin 7 => reached ER (sendCell c i) 0)
    ∗ (bigSep Finset.univ fun h : Fin 7 => reached ER (recvCell c (srcAt c h.succ)) 0)
    ∗ (bigSep Finset.univ fun i : Fin 7 => reached ER (barCell (ringAt c i)) 0)
    ∗ (bigSep Finset.univ fun i : Fin 7 => reached ER (recvCell (dstAt c i) c) 0))

instance marks_persistent (c : Dev nD) : BI.Persistent (marks (F := F) c) := by unfold marks; infer_instance

def payToks (c : Dev nD) : sProp 𝕄 :=
  iprop((bigSep Finset.univ fun i : Fin 7 => dutyTok ER (barCell (ringAt c i)) 0 c)
    ∗ (bigSep Finset.univ fun i : Fin 7 => dutyTok ER (recvCell (dstAt c i) c) 0 c)
    ∗ (bigSep Finset.univ fun i : Fin 7 => dutyTok ER (sendCell c i) 0 c))

def ghost (K : GSem nD τ sig → ℕ) (c : Dev nD) : sProp 𝕄 :=
  iprop(invs m K c ∗ posns c ∗ marks c ∗ payToks c)

def start (c : Dev nD) : sProp 𝕄 :=
  iprop((∃ K, ghost m K c) ∗ cred (tallyAt (barCell c) () 7)
    ∗ (bigSep Finset.univ fun h : Fin 7 => cred (tallyAt (recvCell c (srcAt c h.succ)) () N))
    ∗ levAts L lv ∗ wsems c ∗ wPts m c)

def Φ₀ (c : Dev nD) : sProp 𝕄 := iprop(start m c ∗ scratch3 c)

def ownZero (c : Dev nD) : sProp 𝕄 :=
  iprop((bigSep Finset.univ fun i : Fin 7 => semVal (sendCell c i) 0)
    ∗ (bigSep Finset.univ fun h : Fin 7 => semVal (recvCell c (srcAt c h.succ)) 0)
    ∗ wsems c)

def Φ₁ (c : Dev nD) : sProp 𝕄 := iprop(scratch3 c ∗ ownZero c ∗ wPts m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xin m c) ∗ stg c cc0_stg1_0 (outAt m c))

end Cert.KernelIdeal.A2A

end
-- ==== Proof.A2A.Offsets.lean ====
import proofs.«900488_g7700000000000489_dist_a2a_gemm_m4096_k4096_n8192_f32_none_v7x_i8_1_alg».proof.Proof.A2A.Peers

namespace Cert.KernelIdeal.A2A

open Cert.KernelIdeal Cert.KernelIdeal.Gen Idealize.ShloMosaic

def hLo (r : Fin 3) : Fin 8 := ⟨1 + r.val, by have := r.isLt; omega⟩
def hHi (r : Fin 4) : Fin 8 := ⟨4 + r.val, by have := r.isLt; omega⟩
def iLo (r : Fin 3) : Fin 7 := ⟨r.val, by have := r.isLt; omega⟩
def iHi (r : Fin 4) : Fin 7 := ⟨3 + r.val, by have := r.isLt; omega⟩

theorem off5_eq : ∀ (c : Dev nD) (r : Fin 3), k0_off5 c (BitVec.ofNat 32 (1 + r.val)) = ![512 * (srcAt c (hLo r)).val, 2048 * (0 : Fin 4).val] := by decide +kernel
theorem off10_eq : ∀ (c : Dev nD) (r : Fin 3), k0_off10 c (BitVec.ofNat 32 (1 + r.val)) = ![512 * (srcAt c (hLo r)).val, 2048 * (1 : Fin 4).val] := by decide +kernel
theorem off12_eq : ∀ (c : Dev nD) (r : Fin 3), k0_off12 c (BitVec.ofNat 32 (1 + r.val)) = ![512 * (srcAt c (hLo r)).val, 2048 * (2 : Fin 4).val] := by decide +kernel
theorem off13_eq : ∀ (c : Dev nD) (r : Fin 3), k0_off13 c (BitVec.ofNat 32 (1 + r.val)) = ![512 * (srcAt c (hLo r)).val, 2048 * (3 : Fin 4).val] := by decide +kernel
theorem off17_eq : ∀ (c : Dev nD) (r : Fin 4), k0_off17 c (BitVec.ofNat 32 r.val) = ![512 * (srcAt c (hHi r)).val, 2048 * (0 : Fin 4).val] := by decide +kernel
theorem off18_eq : ∀ (c : Dev nD) (r : Fin 4), k0_off18 c (BitVec.ofNat 32 r.val) = ![512 * (srcAt c (hHi r)).val, 2048 * (1 : Fin 4).val] := by decide +kernel
theorem off19_eq : ∀ (c : Dev nD) (r : Fin 4), k0_off19 c (BitVec.ofNat 32 r.val) = ![512 * (srcAt c (hHi r)).val, 2048 * (2 : Fin 4).val] := by decide +kernel
theorem off20_eq : ∀ (c : Dev nD) (r : Fin 4), k0_off20 c (BitVec.ofNat 32 r.val) = ![512 * (srcAt c (hHi r)).val, 2048 * (3 : Fin 4).val] := by decide +kernel

theorem off8_eq : ∀ (c : Dev nD) (r : Fin 3), k0_off8 c (BitVec.ofNat 32 (1 + r.val)) = ![512 * (dstAt c (iLo r)).val, 0] := by decide +kernel
theorem off9_eq : ∀ (c : Dev nD) (r : Fin 4), k0_off9 c (BitVec.ofNat 32 r.val) = ![512 * (dstAt c (iHi r)).val, 0] := by decide +kernel

theorem off15_eq : ∀ (c : Dev nD) (r : Fin 3), k0_off15 c (BitVec.ofNat 32 (1 + r.val)) = ![(srcAt c (hLo r)).val, 0, 0] := by decide +kernel
theorem off16_eq : ∀ (c : Dev nD) (r : Fin 3), k0_off16 c (BitVec.ofNat 32 (1 + r.val)) = ![(srcAt c (hLo r)).val, 0, 0] := by decide +kernel
theorem off22_eq : ∀ (c : Dev nD) (r : Fin 4), k0_off22 c (BitVec.ofNat 32 r.val) = ![(srcAt c (hHi r)).val, 0, 0] := by decide +kernel
theorem off23_eq : ∀ (c : Dev nD) (r : Fin 4), k0_off23 c (BitVec.ofNat 32 r.val) = ![(srcAt c (hHi r)).val, 0, 0] := by decide +kernel

end Cert.KernelIdeal.A2A
-- ==== Proof.A2A.Reads.lean ====
import proofs.«900488_g7700000000000489_dist_a2a_gemm_m4096_k4096_n8192_f32_none_v7x_i8_1_alg».proof.Proof.A2A.Data
import proofs.«900488_g7700000000000489_dist_a2a_gemm_m4096_k4096_n8192_f32_none_v7x_i8_1_alg».proof.Proof.A2A.Offsets
import proofs.«900488_g7700000000000489_dist_a2a_gemm_m4096_k4096_n8192_f32_none_v7x_i8_1_alg».proof.Proof.A2A.Sched
import Idealize.ShloMosaic.Lib.Pipeline.Value
import Idealize.ShloMosaic.Lib.ValueIdx

noncomputable section

namespace Cert.KernelIdeal.A2A

open Cert.KernelIdeal Cert.KernelIdeal.Gen Idealize.ShloMosaic Idealize.ShloMosaic.ValueIdx
open Idealize.ShloMosaic.TcCoe

variable {F : FTy → Type} [FloatOps F]

def chunkOf (f : Vec F S512x8192 .f32) (q : Fin 4) : Vec F S512x2048 .f32 := fun x =>
  f (ix2 (n0 := 512) (n1 := 8192) ⟨(x 0).val, (x 0).isLt⟩
    ⟨2048 * q.val + (x 1).val, by have := q.isLt; have h1 : (x 1).val < 2048 := (x 1).isLt; omega⟩)

theorem chunkOf_apply (G : (cc0_stg1_0 : Ref sig .tc).ty.Contents (Elt F)) (q : Fin 4) (x : S512x2048.Idx) :
    chunkOf G q x = oM.view.read (Elt F) G (ix2 (n0 := 512) (n1 := 8192) ⟨(x 0).val, (x 0).isLt⟩
      ⟨2048 * q.val + (x 1).val, by have := q.isLt; have h1 : (x 1).val < 2048 := (x 1).isLt; omega⟩) := rfl

theorem chunk_emb (off : Fin 2 → Nat) (inb : ∀ a, off a + S512x2048.size a ≤ S512x8192.size a) (q : Fin 4)
    (h0 : off 0 = 0) (h1 : off 1 = 2048 * q.val) (x : S512x2048.Idx) :
    (Rect.unit (s := S512x8192) off S512x2048.size inb).emb x
      = ix2 (n0 := 512) (n1 := 8192) ⟨(x 0).val, (x 0).isLt⟩
          ⟨2048 * q.val + (x 1).val, by have := q.isLt; have h1 : (x 1).val < 2048 := (x 1).isLt; omega⟩ :=
  Shape.idx_ext₂ (by show off 0 + 1 * (x 0).val = (x 0).val; omega) (by show off 1 + 1 * (x 1).val = 2048 * q.val + (x 1).val; omega)

theorem readAt_chunk (off : Fin 2 → Nat) (inb : ∀ a, off a + S512x2048.size a ≤ S512x8192.size a) (q : Fin 4)
    (h0 : off 0 = 0) (h1 : off 1 = 2048 * q.val) (f : (cc0_stg1_0 : Ref sig .tc).ty.Contents (Elt F)) :
    View.readAt (Elt F) oM.view (Rect.unit (s := S512x8192) off S512x2048.size inb).toLoadRect f = chunkOf f q := by
  funext x
  rw [chunkOf_apply, ← chunk_emb off inb q h0 h1 x]
  rfl

/-- After a store through window `q`, chunk `q` is what was stored. -/
theorem chunkOf_writes_same (off : Fin 2 → Nat) (inb : ∀ a, off a + S512x2048.size a ≤ S512x8192.size a) (q : Fin 4)
    (h : off = ![0, 2048 * q.val]) (f : (cc0_stg1_0 : Ref sig .tc).ty.Contents (Elt F))
    (p : Vec F S512x2048 .f32) (L : List (View.Piece (Elt F) S512x8192 .f32)) :
    chunkOf (oM.view.writes (Elt F) f (⟨Rect.unit (s := S512x8192) off S512x2048.size inb, p⟩ :: L)) q = p := by
  funext x
  rw [chunkOf_apply, ← chunk_emb off inb q (by rw [h]; rfl) (by rw [h]; rfl) x]
  exact View.read_writes_cons_emb oM.view f (Rect.unit (s := S512x8192) off S512x2048.size inb) p L x

/-- A store through another window (its first column another multiple of 2048) leaves chunk `q` as it was. -/
theorem chunkOf_writes_other (off : Fin 2 → Nat) (inb : ∀ a, off a + S512x2048.size a ≤ S512x8192.size a) (q : Fin 4)
    (h : off 1 % 2048 = 0 ∧ off 1 ≠ 2048 * q.val) (f : (cc0_stg1_0 : Ref sig .tc).ty.Contents (Elt F))
    (p : Vec F S512x2048 .f32) (L : List (View.Piece (Elt F) S512x8192 .f32)) :
    chunkOf (oM.view.writes (Elt F) f (⟨Rect.unit (s := S512x8192) off S512x2048.size inb, p⟩ :: L)) q
      = chunkOf (oM.view.writes (Elt F) f L) q := by
  funext x
  have hx : (x 1).val < 2048 := (x 1).isLt
  have hq4 := q.isLt
  rw [chunkOf_apply, chunkOf_apply, View.writes_cons]
  refine View.read_slice_write_of_not_mem (v := oM.view) (Rect.unit (s := S512x8192) off S512x2048.size inb)
    (oM.view.writes (Elt F) f L) p Finset.univ ?_
  rw [Rect.map_emb_univ, Rect.mem_set_unit]
  intro h'
  have e1 : off 1 ≤ 2048 * q.val + (x 1).val ∧ 2048 * q.val + (x 1).val < off 1 + 2048 := h' 1
  omega

theorem chunks_ext {f g : Vec F S512x8192 .f32} (h : ∀ q, chunkOf f q = chunkOf g q) : f = g := by
  funext i
  have h1 : (i 1).val < 8192 := (i 1).isLt
  have e := congrFun (h ⟨(i 1).val / 2048, by omega⟩)
    (ix2 (n0 := 512) (n1 := 2048) ⟨(i 0).val, (i 0).isLt⟩ ⟨(i 1).val % 2048, Nat.mod_lt _ (by decide)⟩)
  have ei : ix2 (n0 := 512) (n1 := 8192) ⟨(i 0).val, (i 0).isLt⟩
      ⟨2048 * ((i 1).val / 2048) + (i 1).val % 2048, by omega⟩ = i :=
    Shape.idx_ext₂ rfl (by show 2048 * ((i 1).val / 2048) + (i 1).val % 2048 = (i 1).val; omega)
  have e' : f (ix2 (n0 := 512) (n1 := 8192) ⟨(i 0).val, (i 0).isLt⟩ ⟨2048 * ((i 1).val / 2048) + (i 1).val % 2048, by omega⟩)
      = g (ix2 (n0 := 512) (n1 := 8192) ⟨(i 0).val, (i 0).isLt⟩ ⟨2048 * ((i 1).val / 2048) + (i 1).val % 2048, by omega⟩) := e
  rw [ei] at e'
  exact e'

theorem chunkOf_outOf (X : Dev nD → Vec F S4096x512 .f32) (W : Vec F S4096x8192 .f32) (c : Dev nD) (q : Fin 4) :
    chunkOf (outOf X W c) q = chunkAt X W c q 7 := by
  funext x
  have hx1 : (x 1).val < 2048 := (x 1).isLt
  have hq := q.isLt
  have e1 : (⟨(2048 * q.val + (x 1).val) / 2048, by omega⟩ : Fin 4) = q :=
    Fin.ext (by show (2048 * q.val + (x 1).val) / 2048 = q.val; omega)
  have e2 : ix2 (n0 := 512) (n1 := 2048) ⟨(x 0).val, (x 0).isLt⟩ ⟨(2048 * q.val + (x 1).val) % 2048, Nat.mod_lt _ (by decide)⟩ = x :=
    Shape.idx_ext₂ rfl (by show (2048 * q.val + (x 1).val) % 2048 = (x 1).val; omega)
  show chunkAt X W c ⟨(2048 * q.val + (x 1).val) / 2048, by omega⟩ 7
      (ix2 (n0 := 512) (n1 := 2048) ⟨(x 0).val, (x 0).isLt⟩ ⟨(2048 * q.val + (x 1).val) % 2048, Nat.mod_lt _ (by decide)⟩) = _
  rw [e1, e2]

theorem eq_outOf_of_chunks (X : Dev nD → Vec F S4096x512 .f32) (W : Vec F S4096x8192 .f32) (c : Dev nD)
    (G : Vec F S512x8192 .f32) (h : ∀ q, chunkOf G q = chunkAt X W c q 7) : G = outOf X W c :=
  chunks_ext fun q => (h q).trans (chunkOf_outOf X W c q).symm

theorem readAt_chunk0 (inb : ∀ a, (![0, 0] : Fin 2 → Nat) a + S512x2048.size a ≤ S512x8192.size a)
    (f : (cc0_stg1_0 : Ref sig .tc).ty.Contents (Elt F)) :
    View.readAt (Elt F) oM.view (Rect.unit (s := S512x8192) ![0, 0] S512x2048.size inb).toLoadRect f = chunkOf f 0 :=
  readAt_chunk ![0, 0] inb 0 rfl rfl f
theorem readAt_chunk1 (inb : ∀ a, (![0, 2048] : Fin 2 → Nat) a + S512x2048.size a ≤ S512x8192.size a)
    (f : (cc0_stg1_0 : Ref sig .tc).ty.Contents (Elt F)) :
    View.readAt (Elt F) oM.view (Rect.unit (s := S512x8192) ![0, 2048] S512x2048.size inb).toLoadRect f = chunkOf f 1 :=
  readAt_chunk ![0, 2048] inb 1 rfl rfl f
theorem readAt_chunk2 (inb : ∀ a, (![0, 4096] : Fin 2 → Nat) a + S512x2048.size a ≤ S512x8192.size a)
    (f : (cc0_stg1_0 : Ref sig .tc).ty.Contents (Elt F)) :
    View.readAt (Elt F) oM.view (Rect.unit (s := S512x8192) ![0, 4096] S512x2048.size inb).toLoadRect f = chunkOf f 2 :=
  readAt_chunk ![0, 4096] inb 2 rfl rfl f
theorem readAt_chunk3 (inb : ∀ a, (![0, 6144] : Fin 2 → Nat) a + S512x2048.size a ≤ S512x8192.size a)
    (f : (cc0_stg1_0 : Ref sig .tc).ty.Contents (Elt F)) :
    View.readAt (Elt F) oM.view (Rect.unit (s := S512x8192) ![0, 6144] S512x2048.size inb).toLoadRect f = chunkOf f 3 :=
  readAt_chunk ![0, 6144] inb 3 rfl rfl f
end Cert.KernelIdeal.A2A

end
-- ==== Proof.A2A.BodyCtx.lean ====
import proofs.«900488_g7700000000000489_dist_a2a_gemm_m4096_k4096_n8192_f32_none_v7x_i8_1_alg».proof.Proof.A2A.State
import proofs.«900488_g7700000000000489_dist_a2a_gemm_m4096_k4096_n8192_f32_none_v7x_i8_1_alg».proof.Proof.A2A.Reads

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev aM : Memref sig .tc .hbm S4096x8192 .f32 := Memref.whole main_arg1

theorem succ_round0 : (0 : Fin 7).succ = (1 : Fin 8) := rfl
theorem succ_round1 : (1 : Fin 7).succ = (2 : Fin 8) := rfl
theorem succ_round2 : (2 : Fin 7).succ = (3 : Fin 8) := rfl
theorem succ_round3 : (3 : Fin 7).succ = (4 : Fin 8) := rfl
theorem succ_round4 : (4 : Fin 7).succ = (5 : Fin 8) := rfl
theorem succ_round5 : (5 : Fin 7).succ = (6 : Fin 8) := rfl
theorem succ_round6 : (6 : Fin 7).succ = (7 : Fin 8) := rfl
theorem wS_0 : wS 0 = 17 := rfl
theorem wS_1 : wS 1 = 18 := rfl
theorem wS_2 : wS 2 = 19 := rfl
theorem wS_3 : wS 3 = 20 := rfl
theorem wS_4 : wS 4 = 21 := rfl
theorem wS_5 : wS 5 = 22 := rfl

/-- The i-th read share of device `c`'s weights. -/
abbrev wTok (c : Dev nD) (i : ℕ) : sProp 𝕄 :=
  ((aM : Memref sig .tc .hbm S4096x8192 .f32).view.loc (c : Thread nD τ) ↦{Transfers.shareTokN fullShare i} win m c)

/-- The six read shares that go with the weight-slot semaphores. -/
def wShares (c : Dev nD) : sProp 𝕄 :=
  iprop(wTok m c 17 ∗ wTok m c 18 ∗ wTok m c 19 ∗ wTok m c 20 ∗ wTok m c 21 ∗ wTok m c 22)

/-- Slot `j` of device `c`'s landing buffer at contents `f`, by its own elements. -/
abbrev slotAt (c j : Dev nD) (f : (cc0_scratch1 : Ref sig .tc).ty.Contents (Elt F)) : sProp 𝕄 :=
  ((slotM j).view.loc (c : Thread nD τ) ↦[(slotM j).view.set]{fullShare} f)

/-- What the body runs from: its cells' ghost state, its credit and debt, its counters, and the buffers (the weights as six read shares, the landing buffer slot by slot). -/
def Ctx0 (K : GSem nD τ sig → ℕ) (c : Dev nD)
    (fo : (cc0_stg1_0 : Ref sig .tc).ty.Contents (Elt F)) (f16 : (cc0_scratch0 : Ref sig .tc).ty.Contents (Elt F))
    (fl : (cc0_scratch1 : Ref sig .tc).ty.Contents (Elt F)) (fw : (cc0_scratch2 : Ref sig .tc).ty.Contents (Elt F))
    (W : Waits sig Unit) : sProp 𝕄 :=
  iprop(invs m K c ∗ marks c
    ∗ (bigSep Finset.univ fun i : Fin 7 => reached ER (recvCell c (ringAt c i)) 0)
    ∗ posns c ∗ payToks c
    ∗ cred (tallyAt (barCell c) () 7)
    ∗ (bigSep Finset.univ fun h : Fin 7 => cred (tallyAt (recvCell c (srcAt c h.succ)) () N))
    ∗ levAts L lv
    ∗ owes (c : Thread nD τ) (O₀ c) W
    ∗ wsems c
    ∗ ((xM : Memref sig .tc .vmem S4096x512 .f32).view.loc (c : Thread nD τ) ↦{fullShare} xin m c)
    ∗ ((oM : Memref sig .tc .vmem S512x8192 .f32).view.loc (c : Thread nD τ) ↦{fullShare} fo)
    ∗ wShares m c
    ∗ ((nM : Memref sig .tc .vmem S4096x512 .bf16).view.loc (c : Thread nD τ) ↦{fullShare} f16)
    ∗ ((wM : Memref sig .tc .vmem S6x512x2048 .f32).view.loc (c : Thread nD τ) ↦{fullShare} fw)
    ∗ (bigSep Finset.univ fun i : Fin 7 => slotAt c (ringAt c i) fl)
    ∗ slotAt c c fl)

/-- What the run ends with: each send and receive cell a round on, nothing owed, counters and buffers back, every other device's rows landed, the result's four chunks at the eight rounds' sums. -/
def Ctx1 (K : GSem nD τ sig → ℕ) (c : Dev nD) (W' : Waits sig Unit) : sProp 𝕄 :=
  iprop(((bigSep Finset.univ fun i : Fin 7 => iprop(cellInv ER (sched m) (K (sendCell c i)) (sendCell c i) ∗ atPos ER (sendCell c i) 1 ∅ 0))
    ∗ (bigSep Finset.univ fun h : Fin 7 => iprop(cellInv ER (sched m) (K (recvCell c (srcAt c h.succ))) (recvCell c (srcAt c h.succ))
        ∗ atPos ER (recvCell c (srcAt c h.succ)) 1 ∅ 0))
    ∗ owes (c : Thread nD τ) 0 W'
    ∗ wsems c
    ∗ ((xM : Memref sig .tc .vmem S4096x512 .f32).view.loc (c : Thread nD τ) ↦{fullShare} xin m c)
    ∗ wShares m c
    ∗ (∃ f, (nM : Memref sig .tc .vmem S4096x512 .bf16).view.loc (c : Thread nD τ) ↦{fullShare} f)
    ∗ (∃ f, (wM : Memref sig .tc .vmem S6x512x2048 .f32).view.loc (c : Thread nD τ) ↦{fullShare} f)
    ∗ (bigSep Finset.univ fun h : Fin 7 => slotAt c (srcAt c h.succ) (landedAll m c))
    ∗ (∃ f, slotAt c c f))
    ∗ (∃ fo1, ((oM : Memref sig .tc .vmem S512x8192 .f32).view.loc (c : Thread nD τ) ↦{fullShare} fo1)
      ∗ ⌜chunkOf fo1 0 = chunkAt (fun d => xin m d) (win m c) c 0 7 ∧ chunkOf fo1 1 = chunkAt (fun d => xin m d) (win m c) c 1 7
        ∧ chunkOf fo1 2 = chunkAt (fun d => xin m d) (win m c) c 2 7 ∧ chunkOf fo1 3 = chunkAt (fun d => xin m d) (win m c) c 3 7⌝))

end Cert.KernelIdeal.A2A

end
-- ==== Proof.A2A.Landing.lean ====
import proofs.«900488_g7700000000000489_dist_a2a_gemm_m4096_k4096_n8192_f32_none_v7x_i8_1_alg».proof.Proof.A2A.Data
import proofs.«900488_g7700000000000489_dist_a2a_gemm_m4096_k4096_n8192_f32_none_v7x_i8_1_alg».proof.Proof.A2A.Offsets
import proofs.«900488_g7700000000000489_dist_a2a_gemm_m4096_k4096_n8192_f32_none_v7x_i8_1_alg».proof.Proof.A2A.Sched
import Idealize.ShloMosaic.Lib.Pipeline.Value
import Idealize.ShloMosaic.Lib.ValueIdx

noncomputable section

namespace Cert.KernelIdeal.A2A

open Cert.KernelIdeal Cert.KernelIdeal.Gen Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem slot_emb (j : Dev nD) (x : S512x512.Idx) :
    (slotM j).view.emb x
      = ix3 (n0 := 8) (n1 := 512) (n2 := 512) ⟨j.val, j.isLt⟩ ⟨(x 0).val, (x 0).isLt⟩ ⟨(x 1).val, (x 1).isLt⟩ := by
  have hr := Shape.reshapeEquiv_cons_one (n := 2) (d := ![512, 512]) squeezes_S1x512x512_S512x512.numel_eq x
  have v0 : ((Shape.reshapeEquiv squeezes_S1x512x512_S512x512.numel_eq x : S1x512x512.Idx) 0).val = 0 := by rw [hr]; rfl
  have v1 : ((Shape.reshapeEquiv squeezes_S1x512x512_S512x512.numel_eq x : S1x512x512.Idx) 1).val = (x 0).val := by rw [hr]; rfl
  have v2 : ((Shape.reshapeEquiv squeezes_S1x512x512_S512x512.numel_eq x : S1x512x512.Idx) 2).val = (x 1).val := by rw [hr]; rfl
  have o0 : k0_off7 j 0 = j.val := by rw [k0_off7_eq]; rfl
  have o1 : k0_off7 j 1 = 0 := by rw [k0_off7_eq]; rfl
  have o2 : k0_off7 j 2 = 0 := by rw [k0_off7_eq]; rfl
  funext a
  refine Fin.ext ?_
  match a with
  | ⟨0, _⟩ =>
    show k0_off7 j 0 + 1 * ((Shape.reshapeEquiv squeezes_S1x512x512_S512x512.numel_eq x : S1x512x512.Idx) 0).val = j.val
    omega
  | ⟨1, _⟩ =>
    show k0_off7 j 1 + 1 * ((Shape.reshapeEquiv squeezes_S1x512x512_S512x512.numel_eq x : S1x512x512.Idx) 1).val = (x 0).val
    omega
  | ⟨2, _⟩ =>
    show k0_off7 j 2 + 1 * ((Shape.reshapeEquiv squeezes_S1x512x512_S512x512.numel_eq x : S1x512x512.Idx) 2).val = (x 1).val
    omega

theorem slot_write_emb (j d : Dev nD) (off : Fin 2 → Nat) (inb : ∀ a, off a + S512x512.size a ≤ S4096x512.size a)
    (h0 : off 0 = 512 * d.val) (h1 : off 1 = 0)
    (fd : (cc0_scratch1 : Ref sig .tc).ty.Contents (Elt F)) (fs : (cc0_scratch0 : Ref sig .tc).ty.Contents (Elt F)) (x : S512x512.Idx) :
    (slotM j).view.write (Elt F) fd
        ((nM.slice (Rect.unit (s := S4096x512) off S512x512.size inb) (fun _ => rfl)).view.read (Elt F) fs) Finset.univ
        ((slotM j).view.emb x)
      = fs (ix2 (n0 := 4096) (n1 := 512)
          ⟨512 * d.val + (x 0).val, by have hd : d.val < 8 := d.isLt; have hx : (x 0).val < 512 := (x 0).isLt; omega⟩
          ⟨(x 1).val, (x 1).isLt⟩) := by
  rw [View.write_emb_of_mem _ _ (Finset.mem_univ x)]
  show fs ((Rect.unit (s := S4096x512) off S512x512.size inb).emb x) = _
  refine congrArg fs (Shape.idx_ext₂ ?_ ?_)
  · show off 0 + 1 * (x 0).val = 512 * d.val + (x 0).val
    omega
  · show off 1 + 1 * (x 1).val = (x 1).val
    omega

theorem srcOff_eq (c : Dev nD) (i : Fin 7) : srcOff c i = ![512 * (dstAt c i).val, 0] := by
  unfold srcOff
  by_cases h : i.val < 3
  · rw [if_pos h]
    have e : iLo ⟨i.val, h⟩ = i := Fin.ext rfl
    have := off8_eq c ⟨i.val, h⟩
    rw [e] at this
    exact this
  · rw [if_neg h]
    have hi := i.isLt
    have e : iHi ⟨i.val - 3, by omega⟩ = i := Fin.ext (by show 3 + (i.val - 3) = i.val; omega)
    have := off9_eq c ⟨i.val - 3, by omega⟩
    rw [e] at this
    exact this

/-- On slot `j` of device `dstAt j i`, what `j`'s i-th transfer leaves is that device's landed buffer. -/
theorem slot_landedAll (m : (ℓ : Loc nD τ sig) → Buf (Elt F) ℓ) (j : Dev nD) (i : Fin 7)
    (fd : (cc0_scratch1 : Ref sig .tc).ty.Contents (Elt F)) :
    ∀ k ∈ (slotM j).view.set,
      (slotM j).view.write (Elt F) fd ((srcSliceM j i).view.read (Elt F) (x16 m j)) Finset.univ k
        = landedAll m (dstAt j i) k := by
  intro k hk
  obtain ⟨x, -, rfl⟩ := Finset.mem_map.mp hk
  refine (slot_write_emb j (dstAt j i) (srcOff j i) (srcOff_inb j i) (by rw [srcOff_eq]; rfl) (by rw [srcOff_eq]; rfl) fd (x16 m j) x).trans ?_
  rw [slot_emb j x]
  rfl

/-- A load of slot `j` from device `c`'s landed buffer reads rows 512 c .. of device `j`'s narrowed activations. -/
theorem readAt_landedAll (m : (ℓ : Loc nD τ sig) → Buf (Elt F) ℓ) (c j : Dev nD)
    (off : Fin 3 → Nat) (inb : ∀ a, off a + S1x512x512.size a ≤ S8x512x512.size a) (h : off = ![j.val, 0, 0]) :
    View.readAt (Elt F) lM.view (Rect.unit (s := S8x512x512) off S1x512x512.size inb).toLoadRect (landedAll m c)
      = rowsB (x16 m j) c := by
  subst h
  funext y
  have hy0 : (y 0).val < 1 := (y 0).isLt
  have ej : (⟨j.val + 1 * (y 0).val, by have hj : j.val < 8 := j.isLt; show j.val + 1 * (y 0).val < 8; omega⟩ : Dev nD) = j :=
    Fin.ext (by show j.val + 1 * (y 0).val = j.val; omega)
  have ey : ix3 (n0 := 1) (n1 := 512) (n2 := 512) ⟨0, by decide⟩
      ⟨0 + 1 * (y 1).val, by have : (y 1).val < 512 := (y 1).isLt; omega⟩
      ⟨0 + 1 * (y 2).val, by have : (y 2).val < 512 := (y 2).isLt; omega⟩ = y := by
    funext a
    refine Fin.ext ?_
    match a with
    | ⟨0, _⟩ => show 0 = (y 0).val; omega
    | ⟨1, _⟩ => show 0 + 1 * (y 1).val = (y 1).val; omega
    | ⟨2, _⟩ => show 0 + 1 * (y 2).val = (y 2).val; omega
  show rowsB (x16 m ⟨j.val + 1 * (y 0).val, _⟩) c
      (ix3 (n0 := 1) (n1 := 512) (n2 := 512) ⟨0, by decide⟩ ⟨0 + 1 * (y 1).val, _⟩ ⟨0 + 1 * (y 2).val, _⟩) = _
  rw [ej, ey]

/-- info: 'Cert.KernelIdeal.A2A.readAt_landedAll' depends on axioms: [propext, Classical.choice, Quot.sound] -/
#guard_msgs in #print axioms readAt_landedAll

end Cert.KernelIdeal.A2A

end
-- ==== Proof.A2A.Shares.lean ====
import proofs.«900488_g7700000000000489_dist_a2a_gemm_m4096_k4096_n8192_f32_none_v7x_i8_1_alg».proof.Proof.A2A.BodyCtx
import proofs.«900488_g7700000000000489_dist_a2a_gemm_m4096_k4096_n8192_f32_none_v7x_i8_1_alg».proof.Proof.A2A.Landing
import Idealize.ShloMosaic.Lib.Ring
import Idealize.ShloMosaic.Lib.Tactic

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

def Rest (c : Dev nD) : sProp 𝕄 :=
  iprop(((aM : Memref sig .tc .hbm S4096x8192 .f32).view.loc (c : Thread nD τ) ↦{Transfers.shareDrop fullShare 23} win m c)
    ∗ bigSep (Finset.range 17) (fun i => wTok m c i))

omit [FloatOps F] in
/-- The weights held whole are the six shares of the weight-slot semaphores and what is set aside. -/
theorem weights_shares (c : Dev nD) : wPts m c ⊣⊢ iprop(wShares m c ∗ Rest m c) := by
  have hb : bigSep (Finset.range 23) (fun i => wTok m c i)
      = iprop(wTok m c 22 ∗ wTok m c 21 ∗ wTok m c 20 ∗ wTok m c 19 ∗ wTok m c 18 ∗ wTok m c 17 ∗ bigSep (Finset.range 17) (fun i => wTok m c i)) := by
    iterate 6 rw [Finset.range_add_one, bigSep_insert Finset.notMem_range_self]
    rfl
  have h : (((aM : Memref sig .tc .hbm S4096x8192 .f32).view.loc (c : Thread nD τ) ↦{fullShare} win m c) : sProp 𝕄)
      ⊣⊢ iprop(((aM : Memref sig .tc .hbm S4096x8192 .f32).view.loc (c : Thread nD τ) ↦{Transfers.shareDrop fullShare 23} win m c)
        ∗ bigSep (Finset.range 23) (fun i => wTok m c i)) :=
    Transfers.pointsTo_toks_range fullShare 23
  rw [hb] at h
  unfold wPts Rest wShares
  constructor
  · refine h.1.trans ?_
    iintro ⟨Hd, H22, H21, H20, H19, H18, H17, Hr⟩
    sl_close
  · refine BIBase.Entails.trans ?_ h.2
    iintro ⟨⟨H17, H18, H19, H20, H21, H22⟩, Hd, Hr⟩
    sl_close

def slotSet (j : Dev nD) : Finset (cc0_scratch1 : Ref sig .tc).ty.Idx := (slotM j).view.set

theorem slotSet_eq (j : Dev nD) :
    slotSet j = (Rect.unit (s := S8x512x512) (k0_off7 j) S1x512x512.size (k0_off7_inb j)).set := by
  unfold slotSet
  show ((lM.view.slice (Rect.unit (s := S8x512x512) (k0_off7 j) S1x512x512.size (k0_off7_inb j))).reshape S512x512 squeezes_S1x512x512_S512x512.numel_eq).set = _
  rw [View.set_reshape]
  exact View.set_slice_whole cc0_scratch1 _

theorem slot_disjoint (j j' : Dev nD) (h : j ≠ j') : Disjoint (slotSet j) (slotSet j') := by
  rw [slotSet_eq, slotSet_eq]
  refine Rect.unit_disjoint (s := S8x512x512) (off := k0_off7 j) (size := S1x512x512.size) (off' := k0_off7 j') (size' := S1x512x512.size)
    (inb := k0_off7_inb j) (inb' := k0_off7_inb j') 0 ?_
  rw [k0_off7_eq, k0_off7_eq]
  have hne : j.val ≠ j'.val := fun e => h (Fin.ext e)
  show j.val + 1 ≤ j'.val ∨ j'.val + 1 ≤ j.val
  omega

theorem slot_cover : (Finset.univ.biUnion slotSet) = Finset.univ := by
  refine Finset.eq_univ_iff_forall.mpr fun i => Finset.mem_biUnion.mpr ⟨⟨(i 0).val, (i 0).isLt⟩, Finset.mem_univ _, ?_⟩
  rw [slotSet_eq, Rect.mem_set_unit, k0_off7_eq]
  intro a
  fin_cases a
  · exact ⟨Nat.le_refl _, Nat.lt_succ_self _⟩
  · exact ⟨Nat.zero_le _, by show (i 1).val < 0 + 512; have h1 : (i 1).val < 512 := (i 1).isLt; omega⟩
  · exact ⟨Nat.zero_le _, by show (i 2).val < 0 + 512; have h2 : (i 2).val < 512 := (i 2).isLt; omega⟩

theorem others_ring : ∀ c : Dev nD, Finset.univ.erase c = Finset.univ.map ⟨ringAt c, fun i j h => ringAt_inj c i j h⟩ := by decide
theorem others_src : ∀ c : Dev nD, Finset.univ.erase c = Finset.univ.map ⟨fun h : Fin 7 => srcAt c h.succ, fun i j h => src_succ_inj c i j h⟩ := by decide

omit [FloatOps F] in
/-- A family over all eight devices: device `c`'s member and its seven ring successors', -/
theorem bigSep_dev_ring (c : Dev nD) (Φ : Dev nD → sProp 𝕄) :
    bigSep Finset.univ Φ = iprop(Φ c ∗ bigSep Finset.univ fun i : Fin 7 => Φ (ringAt c i)) := by
  rw [BI.bigSep_erase (Finset.mem_univ c), others_ring c, bigSep_map]; rfl

omit [FloatOps F] in
/-- or those of the devices of rounds 1..7. -/
theorem bigSep_dev_src (c : Dev nD) (Φ : Dev nD → sProp 𝕄) :
    bigSep Finset.univ Φ = iprop(Φ c ∗ bigSep Finset.univ fun h : Fin 7 => Φ (srcAt c h.succ)) := by
  rw [BI.bigSep_erase (Finset.mem_univ c), others_src c, bigSep_map]; rfl

omit [FloatOps F] in

theorem land_split (c : Dev nD) (fl : (cc0_scratch1 : Ref sig .tc).ty.Contents (Elt F)) :
    ((((c : Thread nD τ).loc cc0_scratch1) ↦{fullShare} fl) : sProp 𝕄)
      = bigSep Finset.univ fun j : Dev nD => ((((c : Thread nD τ).loc cc0_scratch1) ↦[slotSet j]{fullShare} fl) : sProp 𝕄) :=
  Ring.pointsTo_blocks (ℓ := (c : Thread nD τ).loc cc0_scratch1) slotSet slot_disjoint slot_cover fl

omit [FloatOps F] in
/-- The landing buffer held whole: the device's own slot and its seven ring successors'. -/
theorem land_split_ring (c : Dev nD) (fl : (cc0_scratch1 : Ref sig .tc).ty.Contents (Elt F)) :
    ((((c : Thread nD τ).loc cc0_scratch1) ↦{fullShare} fl) : sProp 𝕄)
      = iprop(slotAt c c fl ∗ bigSep Finset.univ fun i : Fin 7 => slotAt c (ringAt c i) fl) :=
  (land_split c fl).trans (bigSep_dev_ring c _)

/-- The rows of the narrowed activations that go to device `d` (for `d = c`, the rows that stay): rows 512 d .. 512 d + 511. -/
def rowSet (d : Dev nD) : Finset (cc0_scratch0 : Ref sig .tc).ty.Idx := Finset.univ.filter fun i => (i 0).val / 512 = d.val

theorem rowSet_disjoint (d d' : Dev nD) (h : d ≠ d') : Disjoint (rowSet d) (rowSet d') :=
  Finset.disjoint_filter.mpr fun i _ e e' => h (Fin.ext (e.symm.trans e'))

theorem rowSet_cover : (Finset.univ.biUnion rowSet) = Finset.univ :=
  Finset.eq_univ_iff_forall.mpr fun i => Finset.mem_biUnion.mpr
    ⟨⟨(i 0).val / 512, by have h0 : (i 0).val < 4096 := (i 0).isLt; show (i 0).val / 512 < 8; omega⟩, Finset.mem_univ _, Finset.mem_filter.mpr ⟨Finset.mem_univ _, rfl⟩⟩

/-- The i-th transfer sends exactly the rows kept for its destination. -/
theorem srcSet_rows (c : Dev nD) (i : Fin 7) : (srcSliceM c i).view.set = rowSet (dstAt c i) := by
  rw [show (srcSliceM c i).view.set = (Rect.unit (s := S4096x512) (srcOff c i) S512x512.size (srcOff_inb c i)).set
    from View.set_slice_whole cc0_scratch0 _]
  ext x
  have hx1 : (x 1).val < 512 := (x 1).isLt
  rw [Rect.mem_set_unit, srcOff_eq]
  unfold rowSet
  rw [Finset.mem_filter]
  constructor
  · intro h
    have e : 512 * (dstAt c i).val ≤ (x 0).val ∧ (x 0).val < 512 * (dstAt c i).val + 512 := h 0
    exact ⟨Finset.mem_univ _, by omega⟩
  · rintro ⟨-, e⟩ a
    fin_cases a
    · show 512 * (dstAt c i).val ≤ (x 0).val ∧ (x 0).val < 512 * (dstAt c i).val + 512
      omega
    · show 0 ≤ (x 1).val ∧ (x 1).val < 0 + 512
      omega

omit [FloatOps F] in
/-- A family over all eight devices: device `c`'s member and its seven destinations'. -/
theorem bigSep_dev_dst (c : Dev nD) (Φ : Dev nD → sProp 𝕄) :
    bigSep Finset.univ Φ = iprop(Φ c ∗ Φ (dstAt c 0) ∗ Φ (dstAt c 1) ∗ Φ (dstAt c 2) ∗ Φ (dstAt c 3) ∗ Φ (dstAt c 4) ∗ Φ (dstAt c 5) ∗ Φ (dstAt c 6)) := by
  rw [BI.bigSep_erase (Finset.mem_univ c), erase_eq_image_dst, bigSep_image_of_injOn (fun i _ j _ h => dstAt_inj c i j h), bigSep_fin7]
  rfl

omit [FloatOps F] in
theorem rows_pts (c : Dev nD) (i : Fin 7) (X : (cc0_scratch0 : Ref sig .tc).ty.Contents (Elt F)) :
    ((((c : Thread nD τ).loc cc0_scratch0) ↦[rowSet (dstAt c i)]{fullShare} X) : sProp 𝕄)
      = ((srcSliceM c i).view.loc (c : Thread nD τ) ↦[(srcSliceM c i).view.set]{fullShare} X) :=
  congrArg (fun S => ((((c : Thread nD τ).loc cc0_scratch0) ↦[S]{fullShare} X) : sProp 𝕄)) (srcSet_rows c i).symm

omit [FloatOps F] in
/-- The narrowed activations held whole are the rows that stay and the seven row blocks that are sent. -/
theorem nM_split (c : Dev nD) (X : (cc0_scratch0 : Ref sig .tc).ty.Contents (Elt F)) :
    ((nM : Memref sig .tc .vmem S4096x512 .bf16).view.loc (c : Thread nD τ) ↦{fullShare} X : sProp 𝕄)
      = iprop(((nM : Memref sig .tc .vmem S4096x512 .bf16).view.loc (c : Thread nD τ) ↦[rowSet c]{fullShare} X)
        ∗ ((srcSliceM c 0).view.loc (c : Thread nD τ) ↦[(srcSliceM c 0).view.set]{fullShare} X)
        ∗ ((srcSliceM c 1).view.loc (c : Thread nD τ) ↦[(srcSliceM c 1).view.set]{fullShare} X)
        ∗ ((srcSliceM c 2).view.loc (c : Thread nD τ) ↦[(srcSliceM c 2).view.set]{fullShare} X)
        ∗ ((srcSliceM c 3).view.loc (c : Thread nD τ) ↦[(srcSliceM c 3).view.set]{fullShare} X)
        ∗ ((srcSliceM c 4).view.loc (c : Thread nD τ) ↦[(srcSliceM c 4).view.set]{fullShare} X)
        ∗ ((srcSliceM c 5).view.loc (c : Thread nD τ) ↦[(srcSliceM c 5).view.set]{fullShare} X)
        ∗ ((srcSliceM c 6).view.loc (c : Thread nD τ) ↦[(srcSliceM c 6).view.set]{fullShare} X)) := by
  rw [← rows_pts c 0 X, ← rows_pts c 1 X, ← rows_pts c 2 X, ← rows_pts c 3 X, ← rows_pts c 4 X, ← rows_pts c 5 X, ← rows_pts c 6 X]
  exact (Ring.pointsTo_blocks (ℓ := (c : Thread nD τ).loc cc0_scratch0) rowSet rowSet_disjoint rowSet_cover X).trans
    (bigSep_dev_dst c _)

/-- info: 'Cert.KernelIdeal.A2A.land_split' depends on axioms: [propext, Classical.choice, Quot.sound] -/
#guard_msgs in #print axioms land_split
/-- info: 'Cert.KernelIdeal.A2A.bigSep_dev_src' depends on axioms: [propext, Classical.choice, Quot.sound] -/
#guard_msgs in #print axioms bigSep_dev_src
/-- info: 'Cert.KernelIdeal.A2A.weights_shares' depends on axioms: [propext, Classical.choice, Quot.sound] -/
#guard_msgs in #print axioms weights_shares

end Cert.KernelIdeal.A2A

end
-- ==== Proof.A2A.Rules.lean ====
import proofs.«900488_g7700000000000489_dist_a2a_gemm_m4096_k4096_n8192_f32_none_v7x_i8_1_alg».proof.Proof.A2A.State

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wp_send_at (K : GSem nD τ sig → ℕ) (c : Dev nD) (i : Fin 7) (n : Dev nD) (hn : n = dstAt c i)
    (O : CellTallies nD τ sig Unit) (W : Waits sig Unit)
    (fn : Buf (Elt F) ((slotM c).view.loc (dstAt c i : Thread nD τ)))
    (hland : ∀ x ∈ (slotM c).view.set,
      (slotM c).view.write (Elt F) fn ((srcSliceM c i).view.read (Elt F) (x16 m c)) Finset.univ x = landedAll m (dstAt c i) x)
    {hsc : (slotM c : Memref sig (Dev.tc n : Thread nD τ).2.kind .vmem S512x512 .bf16).view.ref.isScScratch = false}
    {hsrc : (srcSliceM c i).view.WordExact} {hdst : (slotM c).view.WordExact}
    {hsem : DmaTarget.Typed .vmem (.dma (recvS c)) (.remote (Dev.tc n : Thread nD τ) (slotM c) (.dma (sendS i)) hsc)}
    {α : Type} {Q : α → sProp 𝕄} {k : PUnit → Prog (TpuEff nD τ sig (Elt F) Λ₀ .tc) α} :
    iprop(cellInv ER (sched m) (K (sendCell c i)) (sendCell c i)
        ∗ cellInv ER (sched m) (K (recvCell (dstAt c i) c)) (recvCell (dstAt c i) c)
        ∗ srcPts m c i ∗ slotPts (dstAt c i) c fn
        ∗ owes (c : Thread nD τ) (O + tallyAt (recvCell (dstAt c i) c) () N) W
        ∗ dutyTok ER (sendCell c i) 0 c ∗ reached ER (sendCell c i) 0
        ∗ dutyTok ER (recvCell (dstAt c i) c) 0 c ∗ reached ER (recvCell (dstAt c i) c) 0)
      ⊢ iprop(((cred (tallyAt (sendCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcSliceM c i) (.remote (Dev.tc n : Thread nD τ) (slotM c) (.dma (sendS i)) hsc) (.dma (recvS c)) hsrc hdst hsem) k) Q) := by
  subst hn
  unfold srcPts slotPts
  exact Rounds.wp_send_pointsTo 𝒱₀ ER (sched m) (c : Thread nD τ) none (c' := (dstAt c i : Thread nD τ))
    (src := srcSliceM c i) (dst := slotM c) (q := fullShare) (fs := x16 m c) (fd := fn)
    (κ₁ := K (sendCell c i)) (κ₂ := K (recvCell (dstAt c i) c)) (r₁ := 0) (r₂ := 0) (d₁ := c) (d₂ := c)
    (mem_send m c i) (mem_recv_dst m c i) () () N rfl (amount_send m c i 0 c) (amount_recv m (dstAt c i) c 0 c) O rfl (W := W)
    (by rw [payload_send]; unfold srcPts; exact BI.Entails.refl _)
    (by rw [payload_recv]; unfold recvPay slotPts; exact Entails.of_eq (BI.Region.is_congr hland))

/-- info: 'Cert.KernelIdeal.A2A.wp_send_at' depends on axioms: [propext, Classical.choice, Quot.sound] -/
#guard_msgs in #print axioms wp_send_at

end Cert.KernelIdeal.A2A

end
-- ==== Proof.A2A.ReadsW.lean ====
import proofs.«900488_g7700000000000489_dist_a2a_gemm_m4096_k4096_n8192_f32_none_v7x_i8_1_alg».proof.Proof.A2A.Data
import proofs.«900488_g7700000000000489_dist_a2a_gemm_m4096_k4096_n8192_f32_none_v7x_i8_1_alg».proof.Proof.A2A.Offsets
import Idealize.ShloMosaic.Lib.Pipeline.Value
import Idealize.ShloMosaic.Lib.Tactic

noncomputable section

namespace Cert.KernelIdeal.A2A

open Cert.KernelIdeal Cert.KernelIdeal.Gen
open Idealize.ShloMosaic Idealize.ShloMosaic.ValueIdx
open Idealize.ShloMosaic.TcCoe

variable {F : FTy → Type} [FloatOps F]

theorem squeeze_slot_idx (i : S1x512x2048.Idx) :
    (Shape.reshapeEquiv (s := S1x512x2048) (s' := S512x2048) squeezes_S1x512x2048_S512x2048.numel_eq).symm i
      = ((fun a => i (Fin.succ a)) : S512x2048.Idx) := by
  refine (Equiv.symm_apply_eq _).mpr ?_
  refine Eq.trans ?_ (Shape.reshapeEquiv_cons_one (n := 2) (d := ![512, 2048]) _ _).symm
  funext a
  refine Fin.cases ?_ (fun b => ?_) a
  · refine Fin.ext ?_
    show (i 0).val = 0
    have := (i 0).isLt; simp [S1x512x2048] at this; exact this
  · rfl

/-- A slot read back right after a copy into it of the block of the weights at row 512j, column 2048q: it holds `wBlk`. -/
theorem wslot_read_last (c j : Dev nD) (q : Fin 4)
    (off : Fin 2 → Nat) (hoff : ∀ a, off a + S512x2048.size a ≤ S4096x8192.size a) (h : off = ![512 * j.val, 2048 * q.val])
    (soff : Fin 3 → Nat) (hs : ∀ a, soff a + S1x512x2048.size a ≤ S6x512x2048.size a)
    (fw : (cc0_scratch2 : Ref sig .tc).ty.Contents (Elt F)) (fh : Buf (Elt F) ((c : Thread nD τ).loc main_arg1)) :
    View.readAt (Elt F) (Memref.whole cc0_scratch2 : Memref sig .tc .vmem S6x512x2048 .f32).view (Rect.unit (s := S6x512x2048) soff S1x512x2048.size hs).toLoadRect
      (View.write (Elt F) (((Memref.whole cc0_scratch2 : Memref sig .tc .vmem S6x512x2048 .f32).slice (Rect.unit (s := S6x512x2048) soff S1x512x2048.size hs) (fun _ => rfl)).squeeze S512x2048 squeezes_S1x512x2048_S512x2048).view fw
        (ReadAs.same.apply (View.read (Elt F) ((Memref.whole main_arg1 : Memref sig .tc .hbm S4096x8192 .f32).slice (Rect.unit (s := S4096x8192) off S512x2048.size hoff) (fun _ => rfl)).view fh)) Finset.univ)
      = wBlk fh j q := by
  subst h
  funext i
  show View.read (Elt F) ((Memref.whole cc0_scratch2 : Memref sig .tc .vmem S6x512x2048 .f32).view.slice (Rect.unit (s := S6x512x2048) soff S1x512x2048.size hs))
      (View.write (Elt F) (((Memref.whole cc0_scratch2 : Memref sig .tc .vmem S6x512x2048 .f32).view.slice (Rect.unit (s := S6x512x2048) soff S1x512x2048.size hs)).reshape S512x2048 squeezes_S1x512x2048_S512x2048.numel_eq) fw _ Finset.univ) i = _
  rw [View.write_reshape_univ, View.read_write_univ, squeeze_slot_idx]
  show fh ((Rect.unit (s := S4096x8192) ![512 * j.val, 2048 * q.val] S512x2048.size hoff).emb ((fun a => i (Fin.succ a)) : S512x2048.Idx)) = _
  unfold wBlk
  refine congrArg fh (funext fun a => Fin.ext ?_)
  fin_cases a
  · show 512 * j.val + 1 * (i (Fin.succ 0)).val = 512 * j.val + (i 1).val
    rw [Nat.one_mul]; rfl
  · show 2048 * q.val + 1 * (i (Fin.succ 1)).val = 2048 * q.val + (i 2).val
    rw [Nat.one_mul]; rfl

theorem read_slice_write_reshape_of_disjoint {sig' : RefSig} {κ : Kind} {sp : Space} {s : Shape} {e : EltTy} {Val : EltTy → Type}
    (v : View sig' κ sp s e) (r r' : Rect s) (s' : Shape) (h' : s'.numel = r'.shape.numel) (f : v.ty.Contents Val) (w : s'.Idx → Val e)
    (hd : Disjoint r.set r'.set) :
    (v.slice r).read Val (((v.slice r').reshape s' h').write Val f w Finset.univ) = (v.slice r).read Val f := by
  rw [View.write_reshape_univ]
  refine View.read_slice_write_slice_of_disjoint r r' f _ Finset.univ ?_
  rw [View.setOn_univ, View.set_slice, View.set_slice]
  exact (Finset.disjoint_map _).mpr hd

theorem wslot_read_other
    (soff soff' : Fin 3 → Nat) (hs : ∀ a, soff a + S1x512x2048.size a ≤ S6x512x2048.size a) (hs' : ∀ a, soff' a + S1x512x2048.size a ≤ S6x512x2048.size a)
    (fw : (cc0_scratch2 : Ref sig .tc).ty.Contents (Elt F)) (w : S512x2048.Idx → Elt F .f32)
    (h : soff 0 + S1x512x2048.size 0 ≤ soff' 0 ∨ soff' 0 + S1x512x2048.size 0 ≤ soff 0) :
    View.readAt (Elt F) (Memref.whole cc0_scratch2 : Memref sig .tc .vmem S6x512x2048 .f32).view (Rect.unit (s := S6x512x2048) soff S1x512x2048.size hs).toLoadRect
      (View.write (Elt F) (((Memref.whole cc0_scratch2 : Memref sig .tc .vmem S6x512x2048 .f32).slice (Rect.unit (s := S6x512x2048) soff' S1x512x2048.size hs') (fun _ => rfl)).squeeze S512x2048 squeezes_S1x512x2048_S512x2048).view fw w Finset.univ)
      = View.readAt (Elt F) (Memref.whole cc0_scratch2 : Memref sig .tc .vmem S6x512x2048 .f32).view (Rect.unit (s := S6x512x2048) soff S1x512x2048.size hs).toLoadRect fw := by
  show View.read (Elt F) ((Memref.whole cc0_scratch2 : Memref sig .tc .vmem S6x512x2048 .f32).view.slice (Rect.unit (s := S6x512x2048) soff S1x512x2048.size hs))
      (View.write (Elt F) (((Memref.whole cc0_scratch2 : Memref sig .tc .vmem S6x512x2048 .f32).view.slice (Rect.unit (s := S6x512x2048) soff' S1x512x2048.size hs')).reshape S512x2048 squeezes_S1x512x2048_S512x2048.numel_eq) fw w Finset.univ)
    = View.read (Elt F) ((Memref.whole cc0_scratch2 : Memref sig .tc .vmem S6x512x2048 .f32).view.slice (Rect.unit (s := S6x512x2048) soff S1x512x2048.size hs)) fw
  exact read_slice_write_reshape_of_disjoint (Memref.whole cc0_scratch2 : Memref sig .tc .vmem S6x512x2048 .f32).view _ _ _ _ fw w (Rect.unit_disjoint (s := S6x512x2048) (off := soff) (size := S1x512x2048.size) (off' := soff') (size' := S1x512x2048.size) (inb := hs) (inb' := hs') 0 h)

theorem xrows_read (c : Dev nD) (off : Fin 2 → Nat) (hoff : ∀ a, off a + S512x512.size a ≤ S4096x512.size a) (h : off = ![512 * c.val, 0])
    (fx : (cc0_stg0_0 : Ref sig .tc).ty.Contents (Elt F)) :
    View.readAt (Elt F) (Memref.whole cc0_stg0_0 : Memref sig .tc .vmem S4096x512 .f32).view (Rect.unit (s := S4096x512) off S512x512.size hoff).toLoadRect fx
      = rowsF fx c := by
  subst h
  funext i
  show fx ((Rect.unit (s := S4096x512) ![512 * c.val, 0] S512x512.size hoff).emb i) = _
  unfold rowsF
  refine congrArg fx (funext fun a => Fin.ext ?_)
  fin_cases a
  · show 512 * c.val + 1 * (i 0).val = 512 * c.val + (i 0).val
    rw [Nat.one_mul]
  · show 0 + 1 * (i 1).val = (i 1).val
    rw [Nat.one_mul, Nat.zero_add]

theorem xrows_read_off11 (c : Dev nD) (fx : (cc0_stg0_0 : Ref sig .tc).ty.Contents (Elt F)) :
    View.readAt (Elt F) (Memref.whole cc0_stg0_0 : Memref sig .tc .vmem S4096x512 .f32).view (Rect.unit (s := S4096x512) (k0_off11 c) S512x512.size (k0_off11_inb c)).toLoadRect fx
      = rowsF fx c :=
  xrows_read c (k0_off11 c) (k0_off11_inb c) (k0_off11_eq c) fx

/-- info: 'Cert.KernelIdeal.A2A.wslot_read_last' depends on axioms: [propext, Classical.choice, Quot.sound] -/
#guard_msgs in #print axioms wslot_read_last
/-- info: 'Cert.KernelIdeal.A2A.wslot_read_other' depends on axioms: [propext, Classical.choice, Quot.sound] -/
#guard_msgs in #print axioms wslot_read_other
/-- info: 'Cert.KernelIdeal.A2A.xrows_read_off11' depends on axioms: [propext, Classical.choice, Quot.sound] -/
#guard_msgs in #print axioms xrows_read_off11

end Cert.KernelIdeal.A2A

end
-- ==== Proof.A2A.Steps.lean ====
import proofs.«900488_g7700000000000489_dist_a2a_gemm_m4096_k4096_n8192_f32_none_v7x_i8_1_alg».proof.Proof.A2A.State

noncomputable section

namespace Cert.KernelIdeal.A2A

open Cert.KernelIdeal Cert.KernelIdeal.Gen
open Idealize.ShloMosaic
open Idealize.ShloMosaic.TcCoe

variable {F : FTy → Type} [FloatOps F]

variable (m : (ℓ : Loc nD τ sig) → Buf (Elt F) ℓ)

/-- The first store of chunk `q`: the device's own rows against rows 512c.. of the weights' chunk. -/
theorem chunk_first (c : Dev nD) (q : Fin 4) {a : Vec F S512x512 .f32} {w : Vec F S1x512x2048 .f32}
    (ha : a = rowsF (xin m c) c) (hw : w = wBlk (win m c) c q) :
    mm0 a w = chunkAt (fun d => xin m d) (win m c) c q 0 := by
  subst ha hw; rfl

/-- A later store: what the chunk held after round `h`, plus the rows the device of round `h + 1` sent against its rows of the weights' chunk. -/
theorem chunk_acc (c : Dev nD) (q : Fin 4) (h : Nat) {a : Vec F S1x512x512 .bf16} {w : Vec F S1x512x2048 .f32} {o : Vec F S512x2048 .f32}
    (ha : a = rowsB (x16 m (srcAt c (roundOf (h + 1)))) c) (hw : w = wBlk (win m c) (srcAt c (roundOf (h + 1))) q)
    (ho : o = chunkAt (fun d => xin m d) (win m c) c q h) :
    mmAcc a w o = chunkAt (fun d => xin m d) (win m c) c q (h + 1) := by
  subst ha hw ho; rfl

end Cert.KernelIdeal.A2A

end
-- ==== Proof.A2A.Canon.lean ====
import proofs.«900488_g7700000000000489_dist_a2a_gemm_m4096_k4096_n8192_f32_none_v7x_i8_1_alg».proof.Proof.A2A.Sched
import proofs.«900488_g7700000000000489_dist_a2a_gemm_m4096_k4096_n8192_f32_none_v7x_i8_1_alg».proof.Proof.A2A.Offsets

noncomputable section

namespace Cert.KernelIdeal.A2A

open Cert.KernelIdeal Cert.KernelIdeal.Gen
open Idealize.ShloMosaic
open Idealize.ShloMosaic.TcCoe

theorem recvSem_me : ∀ c : Dev nD, ((cc0_scratch4.slice (Rect.unit (s := S8) (k0_off6 c) S1.size (k0_off6_inb c))).squeeze S_ squeezes_S1_S_).sem = recvS c := by decide +kernel
theorem recvSem_1 : ∀ c : Dev nD, ((cc0_scratch4.slice (Rect.unit (s := S8) (k0_off14 c 1#32) S1.size (k0_off14_inb c 0))).squeeze S_ squeezes_S1_S_).sem = recvS (srcAt c 1) := by decide +kernel
theorem recvSem_2 : ∀ c : Dev nD, ((cc0_scratch4.slice (Rect.unit (s := S8) (k0_off14 c 2#32) S1.size (k0_off14_inb c 1))).squeeze S_ squeezes_S1_S_).sem = recvS (srcAt c 2) := by decide +kernel
theorem recvSem_3 : ∀ c : Dev nD, ((cc0_scratch4.slice (Rect.unit (s := S8) (k0_off14 c 3#32) S1.size (k0_off14_inb c 2))).squeeze S_ squeezes_S1_S_).sem = recvS (srcAt c 3) := by decide +kernel
theorem recvSem_4 : ∀ c : Dev nD, ((cc0_scratch4.slice (Rect.unit (s := S8) (k0_off21 c 0#32) S1.size (k0_off21_inb c 0))).squeeze S_ squeezes_S1_S_).sem = recvS (srcAt c 4) := by decide +kernel
theorem recvSem_5 : ∀ c : Dev nD, ((cc0_scratch4.slice (Rect.unit (s := S8) (k0_off21 c 1#32) S1.size (k0_off21_inb c 1))).squeeze S_ squeezes_S1_S_).sem = recvS (srcAt c 5) := by decide +kernel
theorem recvSem_6 : ∀ c : Dev nD, ((cc0_scratch4.slice (Rect.unit (s := S8) (k0_off21 c 2#32) S1.size (k0_off21_inb c 2))).squeeze S_ squeezes_S1_S_).sem = recvS (srcAt c 6) := by decide +kernel
theorem recvSem_7 : ∀ c : Dev nD, ((cc0_scratch4.slice (Rect.unit (s := S8) (k0_off21 c 3#32) S1.size (k0_off21_inb c 3))).squeeze S_ squeezes_S1_S_).sem = recvS (srcAt c 7) := by decide +kernel

/-- A slice of the landing buffer at the corner of slot `j`, squeezed, is slot `j`. -/
theorem slotM_of (off : Fin 3 → Nat) (inb : ∀ a, off a + S1x512x512.size a ≤ S8x512x512.size a) (j : Dev nD) (h : off = ![j.val, 0, 0]) :
    ((lM.slice (Rect.unit (s := S8x512x512) off S1x512x512.size inb) (fun _ => rfl)).squeeze S512x512 squeezes_S1x512x512_S512x512) = slotM j :=
  congrArg (fun M : Memref sig .tc .vmem S1x512x512 .bf16 => M.squeeze S512x512 squeezes_S1x512x512_S512x512)
    (Memref.slice_unit_congr lM (h.trans (k0_off7_eq j).symm) _ _ _ _)

theorem slotM_1 (c : Dev nD) :
    ((lM.slice (Rect.unit (s := S8x512x512) (k0_off15 c 1#32) S1x512x512.size (k0_off15_inb c 0)) (fun _ => rfl)).squeeze S512x512 squeezes_S1x512x512_S512x512)
      = slotM (srcAt c 1) := slotM_of _ _ _ (off15_eq c 0)
theorem slotM_2 (c : Dev nD) :
    ((lM.slice (Rect.unit (s := S8x512x512) (k0_off15 c 2#32) S1x512x512.size (k0_off15_inb c 1)) (fun _ => rfl)).squeeze S512x512 squeezes_S1x512x512_S512x512)
      = slotM (srcAt c 2) := slotM_of _ _ _ (off15_eq c 1)
theorem slotM_3 (c : Dev nD) :
    ((lM.slice (Rect.unit (s := S8x512x512) (k0_off15 c 3#32) S1x512x512.size (k0_off15_inb c 2)) (fun _ => rfl)).squeeze S512x512 squeezes_S1x512x512_S512x512)
      = slotM (srcAt c 3) := slotM_of _ _ _ (off15_eq c 2)
theorem slotM_4 (c : Dev nD) :
    ((lM.slice (Rect.unit (s := S8x512x512) (k0_off22 c 0#32) S1x512x512.size (k0_off22_inb c 0)) (fun _ => rfl)).squeeze S512x512 squeezes_S1x512x512_S512x512)
      = slotM (srcAt c 4) := slotM_of _ _ _ (off22_eq c 0)
theorem slotM_5 (c : Dev nD) :
    ((lM.slice (Rect.unit (s := S8x512x512) (k0_off22 c 1#32) S1x512x512.size (k0_off22_inb c 1)) (fun _ => rfl)).squeeze S512x512 squeezes_S1x512x512_S512x512)
      = slotM (srcAt c 5) := slotM_of _ _ _ (off22_eq c 1)
theorem slotM_6 (c : Dev nD) :
    ((lM.slice (Rect.unit (s := S8x512x512) (k0_off22 c 2#32) S1x512x512.size (k0_off22_inb c 2)) (fun _ => rfl)).squeeze S512x512 squeezes_S1x512x512_S512x512)
      = slotM (srcAt c 6) := slotM_of _ _ _ (off22_eq c 2)
theorem slotM_7 (c : Dev nD) :
    ((lM.slice (Rect.unit (s := S8x512x512) (k0_off22 c 3#32) S1x512x512.size (k0_off22_inb c 3)) (fun _ => rfl)).squeeze S512x512 squeezes_S1x512x512_S512x512)
      = slotM (srcAt c 7) := slotM_of _ _ _ (off22_eq c 3)

instance closedOff_off16_1 (c : Dev nD) : ClosedOff (k0_off16 c 1#32) := ⟨![(srcAt c 1).val, 0, 0], off16_eq c 0⟩
instance closedOff_off15_1 (c : Dev nD) : ClosedOff (k0_off15 c 1#32) := ⟨![(srcAt c 1).val, 0, 0], off15_eq c 0⟩
instance closedOff_off16_2 (c : Dev nD) : ClosedOff (k0_off16 c 2#32) := ⟨![(srcAt c 2).val, 0, 0], off16_eq c 1⟩
instance closedOff_off15_2 (c : Dev nD) : ClosedOff (k0_off15 c 2#32) := ⟨![(srcAt c 2).val, 0, 0], off15_eq c 1⟩
instance closedOff_off16_3 (c : Dev nD) : ClosedOff (k0_off16 c 3#32) := ⟨![(srcAt c 3).val, 0, 0], off16_eq c 2⟩
instance closedOff_off15_3 (c : Dev nD) : ClosedOff (k0_off15 c 3#32) := ⟨![(srcAt c 3).val, 0, 0], off15_eq c 2⟩
instance closedOff_off23_4 (c : Dev nD) : ClosedOff (k0_off23 c 0#32) := ⟨![(srcAt c 4).val, 0, 0], off23_eq c 0⟩
instance closedOff_off22_4 (c : Dev nD) : ClosedOff (k0_off22 c 0#32) := ⟨![(srcAt c 4).val, 0, 0], off22_eq c 0⟩
instance closedOff_off23_5 (c : Dev nD) : ClosedOff (k0_off23 c 1#32) := ⟨![(srcAt c 5).val, 0, 0], off23_eq c 1⟩
instance closedOff_off22_5 (c : Dev nD) : ClosedOff (k0_off22 c 1#32) := ⟨![(srcAt c 5).val, 0, 0], off22_eq c 1⟩
instance closedOff_off23_6 (c : Dev nD) : ClosedOff (k0_off23 c 2#32) := ⟨![(srcAt c 6).val, 0, 0], off23_eq c 2⟩
instance closedOff_off22_6 (c : Dev nD) : ClosedOff (k0_off22 c 2#32) := ⟨![(srcAt c 6).val, 0, 0], off22_eq c 2⟩
instance closedOff_off23_7 (c : Dev nD) : ClosedOff (k0_off23 c 3#32) := ⟨![(srcAt c 7).val, 0, 0], off23_eq c 3⟩
instance closedOff_off22_7 (c : Dev nD) : ClosedOff (k0_off22 c 3#32) := ⟨![(srcAt c 7).val, 0, 0], off22_eq c 3⟩

end Cert.KernelIdeal.A2A

end
-- ==== Proof.A2A.Body.lean ====
import proofs.«900488_g7700000000000489_dist_a2a_gemm_m4096_k4096_n8192_f32_none_v7x_i8_1_alg».proof.Proof.A2A.Shares
import proofs.«900488_g7700000000000489_dist_a2a_gemm_m4096_k4096_n8192_f32_none_v7x_i8_1_alg».proof.Proof.A2A.Rules
import proofs.«900488_g7700000000000489_dist_a2a_gemm_m4096_k4096_n8192_f32_none_v7x_i8_1_alg».proof.Proof.A2A.Landing
import proofs.«900488_g7700000000000489_dist_a2a_gemm_m4096_k4096_n8192_f32_none_v7x_i8_1_alg».proof.Proof.A2A.Reads
import proofs.«900488_g7700000000000489_dist_a2a_gemm_m4096_k4096_n8192_f32_none_v7x_i8_1_alg».proof.Proof.A2A.ReadsW
import proofs.«900488_g7700000000000489_dist_a2a_gemm_m4096_k4096_n8192_f32_none_v7x_i8_1_alg».proof.Proof.A2A.Steps
import proofs.«900488_g7700000000000489_dist_a2a_gemm_m4096_k4096_n8192_f32_none_v7x_i8_1_alg».proof.Proof.A2A.Canon

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

theorem x16_written (c : Dev nD) (f16 : (cc0_scratch0 : Ref sig .tc).ty.Contents (Elt F)) :
    (nM : Memref sig .tc .vmem S4096x512 .bf16).view.writes (Elt F) f16
      [⟨Rect.unit (s := S4096x512) ![0, 0] S4096x512.size inb_S4096x512_S4096x512_0_0,
        k0_pay1 (View.readAt (Elt F) (xM : Memref sig .tc .vmem S4096x512 .f32).view
          (Rect.unit (s := S4096x512) ![0, 0] S4096x512.size inb_S4096x512_S4096x512_0_0).toLoadRect (xin m c))⟩]
      = x16 m c := by
  have hz : (![0, 0] : Fin 2 → Nat) = fun _ => 0 := funext fun a => by fin_cases a <;> rfl
  rw [View.writes_singleton,
    show View.readAt (Elt F) (xM : Memref sig .tc .vmem S4096x512 .f32).view
      (Rect.unit (s := S4096x512) ![0, 0] S4096x512.size inb_S4096x512_S4096x512_0_0).toLoadRect (xin m c) = xin m c
      from Memref.readAt_unit_zero (Elt F) cc0_stg0_0 hz _ _]
  exact Memref.write_access_unit_zero_univ (Elt F) cc0_scratch0 hz _ f16 _

/-- The narrowed activations, once stored, are held at `x16`. -/
theorem x16_stored (c : Dev nD) (f16 : (cc0_scratch0 : Ref sig .tc).ty.Contents (Elt F)) :
    ((nM : Memref sig .tc .vmem S4096x512 .bf16).view.loc (c : Thread nD τ) ↦{fullShare}
        (nM : Memref sig .tc .vmem S4096x512 .bf16).view.writes (Elt F) f16
          [⟨Rect.unit (s := S4096x512) ![0, 0] S4096x512.size inb_S4096x512_S4096x512_0_0,
            k0_pay1 (View.readAt (Elt F) (xM : Memref sig .tc .vmem S4096x512 .f32).view
              (Rect.unit (s := S4096x512) ![0, 0] S4096x512.size inb_S4096x512_S4096x512_0_0).toLoadRect (xin m c))⟩] : sProp 𝕄)
      = ((nM : Memref sig .tc .vmem S4096x512 .bf16).view.loc (c : Thread nD τ) ↦{fullShare} x16 m c) := by
  rw [x16_written]

theorem src_ne : ∀ (c : Dev nD) (k : Fin 8), k ≠ 0 → srcAt c k ≠ c := by decide
theorem duties_recv_1 (c : Dev nD) : (sched m).duties (recvCell c (srcAt c 1)) 0 = {srcAt c 1} := duties_recv m c _ (src_ne c 1 (by decide))
theorem expect_recv_1 (c : Dev nD) : (sched m).expect (recvCell c (srcAt c 1)) 0 = N := expect_recv m c _ (src_ne c 1 (by decide))
theorem duties_recv_2 (c : Dev nD) : (sched m).duties (recvCell c (srcAt c 2)) 0 = {srcAt c 2} := duties_recv m c _ (src_ne c 2 (by decide))
theorem expect_recv_2 (c : Dev nD) : (sched m).expect (recvCell c (srcAt c 2)) 0 = N := expect_recv m c _ (src_ne c 2 (by decide))
theorem duties_recv_3 (c : Dev nD) : (sched m).duties (recvCell c (srcAt c 3)) 0 = {srcAt c 3} := duties_recv m c _ (src_ne c 3 (by decide))
theorem expect_recv_3 (c : Dev nD) : (sched m).expect (recvCell c (srcAt c 3)) 0 = N := expect_recv m c _ (src_ne c 3 (by decide))
theorem duties_recv_4 (c : Dev nD) : (sched m).duties (recvCell c (srcAt c 4)) 0 = {srcAt c 4} := duties_recv m c _ (src_ne c 4 (by decide))
theorem expect_recv_4 (c : Dev nD) : (sched m).expect (recvCell c (srcAt c 4)) 0 = N := expect_recv m c _ (src_ne c 4 (by decide))
theorem duties_recv_5 (c : Dev nD) : (sched m).duties (recvCell c (srcAt c 5)) 0 = {srcAt c 5} := duties_recv m c _ (src_ne c 5 (by decide))
theorem expect_recv_5 (c : Dev nD) : (sched m).expect (recvCell c (srcAt c 5)) 0 = N := expect_recv m c _ (src_ne c 5 (by decide))
theorem duties_recv_6 (c : Dev nD) : (sched m).duties (recvCell c (srcAt c 6)) 0 = {srcAt c 6} := duties_recv m c _ (src_ne c 6 (by decide))
theorem expect_recv_6 (c : Dev nD) : (sched m).expect (recvCell c (srcAt c 6)) 0 = N := expect_recv m c _ (src_ne c 6 (by decide))
theorem duties_recv_7 (c : Dev nD) : (sched m).duties (recvCell c (srcAt c 7)) 0 = {srcAt c 7} := duties_recv m c _ (src_ne c 7 (by decide))
theorem expect_recv_7 (c : Dev nD) : (sched m).expect (recvCell c (srcAt c 7)) 0 = N := expect_recv m c _ (src_ne c 7 (by decide))

macro "prog_norm" : tactic =>
  `(tactic| conv => { arg 2; pattern (Idealize.SL.Sem.wp _ _ _ _); arg 4; simp (config := { proj := false }) only [Prog.lift, Prog.bind_op, Prog.bind_ret, Prog.pure_eq_ret, recvSem_me] })

theorem owes_zero_add (t : Thread nD τ) (O : CellTallies nD τ sig Unit) (W : Waits sig Unit) :
    (owes t O W : sProp 𝕄) ⊢ owes t (0 + O) W := Entails.of_eq (by rw [zero_add])

open Lean Elab Tactic Meta in

elab "run_names_once" : tactic => do
  let g ← getMainGoal
  let isRunName (n : Name) : Bool := n.components.dropLast.any (· == `sl)
  let t ← instantiateMVars (← g.getType)
  let t' ← Core.transform t (pre := fun e => do
    match (← Meta.delta? e isRunName) with
    | some e' => return .done e'.headBeta
    | none => return .continue)
  if t' == t then throwError "run_names_once: no run name in the goal"
  replaceMainGoal [← g.replaceTargetDefEq t']

macro "chunk_skip" : tactic => `(tactic| (rw [chunkOf_writes_other]; on_goal 2 => decide))
macro "chunk_hit" : tactic => `(tactic| (rw [chunkOf_writes_same]; on_goal 2 => decide))

syntax "chunk_find" : tactic
macro_rules
  | `(tactic| chunk_find) => `(tactic| first | chunk_hit | (chunk_skip; chunk_find) | (run_names_once; chunk_find))

macro "w_skip" : tactic => `(tactic| (refine Eq.trans (wslot_read_other _ _ _ _ _ _ ?_) ?_; · decide))

macro "w_solve_with" h:term : tactic => `(tactic| ((repeat w_skip); (first | exact wslot_read_last _ _ _ _ _ $h _ _ _ _ | (run_names_once; exact wslot_read_last _ _ _ _ _ $h _ _ _ _))))
macro "chunk_window" : tactic => `(tactic| ((first | unfold View.readCov | (run_names_once; unfold View.readCov) | (run_names_once; run_names_once; unfold View.readCov)); (first | rw [readAt_chunk0] | rw [readAt_chunk1] | rw [readAt_chunk2] | rw [readAt_chunk3])))

attribute [local sl_rounds] mem_bar_ring mem_send mem_recv_dst amount_bar amount_send amount_recv payload_bar' payload_send' payload_recv' expect_bar expect_send duties_bar_list dstAt_eq_iff duties_send duties_recv_1 expect_recv_1 duties_recv_2 expect_recv_2 duties_recv_3 expect_recv_3 duties_recv_4 expect_recv_4 duties_recv_5 expect_recv_5 duties_recv_6 expect_recv_6 duties_recv_7 expect_recv_7
attribute [local sl_canon] dev1_eq dev2_eq dev3_eq dev4_eq dev5_eq dev6_eq dev7_eq dev8_eq dev9_eq dev10_eq dev11_eq dev12_eq dev13_eq dev14_eq recvSem_me recvSem_1 recvSem_2 recvSem_3 recvSem_4 recvSem_5 recvSem_6 recvSem_7 slotM_1 slotM_2 slotM_3 slotM_4 slotM_5 slotM_6 slotM_7

set_option maxHeartbeats 4000000 in
set_option sl_exec.dmaWindow true in

theorem run_body (K : GSem nD τ sig → ℕ) (c : Dev nD)
    (fo : (cc0_stg1_0 : Ref sig .tc).ty.Contents (Elt F)) (f16 : (cc0_scratch0 : Ref sig .tc).ty.Contents (Elt F))
    (fl : (cc0_scratch1 : Ref sig .tc).ty.Contents (Elt F)) (fw : (cc0_scratch2 : Ref sig .tc).ty.Contents (Elt F))
    (W : Waits sig Unit) (Kt : PUnit → sProp 𝕄) :
    iprop(Ctx0 m K c fo f16 fl fw W ∗ (∀ W', Ctx1 m K c W' -∗ |={Set.univ}=> Kt ⟨⟩))
      ⊢ wp frame (wpE (defs₀ (F := F)) 𝒱₀ c none) Set.univ
      (cc0_body (Memref.whole cc0_stg0_0) (Memref.isWhole_whole _) (Memref.whole main_arg1) (Memref.isWhole_whole _)
        (Memref.whole cc0_stg1_0) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scratch5) Kt := by
  unfold Ctx0 invs marks posns payToks wsems wShares slotAt wTok
  simp (config := { proj := false }) only [bigSep_fin7, bigSep_fin6, succ_round0, succ_round1, succ_round2, succ_round3, succ_round4, succ_round5, succ_round6, wS_0, wS_1, wS_2, wS_3, wS_4, wS_5]
  iintro ⟨⟨⟨#H0, ⟨#H1, #H2, #H3, #H4, #H5, #H6, #H7⟩, ⟨#H8, #H9, #H10, #H11, #H12, #H13, #H14⟩, ⟨#H15, #H16, #H17, #H18, #H19, #H20, #H21⟩, #H22, #H23, #H24, #H25, #H26, #H27, #H28⟩,
    ⟨#H29, ⟨#H30, #H31, #H32, #H33, #H34, #H35, #H36⟩, ⟨#H37, #H38, #H39, #H40, #H41, #H42, #H43⟩, ⟨#H44, #H45, #H46, #H47, #H48, #H49, #H50⟩, #H51, #H52, #H53, #H54, #H55, #H56, #H57⟩,
    ⟨#H58, #H59, #H60, #H61, #H62, #H63, #H64⟩, ⟨H65, ⟨H66, H67, H68, H69, H70, H71, H72⟩, H73, H74, H75, H76, H77, H78, H79⟩, ⟨⟨H80, H81, H82, H83, H84, H85, H86⟩, ⟨H87, H88, H89, H90, H91, H92, H93⟩, H94, H95, H96, H97, H98, H99, H100⟩,
    H101, ⟨H102, H103, H104, H105, H106, H107, H108⟩, H109, H110, ⟨⟨H111, H112, H113, H114, H115, H116⟩, H117⟩, H118, H119, ⟨H120, H121, H122, H123, H124, H125⟩, H126, H127, ⟨H128, H129, H130, H131, H132, H133, H134⟩, H135⟩, Hk⟩
  unfold O₀ Orecv
  have hmw : (levAts L lv : sProp 𝕄) ⊢ MayWait (c : Thread nD τ) (.reg barS) () (Orecv c) := mayWait_bar c
  unfold Orecv at hmw
  sl_unfold [cc0_body]
  sl_exec (disch := first | exact mem_bar_ring m c _ | exact mem_send m c _ | exact mem_recv_dst m c _ | simp only [dev8_eq, dev9_eq, dev10_eq, dev11_eq, dev12_eq, dev13_eq, dev14_eq])
  ihave Hp := (show (_ : sProp 𝕄) ⊢ iprop(((∃ f, (slotM c).view.loc ((dstAt c 0 : Dev nD) : Thread nD τ) ↦[(slotM c).view.set]{fullShare} f) ∗ reached ER (recvCell (dstAt c 0) c) 0)
      ∗ ((∃ f, (slotM c).view.loc ((dstAt c 1 : Dev nD) : Thread nD τ) ↦[(slotM c).view.set]{fullShare} f) ∗ reached ER (recvCell (dstAt c 1) c) 0)
      ∗ ((∃ f, (slotM c).view.loc ((dstAt c 2 : Dev nD) : Thread nD τ) ↦[(slotM c).view.set]{fullShare} f) ∗ reached ER (recvCell (dstAt c 2) c) 0)
      ∗ ((∃ f, (slotM c).view.loc ((dstAt c 3 : Dev nD) : Thread nD τ) ↦[(slotM c).view.set]{fullShare} f) ∗ reached ER (recvCell (dstAt c 3) c) 0)
      ∗ ((∃ f, (slotM c).view.loc ((dstAt c 4 : Dev nD) : Thread nD τ) ↦[(slotM c).view.set]{fullShare} f) ∗ reached ER (recvCell (dstAt c 4) c) 0)
      ∗ ((∃ f, (slotM c).view.loc ((dstAt c 5 : Dev nD) : Thread nD τ) ↦[(slotM c).view.set]{fullShare} f) ∗ reached ER (recvCell (dstAt c 5) c) 0)
      ∗ ((∃ f, (slotM c).view.loc ((dstAt c 6 : Dev nD) : Thread nD τ) ↦[(slotM c).view.set]{fullShare} f) ∗ reached ER (recvCell (dstAt c 6) c) 0)) from BIBase.Entails.rfl) $$ H65_pay1
  icases Hp with ⟨⟨⟨%g0, Hd0⟩, -⟩, ⟨⟨%g1, Hd1⟩, -⟩, ⟨⟨%g2, Hd2⟩, -⟩, ⟨⟨%g3, Hd3⟩, -⟩, ⟨⟨%g4, Hd4⟩, -⟩, ⟨⟨%g5, Hd5⟩, -⟩, ⟨⟨%g6, Hd6⟩, -⟩⟩
  ihave Hn := (Entails.of_eq (x16_stored m c f16)) $$ H126
  ihave Hn := (Entails.of_eq (nM_split c (x16 m c))) $$ Hn
  icases Hn with ⟨Hnr, Hn0, Hn1, Hn2, Hn3, Hn4, Hn5, Hn6⟩

  iapply (wp_send_at m K c 0 (dstAt c 0) rfl _ _ g0 (slot_landedAll m c 0 g0)) $$ [Hn0 Hd0 H110 H94 H87]
  · unfold srcPts slotPts
    sl_close
  iintro ⟨Hcs0, H110⟩
  (set_option sl_exec.maxSteps 2 in sl_exec (disch := first | exact mem_bar_ring m c _ | exact mem_send m c _ | exact mem_recv_dst m c _ | simp only [dev8_eq, dev9_eq, dev10_eq, dev11_eq, dev12_eq, dev13_eq, dev14_eq]))
  sl_unfold [k0_part5]
  prog_norm

  iapply (wp_send_at m K c 1 (⟨k0_dev9 c, k0_dev9_lt c⟩ : Dev nD) (dev9_eq c) _ _ g1 (slot_landedAll m c 1 g1)) $$ [Hn1 Hd1 H110 H95 H88]
  · unfold srcPts slotPts
    sl_close
  iintro ⟨Hcs1, H110⟩
  prog_norm

  iapply (wp_send_at m K c 2 (⟨k0_dev10 c, k0_dev10_lt c⟩ : Dev nD) (dev10_eq c) _ _ g2 (slot_landedAll m c 2 g2)) $$ [Hn2 Hd2 H110 H96 H89]
  · unfold srcPts slotPts
    sl_close
  iintro ⟨Hcs2, H110⟩
  prog_norm

  iapply (wp_send_at m K c 3 (⟨k0_dev11 c, k0_dev11_lt c⟩ : Dev nD) (dev11_eq c) _ _ g3 (slot_landedAll m c 3 g3)) $$ [Hn3 Hd3 H110 H97 H90]
  · unfold srcPts slotPts
    sl_close
  iintro ⟨Hcs3, H110⟩
  prog_norm

  iapply (wp_send_at m K c 4 (⟨k0_dev12 c, k0_dev12_lt c⟩ : Dev nD) (dev12_eq c) _ _ g4 (slot_landedAll m c 4 g4)) $$ [Hn4 Hd4 H110 H98 H91]
  · unfold srcPts slotPts
    sl_close
  iintro ⟨Hcs4, H110⟩
  prog_norm
  (set_option sl_exec.maxSteps 1 in sl_exec (disch := first | exact mem_bar_ring m c _ | exact mem_send m c _ | exact mem_recv_dst m c _ | simp only [dev8_eq, dev9_eq, dev10_eq, dev11_eq, dev12_eq, dev13_eq, dev14_eq]))
  sl_unfold [k0_part6]
  prog_norm

  iapply (wp_send_at m K c 5 (⟨k0_dev13 c, k0_dev13_lt c⟩ : Dev nD) (dev13_eq c) _ _ g5 (slot_landedAll m c 5 g5)) $$ [Hn5 Hd5 H110 H99 H92]
  · unfold srcPts slotPts
    sl_close
  iintro ⟨Hcs5, H110⟩
  prog_norm
  ihave H110 := (owes_zero_add _ _ _) $$ H110

  iapply (wp_send_at m K c 6 (⟨k0_dev14 c, k0_dev14_lt c⟩ : Dev nD) (dev14_eq c) _ _ g6 (slot_landedAll m c 6 g6)) $$ [Hn6 Hd6 H110 H100 H93]
  · unfold srcPts slotPts
    sl_close
  iintro ⟨Hcs6, H110⟩
  prog_norm
  sl_exec (disch := first | exact mem_bar_ring m c _ | exact mem_send m c _ | exact mem_recv_dst m c _ | simp only [dev8_eq, dev9_eq, dev10_eq, dev11_eq, dev12_eq, dev13_eq, dev14_eq])
  rw [wp_ret]
  iapply Hk $$ %_
  ihave Hnn := (Entails.of_eq (nM_split c (x16 m c)).symm) $$ [Hnr H66_pay1 H67_pay1 H68_pay1 H69_pay1 H70_pay1 H71_pay1 H72_pay1]
  · sl_close
  unfold Ctx1 wsems wShares slotAt wTok
  simp (config := { proj := false }) only [bigSep_fin7, bigSep_fin6, succ_round0, succ_round1, succ_round2, succ_round3, succ_round4, succ_round5, succ_round6, wS_0, wS_1, wS_2, wS_3, wS_4, wS_5]
  isplitr [H119]
  · sl_close
  iexists _
  isplitl [H119]; · iexact H119
  ipureintro
  refine ⟨?_, ?_, ?_, ?_⟩
  all_goals
    chunk_find; run_names_once
    refine chunk_acc m c _ 6 (readAt_landedAll m c _ _ _ (off23_eq c 3)) ?_ ?_
    · first | (show _ = wBlk _ _ 0; w_solve_with (off17_eq c 3)) | (show _ = wBlk _ _ 1; w_solve_with (off18_eq c 3)) | (show _ = wBlk _ _ 2; w_solve_with (off19_eq c 3)) | (show _ = wBlk _ _ 3; w_solve_with (off20_eq c 3))
    · chunk_window; chunk_find; run_names_once
      refine chunk_acc m c _ 5 (readAt_landedAll m c _ _ _ (off23_eq c 2)) ?_ ?_
      · first | (show _ = wBlk _ _ 0; w_solve_with (off17_eq c 2)) | (show _ = wBlk _ _ 1; w_solve_with (off18_eq c 2)) | (show _ = wBlk _ _ 2; w_solve_with (off19_eq c 2)) | (show _ = wBlk _ _ 3; w_solve_with (off20_eq c 2))
      · chunk_window; chunk_find; run_names_once
        refine chunk_acc m c _ 4 (readAt_landedAll m c _ _ _ (off23_eq c 1)) ?_ ?_
        · first | (show _ = wBlk _ _ 0; w_solve_with (off17_eq c 1)) | (show _ = wBlk _ _ 1; w_solve_with (off18_eq c 1)) | (show _ = wBlk _ _ 2; w_solve_with (off19_eq c 1)) | (show _ = wBlk _ _ 3; w_solve_with (off20_eq c 1))
        · chunk_window; chunk_find; run_names_once
          refine chunk_acc m c _ 3 (readAt_landedAll m c _ _ _ (off23_eq c 0)) ?_ ?_
          · first | (show _ = wBlk _ _ 0; w_solve_with (off17_eq c 0)) | (show _ = wBlk _ _ 1; w_solve_with (off18_eq c 0)) | (show _ = wBlk _ _ 2; w_solve_with (off19_eq c 0)) | (show _ = wBlk _ _ 3; w_solve_with (off20_eq c 0))
          · chunk_window; chunk_find; run_names_once
            refine chunk_acc m c _ 2 (readAt_landedAll m c _ _ _ (off16_eq c 2)) ?_ ?_
            · first | (show _ = wBlk _ _ 0; w_solve_with (off5_eq c 2)) | (show _ = wBlk _ _ 1; w_solve_with (off10_eq c 2)) | (show _ = wBlk _ _ 2; w_solve_with (off12_eq c 2)) | (show _ = wBlk _ _ 3; w_solve_with (off13_eq c 2))
            · chunk_window; chunk_find; run_names_once
              refine chunk_acc m c _ 1 (readAt_landedAll m c _ _ _ (off16_eq c 1)) ?_ ?_
              · first | (show _ = wBlk _ _ 0; w_solve_with (off5_eq c 1)) | (show _ = wBlk _ _ 1; w_solve_with (off10_eq c 1)) | (show _ = wBlk _ _ 2; w_solve_with (off12_eq c 1)) | (show _ = wBlk _ _ 3; w_solve_with (off13_eq c 1))
              · chunk_window; chunk_find; run_names_once
                refine chunk_acc m c _ 0 (readAt_landedAll m c _ _ _ (off16_eq c 0)) ?_ ?_
                · first | (show _ = wBlk _ _ 0; w_solve_with (off5_eq c 0)) | (show _ = wBlk _ _ 1; w_solve_with (off10_eq c 0)) | (show _ = wBlk _ _ 2; w_solve_with (off12_eq c 0)) | (show _ = wBlk _ _ 3; w_solve_with (off13_eq c 0))
                · chunk_window; chunk_find; run_names_once
                  refine chunk_first m c _ (xrows_read_off11 c _) ?_
                  first | (show _ = wBlk _ _ 0; w_solve_with (k0_off1_eq c)) | (show _ = wBlk _ _ 1; w_solve_with (k0_off2_eq c)) | (show _ = wBlk _ _ 2; w_solve_with (k0_off3_eq c)) | (show _ = wBlk _ _ 3; w_solve_with (k0_off4_eq c))

/-- info: 'Cert.KernelIdeal.A2A.run_body' depends on axioms: [propext, Classical.choice, Quot.sound] -/
#guard_msgs in #print axioms run_body

end Cert.KernelIdeal.A2A

end
-- ==== Proof.A2A.BodyIO.lean ====
import proofs.«900488_g7700000000000489_dist_a2a_gemm_m4096_k4096_n8192_f32_none_v7x_i8_1_alg».proof.Proof.A2A.Shares
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Every other device's receive cell has reached its first round: each is the cell of some round 1..7. -/
theorem marks_recv (c j : Dev nD) (hj : j ≠ c) : (marks (F := F) c : sProp 𝕄) ⊢ reached ER (recvCell c j) 0 := by
  obtain ⟨h, rfl⟩ := src_succ_surj c j hj
  unfold marks
  iintro ⟨-, -, H, -, -⟩
  ihave H' := (show (bigSep Finset.univ fun h : Fin 7 => (reached ER (recvCell c (srcAt c h.succ)) 0 : sProp 𝕄)) ⊢ reached ER (recvCell c (srcAt c h.succ)) 0
    from bigSep_elim (Finset.mem_univ h)) $$ H
  iexact H'

omit [FloatOps F] in
theorem marks_ring (c : Dev nD) :
    (marks (F := F) c : sProp 𝕄) ⊢ bigSep Finset.univ fun i : Fin 7 => reached ER (recvCell c (ringAt c i)) 0 :=
  bigSep_intro_persistent fun i _ => marks_recv c (ringAt c i) (ringAt_ne c i)

set_option maxHeartbeats 1600000 in
/-- The body's starting state restated: the landing buffer cut into its slots, the weights into the six read shares the copies use and a part set aside. -/
theorem pre_intro (c : Dev nD) :
    bodyPre' m ρ c ⊢ iprop(∃ K fo f16 fl fw W, Ctx0 m K c fo f16 fl fw W ∗ Rest m c) := by
  unfold bodyPre' Φ₀ start scratch3
  iintro ⟨⟨⟨⟨%K, Hg⟩, HcB, HcR, #Hlev, Hws, Hw⟩, ⟨%f16, Hn⟩, ⟨%fl, Hl⟩, ⟨%fw, Hwm⟩⟩, Ho, ⟨%d0, %g0, %hg0, Hx⟩, ⟨%d1, %fo, %hfo, Hout⟩⟩
  have hx : g0 = xin m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  unfold ghost
  icases Hg with ⟨#HI, Hp, #Hm, Ht⟩
  ihave Hr := (marks_ring c) $$ Hm
  ihave Hls := (Entails.of_eq (land_split_ring c fl)) $$ Hl
  icases Hls with ⟨Lc, Lr⟩
  ihave Has := (weights_shares m c).1 $$ Hw
  icases Has with ⟨Hsh, HR⟩
  iexists K, fo, f16, fl, fw, W
  unfold Ctx0
  sl_close

/-- info: 'Cert.KernelIdeal.A2A.pre_intro' depends on axioms: [propext, Classical.choice, Quot.sound] -/
#guard_msgs in #print axioms pre_intro

end Cert.KernelIdeal.A2A

end
-- ==== Proof.A2A.BodyOut.lean ====
import proofs.«900488_g7700000000000489_dist_a2a_gemm_m4096_k4096_n8192_f32_none_v7x_i8_1_alg».proof.Proof.A2A.Shares
import Idealize.ShloMosaic.Lib.Ring
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
namespace Out

/-- Eight slots, each at some contents, are the landing buffer at some contents. -/
theorem land_join (c : Dev nD) :
    (bigSep Finset.univ fun j : Dev nD => iprop(∃ f, slotAt c j f) : sProp 𝕄)
      ⊢ iprop(∃ g : Buf (Elt F) ((c : Thread nD τ).loc cc0_scratch1), ((c : Thread nD τ).loc cc0_scratch1) ↦{fullShare} g) :=
  Ring.pointsTo_blocks_join_exists (ℓ := (c : Thread nD τ).loc cc0_scratch1) slotSet slot_disjoint slot_cover
    (fun _ => Classical.arbitrary _)

/-- Cells at their second round, which has no duty (nor has any later one): the owner closes them and takes the counters at zero. -/
theorem close_cells (K : GSem nD τ sig → ℕ) (g : Fin 7 → GSem nD τ sig) :
    (bigSep Finset.univ fun i => iprop(cellInv ER (sched m) (K (g i)) (g i) ∗ atPos ER (g i) 1 ∅ 0) : sProp 𝕄)
      ⊢ |={Set.univ}=> bigSep Finset.univ fun i => semVal (g i) 0 :=
  (bigSep_mono fun i _ => Rounds.cell_close ER (sched m) (Set.mem_univ (K (g i))) (fun h => h) (R := 1) (duties_later m (g i))).trans
    (bigSep_fupd _ _)

end Out

open Out in
/-- What the run leaves, with what was set aside around it, is the state after the point. -/
theorem post_intro (K : GSem nD τ sig → ℕ) (c : Dev nD) (W' : Waits sig Unit) :
    iprop(Ctx1 m K c W' ∗ Rest m c) ⊢ |={Set.univ}=> bodyPost m ρ c := by
  unfold Ctx1
  iintro ⟨⟨⟨HS, HR, HO, Hws, Hx, Hsh, ⟨%fn, Hn⟩, ⟨%fwb, Hwb⟩, HL, Lc⟩, ⟨%fo1, Hout, %hfo⟩⟩, HRest⟩
  imod (close_cells m K fun i => sendCell c i) $$ HS with ZS
  imod (close_cells m K fun h => recvCell c (srcAt c h.succ)) $$ HR with ZR
  imodintro
  ihave Hw := (weights_shares m c).2 $$ [Hsh HRest]
  · isplitl [Hsh] <;> iassumption
  ihave Hl := (land_join (F := F) c) $$ [HL Lc]
  · rw [bigSep_dev_src c]
    isplitl [Lc]; · iexact Lc
    iapply (show (bigSep Finset.univ fun h : Fin 7 => (slotAt c (srcAt c h.succ) (landedAll m c) : sProp 𝕄))
        ⊢ bigSep Finset.univ fun h : Fin 7 => iprop(∃ f, slotAt c (srcAt c h.succ) f)
      from bigSep_mono fun h _ => BIClass.exists_intro (Φ := fun f => (slotAt c (srcAt c h.succ) f : sProp 𝕄)) (landedAll m c)) $$ HL
  icases Hl with ⟨%fl1, Hl⟩
  have hout : fo1 = outAt m c :=
    eq_outOf_of_chunks (fun d => xin m d) (win m c) c fo1 fun q => by fin_cases q <;> [exact hfo.1; exact hfo.2.1; exact hfo.2.2.1; exact hfo.2.2.2]
  unfold bodyPost Φ₁ scratch3 ownZero Dat.owesAt Pipeline.owesWithin
  rw [show (dats m ρ 0 c).owed t₀.succ = 0 from rfl]
  isplitl [Hn Hl Hwb ZS ZR Hws Hw]
  · sl_close
  isplitl [HO]
  · iexists W'
    isplitr; · ipureintro; exact fun _ _ => Or.inl trivial
    iexact HO
  isplitl [Hx]
  · iexists _; isplitr; · (ipureintro; rfl)
    iexact Hx
  iexists fo1; isplitr; · (ipureintro; exact hout)
  iexact Hout

/-- info: 'Cert.KernelIdeal.A2A.post_intro' depends on axioms: [propext, Classical.choice, Quot.sound] -/
#guard_msgs in #print axioms post_intro

end Cert.KernelIdeal.A2A

end
-- ==== Proof.A2A.SoundBody.lean ====
import proofs.«900488_g7700000000000489_dist_a2a_gemm_m4096_k4096_n8192_f32_none_v7x_i8_1_alg».proof.Proof.A2A.Body
import proofs.«900488_g7700000000000489_dist_a2a_gemm_m4096_k4096_n8192_f32_none_v7x_i8_1_alg».proof.Proof.A2A.BodyIO
import proofs.«900488_g7700000000000489_dist_a2a_gemm_m4096_k4096_n8192_f32_none_v7x_i8_1_alg».proof.Proof.A2A.BodyOut
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sound_body (c : Dev nD) :
    bodyPre' m ρ c ⊢ wp frame (wpE (defs₀ (F := F)) 𝒱₀ c none) Set.univ
      (cc0_body (Memref.whole cc0_stg0_0) (Memref.isWhole_whole _) (Memref.whole main_arg1) (Memref.isWhole_whole _)
        (Memref.whole cc0_stg1_0) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scratch5) (fun _ => bodyPost m ρ c) := by
  iintro H
  ihave H' := (pre_intro m ρ c) $$ H
  icases H' with ⟨%K, %fo, %f16, %fl, %fw, %W, Hc, Hrest⟩
  iapply (run_body m K c fo f16 fl fw W (fun _ => bodyPost m ρ c))
  isplitl [Hc]; · iexact Hc
  iintro %W' H1
  iapply (post_intro m ρ K c W')
  isplitl [H1] <;> iassumption

theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
      (cc0_body (Memref.whole cc0_stg0_0) (Memref.isWhole_whole _) (Memref.whole main_arg1) (Memref.isWhole_whole _)
        (Memref.whole cc0_stg1_0) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scratch5) (fun _ => bodyPost m ρ c)
  exact sound_body m ρ c

/-- info: 'Cert.KernelIdeal.A2A.body_obligation' depends on axioms: [propext, Classical.choice, Quot.sound] -/
#guard_msgs in #print axioms body_obligation

end Cert.KernelIdeal.A2A

end
-- ==== Proof.A2A.Launch.lean ====
import proofs.«900488_g7700000000000489_dist_a2a_gemm_m4096_k4096_n8192_f32_none_v7x_i8_1_alg».proof.Proof.A2A.SoundBody
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

abbrev OwnSem : Type := Fin 7 ⊕ (Dev nD ⊕ Fin 6)

abbrev osem : OwnSem → SemLoc sig := fun k => match k with
  | .inl i => .dma (sendS i)
  | .inr (.inl j) => .dma (recvS j)
  | .inr (.inr s) => .dma (wS s)

theorem ownSemFacts : Pipeline.OwnSemFacts cfg0.spec osem := by decide

theorem sendS_inj {i i' : Fin 7} (h : sendS i = sendS i') : i = i' := by
  have e : 2 + i.val = 2 + i'.val := congrArg (fun q : DmaSem sig => q.val) h
  exact Fin.ext (by omega)
theorem recvS_inj {j j' : Dev nD} (h : recvS j = recvS j') : j = j' := by
  have e : 9 + j.val = 9 + j'.val := congrArg (fun q : DmaSem sig => q.val) h
  exact Fin.ext (by omega)
theorem send_ne_recv (i : Fin 7) (j : Dev nD) : sendS i ≠ recvS j := fun h => by
  have e : 2 + i.val = 9 + j.val := congrArg (fun q : DmaSem sig => q.val) h
  have := i.isLt; omega

abbrev OwnIx : Type := Unit ⊕ (Fin 7 ⊕ Fin 7)

abbrev kcell : Dev nD × OwnIx → GSem nD τ sig := fun ck => match ck.2 with
  | .inl _ => barCell ck.1
  | .inr (.inl i) => sendCell ck.1 i
  | .inr (.inr h) => recvCell ck.1 (srcAt ck.1 h.succ)

theorem kcell_injective : Function.Injective (kcell : Dev nD × OwnIx → GSem nD τ sig) := by
  rintro ⟨c, k⟩ ⟨c', k'⟩ h
  have h1 : c = c' := by
    rcases k with _ | i | a <;> rcases k' with _ | i' | a' <;> exact congrArg (fun g : GSem nD τ sig => g.1.1) h
  subst h1
  have h2 := congrArg Prod.snd h
  rcases k with _ | i | a <;> rcases k' with _ | i' | a'
  · rfl
  · exact absurd h2 (fun e => by cases e)
  · exact absurd h2 (fun e => by cases e)
  · exact absurd h2 (fun e => by cases e)
  · have e := sendS_inj (SemLoc.dma.inj h2); subst e; rfl
  · exact absurd (SemLoc.dma.inj h2) (send_ne_recv _ _)
  · exact absurd h2 (fun e => by cases e)
  · exact absurd (SemLoc.dma.inj h2).symm (send_ne_recv _ _)
  · have e := src_succ_inj c a a' (recvS_inj (SemLoc.dma.inj h2)); subst e; rfl

def ringCells : Finset (GSem nD τ sig) := Finset.univ.map ⟨kcell, kcell_injective⟩

theorem mem_cells (ck : Dev nD × OwnIx) : kcell ck ∈ ringCells := Finset.mem_map_of_mem _ (Finset.mem_univ ck)
theorem bar_mem (c : Dev nD) : barCell c ∈ ringCells := mem_cells (c, .inl ())
theorem send_mem (c : Dev nD) (i : Fin 7) : sendCell c i ∈ ringCells := mem_cells (c, .inr (.inl i))
theorem recv_mem (c : Dev nD) (h : Fin 7) : recvCell c (srcAt c h.succ) ∈ ringCells := mem_cells (c, .inr (.inr h))

theorem recv_dst_mem (c : Dev nD) (i : Fin 7) : recvCell (dstAt c i) c ∈ ringCells := by
  have h := recv_mem (dstAt c i) i; rwa [src_dst] at h

abbrev PayIx : Type := Fin 7 ⊕ (Fin 7 ⊕ Fin 7)

abbrev tokOf : Dev nD × PayIx → GSem nD τ sig × ℕ × Dev nD := fun ck => match ck.2 with
  | .inl i => (barCell (ringAt ck.1 i), 0, ck.1)
  | .inr (.inl i) => (recvCell (dstAt ck.1 i) ck.1, 0, ck.1)
  | .inr (.inr i) => (sendCell ck.1 i, 0, ck.1)

theorem tokOf_injective : Function.Injective (tokOf : Dev nD × PayIx → GSem nD τ sig × ℕ × Dev nD) := by
  rintro ⟨c, k⟩ ⟨c', k'⟩ h
  have h1 : c = c' := by
    rcases k with i | i | i <;> rcases k' with i' | i' | i' <;> exact congrArg (fun x : GSem nD τ sig × ℕ × Dev nD => x.2.2) h
  subst h1
  have hg := congrArg (fun x : GSem nD τ sig × ℕ × Dev nD => x.1) h
  rcases k with i | i | i <;> rcases k' with i' | i' | i'
  · have e := ringAt_inj c i i' (congrArg (fun g : GSem nD τ sig => g.1.1) hg); subst e; rfl
  · exact absurd (congrArg Prod.snd hg) (fun e => by cases e)
  · exact absurd (congrArg Prod.snd hg) (fun e => by cases e)
  · exact absurd (congrArg Prod.snd hg) (fun e => by cases e)
  · have e := dstAt_inj c i i' (congrArg (fun g : GSem nD τ sig => g.1.1) hg); subst e; rfl
  · exact absurd (SemLoc.dma.inj (congrArg Prod.snd hg)).symm (send_ne_recv _ _)
  · exact absurd (congrArg Prod.snd hg) (fun e => by cases e)
  · exact absurd (SemLoc.dma.inj (congrArg Prod.snd hg)) (send_ne_recv _ _)
  · have e := sendS_inj (SemLoc.dma.inj (congrArg Prod.snd hg)); subst e; rfl

def ringToks : Finset (GSem nD τ sig × ℕ × Dev nD) := Finset.univ.map ⟨tokOf, tokOf_injective⟩

def u₀ : UU :=
  (initOf (Pipeline.cells cfgs cellOf_inj) (Pipeline.launchToks cfgs cellOf_inj), (initOf ringCells ringToks, (1 : Counters)))

omit [FloatOps F] in
theorem bigSep_cells (Φ : GSem nD τ sig → sProp 𝕄) :
    bigSep ringCells Φ = bigSep Finset.univ fun c : Dev nD => bigSep Finset.univ fun k : OwnIx => Φ (kcell (c, k)) := by
  unfold ringCells; rw [bigSep_map, bigSep_univ_prod]; rfl

omit [FloatOps F] in

theorem bigSep_own (c : Dev nD) (Φ : GSem nD τ sig → sProp 𝕄) :
    (bigSep Finset.univ fun k : OwnIx => Φ (kcell (c, k)))
      = iprop(Φ (barCell c) ∗ (bigSep Finset.univ fun i : Fin 7 => Φ (sendCell c i))
          ∗ (bigSep Finset.univ fun h : Fin 7 => Φ (recvCell c (srcAt c h.succ)))) := by
  rw [bigSep_univ_sum, bigSep_univ_sum, bigSep_univ_of_subsingleton ()]; rfl

omit [FloatOps F] in
/-- A family over the devices other than `c`, in the order `c` consumes them. -/
theorem bigSep_others (c : Dev nD) (Φ : Dev nD → sProp 𝕄) :
    bigSep (Finset.univ.erase c) Φ = bigSep Finset.univ fun h : Fin 7 => Φ (srcAt c h.succ) := by
  rw [others_src c, bigSep_map]; rfl

def G (c : Dev nD) : sProp 𝕄 :=
  iprop((bigSep Finset.univ fun k : OwnIx => roundState ER (sched m) (kcell (c, k)) 0)
    ∗ (bigSep Finset.univ fun k : OwnIx => iprop(atPos ER (kcell (c, k)) 0 ∅ 0 ∗ reached ER (kcell (c, k)) 0)) ∗ payToks c)

def G' (c : Dev nD) : sProp 𝕄 := iprop((∃ K, ghost m K c) ∗ wsems c)

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => by unfold payToks; rw [bigSep_univ_sum, bigSep_univ_sum]; rfl
  iintro HX
  imod (Rounds.fund ER (sched m) ringCells ringToks) $$ HX with ⟨Hst, Hr, Hat, Htok⟩
  imodintro
  ihave Hst' := (Entails.of_eq (bigSep_cells (F := F) fun g => roundState ER (sched m) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_pair :
    BI.own ((embR : Emb (UB × Counters) (MT nD τ sig Unit (Elt F) ℕ UU ℕ)) (initOf ringCells ringToks, (1 : Counters)))
      ⊢ (|==> bigSep Finset.univ (G m) : sProp 𝕄) :=
  fund_ring m

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun i : Fin 7 => semVal (sendCell c i) 0)
        ∗ (bigSep Finset.univ fun j : Dev nD => semVal (recvCell c j) 0)
        ∗ (bigSep Finset.univ fun s : Fin 6 => semVal (((c : Thread nD τ), SemLoc.dma (wS s)) : GSem nD τ sig) 0)) := by
  unfold Pipeline.ownSems0; rw [bigSep_univ_sum, bigSep_univ_sum]; rfl

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in

theorem recv_split (c : Dev nD) :
    (bigSep Finset.univ fun j : Dev nD => (semVal (recvCell c j) 0 : sProp 𝕄))
      = iprop(semVal (recvCell c c) 0 ∗ bigSep Finset.univ fun h : Fin 7 => semVal (recvCell c (srcAt c h.succ)) 0) := by
  rw [bigSep_univ_at (fun j : Dev nD => (semVal (recvCell c j) 0 : sProp 𝕄)) c, bigSep_others]

omit [FloatOps F] in
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : OwnIx => semVal (kcell (c, k)) 0) ∗ wsems c) : sProp 𝕄) := by
  rw [ownSems0_eq, unscopedSems0_eq, bigSep_own c (fun g => (semVal g 0 : sProp 𝕄)), recv_split]
  unfold wsems
  iintro ⟨⟨HS, ⟨Hc, HR⟩, HW⟩, HB⟩
  isplitl [HB HS HR]
  · isplitl [HB]; · iexact HB
    isplitl [HS] <;> iassumption
  · isplitl [HW] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : OwnIx => iprop(∃ κ : ℕ, cellInv ER (sched m) κ (kcell (c, k))))
          ∗ (bigSep Finset.univ fun k : OwnIx => iprop(atPos ER (kcell (c, k)) 0 ∅ 0 ∗ reached ER (kcell (c, k)) 0)) ∗ payToks c ∗ wsems c) := by
  unfold G
  iintro ⟨Hos, Hus, Hst, Hat, Htok⟩
  ihave Hv := (sems0_split (F := F) c) $$ [Hos Hus]
  · isplitl [Hos] <;> iassumption
  icases Hv with ⟨Hv, Hws⟩
  imod (show iprop((bigSep Finset.univ fun k : OwnIx => semVal (kcell (c, k)) 0) ∗ bigSep Finset.univ fun k : OwnIx => roundState ER (sched m) (kcell (c, k)) 0)
      ⊢ (|={Set.univ}=> bigSep Finset.univ fun k : OwnIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

def records (K : GSem nD τ sig → ℕ) : sProp 𝕄 :=
  iprop((bigSep ringCells fun g => cellInv ER (sched m) (K g) g) ∗ bigSep ringCells fun g => reached ER g 0)

instance records_persistent (K : GSem nD τ sig → ℕ) : BI.Persistent (records m K) := by unfold records; infer_instance

theorem inv_at (K : GSem nD τ sig → ℕ) {g : GSem nD τ sig} (hg : g ∈ ringCells) :
    (bigSep ringCells fun g => (cellInv ER (sched m) (K g) g : sProp 𝕄)) ⊢ cellInv ER (sched m) (K g) g :=
  bigSep_elim hg
omit [FloatOps F] in
theorem reached_at {g : GSem nD τ sig} (hg : g ∈ ringCells) :
    (bigSep ringCells fun g => (reached ER g 0 : sProp 𝕄)) ⊢ reached ER g 0 :=
  bigSep_elim hg

theorem invs_intro (K : GSem nD τ sig → ℕ) (c : Dev nD) : records m K ⊢ invs m K c := by
  unfold records invs
  iintro ⟨#HI, -⟩
  isplitr; · iapply (inv_at m K (bar_mem c)); iexact HI
  isplitr; · iapply (bigSep_intro_persistent fun i _ => inv_at m K (send_mem c i)); iexact HI
  isplitr; · iapply (bigSep_intro_persistent fun h _ => inv_at m K (recv_mem c h)); iexact HI
  isplitr; · iapply (bigSep_intro_persistent fun i _ => inv_at m K (bar_mem (ringAt c i))); iexact HI
  iapply (bigSep_intro_persistent fun i _ => inv_at m K (recv_dst_mem c i)); iexact HI

theorem marks_intro (K : GSem nD τ sig → ℕ) (c : Dev nD) : records m K ⊢ marks c := by
  unfold records marks
  iintro ⟨-, #HR⟩
  isplitr; · iapply (reached_at (F := F) (bar_mem c)); iexact HR
  isplitr; · iapply (bigSep_intro_persistent fun i _ => reached_at (F := F) (send_mem c i)); iexact HR
  isplitr; · iapply (bigSep_intro_persistent fun h _ => reached_at (F := F) (recv_mem c h)); iexact HR
  isplitr; · iapply (bigSep_intro_persistent fun i _ => reached_at (F := F) (bar_mem (ringAt c i))); iexact HR
  iapply (bigSep_intro_persistent fun i _ => reached_at (F := F) (recv_dst_mem c i)); iexact HR

theorem G'_intro (K : GSem nD τ sig → ℕ) (c : Dev nD) :
    iprop(records m K ∗ (bigSep Finset.univ fun k : OwnIx => atPos ER (kcell (c, k)) 0 ∅ 0) ∗ payToks c ∗ wsems c) ⊢ G' m c := by
  rw [bigSep_own c (fun g => (atPos ER g 0 ∅ 0 : sProp 𝕄))]
  unfold G' ghost posns
  iintro ⟨#HR, Hp, Ht, Hw⟩
  isplitl [Hp Ht]
  · iexists K
    isplitr; · iapply (invs_intro m K c); iexact HR
    isplitl [Hp]; · iexact Hp
    isplitr; · iapply (marks_intro m K c); iexact HR
    iexact Ht
  · iexact Hw

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : OwnIx => iprop(∃ κ : ℕ, cellInv ER (sched m) κ (kcell (c, k))))
          ∗ (bigSep Finset.univ fun k : OwnIx => iprop(atPos ER (kcell (c, k)) 0 ∅ 0 ∗ reached ER (kcell (c, k)) 0)) ∗ payToks c ∗ wsems c) : sProp 𝕄)
      ⊢ bigSep Finset.univ (G' m) := by
  rw [bigSep_sep', bigSep_sep', bigSep_sep', ← bigSep_cells (fun g => iprop(∃ κ : ℕ, cellInv ER (sched m) κ g)),
    bigSep_congr (s := Finset.univ) (fun (c : Dev nD) _ => bigSep_sep' Finset.univ (fun k : OwnIx => (atPos ER (kcell (c, k)) 0 ∅ 0 : sProp 𝕄)) (fun k => reached ER (kcell (c, k)) 0)),
    bigSep_sep', ← bigSep_cells (fun g => (reached ER g 0 : sProp 𝕄))]
  iintro ⟨HI, ⟨Hat, #HR⟩, Htok, Hws⟩
  ihave HK := (BI.bigSep_exists_pi ringCells (fun (g : GSem nD τ sig) (κ : ℕ) => (cellInv ER (sched m) κ g : sProp 𝕄))) $$ HI
  icases HK with ⟨%K, #HI⟩
  iapply (bigSep_with_persistent (R := records m K) fun c _ => G'_intro m K c)
  isplitr
  · unfold records; isplitl; · iexact HI
    iexact HR
  · have e : (bigSep Finset.univ fun c : Dev nD => iprop((bigSep Finset.univ fun k : OwnIx => (atPos ER (kcell (c, k)) 0 ∅ 0 : sProp 𝕄)) ∗ payToks c ∗ wsems c))
        = iprop((bigSep Finset.univ fun c : Dev nD => bigSep Finset.univ fun k : OwnIx => (atPos ER (kcell (c, k)) 0 ∅ 0 : sProp 𝕄))
            ∗ (bigSep Finset.univ fun c : Dev nD => (payToks c : sProp 𝕄)) ∗ bigSep Finset.univ fun c : Dev nD => (wsems c : sProp 𝕄)) := by
      rw [bigSep_sep', bigSep_sep']
    iapply (Entails.of_eq e.symm)
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem O₀_sum (d : Dev nD) :
    O₀ d = (∑ i : Fin 7, tallyAt (barCell (ringAt d i)) () 1) + ∑ i : Fin 7, tallyAt (recvCell (dstAt d i) d) () N := by
  unfold O₀ Orecv
  rw [Fin.sum_univ_seven, Fin.sum_univ_seven]
  abel

omit [FloatOps F] in
theorem seven_units (g : GSem nD τ sig) : (∑ _i : Fin 7, (tallyAt g () 1 : CellTallies nD τ sig Unit)) = tallyAt g () 7 := by
  rw [Fin.sum_univ_seven]; simp only [tallyAt_add]

omit [FloatOps F] in

theorem recv_cred (c : Dev nD) (i : Fin 7) :
    (Pipeline.launchCred (fun d => tallyAt (recvCell (dstAt d i) d) () N) c : sProp 𝕄) ⊢ cred (tallyAt (recvCell c (srcAt c i.succ)) () N) := by
  refine (Pipeline.launchCred_elim _ c (.dma (recvS (srcAt c i.succ)))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ srcAt c i.succ →
      tallyOn (nD := nD) (sig := sig) (recvCell (dstAt d i) d) (Finsupp.single () N) (recvCell c (srcAt c i.succ)) = 0 := fun d _ hd => by
    unfold tallyOn
    refine Pi.single_eq_of_ne (fun h => hd ?_) _
    exact (recvS_inj (SemLoc.dma.inj (congrArg Prod.snd h))).symm
  rw [Finset.sum_eq_single (srcAt c i.succ) h0 (fun h => absurd (Finset.mem_univ _) h)]
  unfold tallyOn
  rw [dst_src, Pi.single_eq_same]

omit [FloatOps F] in
theorem creds (c : Dev nD) :
    (Pipeline.launchCred O₀ c : sProp 𝕄)
      ⊢ iprop(cred (tallyAt (barCell c) () 7) ∗ bigSep Finset.univ fun h : Fin 7 => cred (tallyAt (recvCell c (srcAt c h.succ)) () N)) := by
  rw [show (O₀ : Dev nD → CellTallies nD τ sig Unit)
      = fun d => (∑ i : Fin 7, tallyAt (barCell (ringAt d i)) () 1) + ∑ i : Fin 7, tallyAt (recvCell (dstAt d i) d) () N from funext O₀_sum,
    Pipeline.launchCred_add, Pipeline.launchCred_sum, Pipeline.launchCred_sum]
  refine BI.sep_mono ?_ (bigSep_mono fun i _ => recv_cred (F := F) c i)
  refine (bigSep_mono fun i _ => Pipeline.launchCred_tallyAt (.reg barS) (fun d => ringAt d i) (fun c => ringBack c i)
    (fun c => ring_back c i) (fun d => back_ring d i) () 1 c).trans ?_
  rw [← Pipeline.cred_finsetSum, seven_units]
  exact BI.Entails.refl _

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  icases Hc with ⟨H7, HN⟩
  unfold G'
  icases HG with ⟨HG, Hws⟩
  imodintro
  unfold start wPts win
  isplitl
  · isplitl [HG]; · iexact HG
    isplitl [H7]; · iexact H7
    isplitl [HN]; · iexact HN
    isplitl [Hlev]; · iexact Hlev
    isplitl [Hws]; · iexact Hws
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch3
  iintro ⟨Hs, -, Hr⟩
  isplitl [Hs] <;> iassumption

theorem phi1_exit (c : Dev nD) :
    (dats m ρ 0 c).Φ (Fin.last cfg0.N) ⊢ iprop(wPts m c ∗ Pipeline.ownSems0 osem c ∗ Pipeline.scopedRest cfg0.spec c) := by
  rw [show (dats m ρ 0 c).Φ (Fin.last cfg0.N) = Φ₁ m c from rfl, scopedRest0_eq, ownSems0_eq, recv_split]
  unfold Φ₁ scratch3 ownZero wsems
  iintro ⟨Hr, ⟨HS, HR, HW, Hc⟩, Hw⟩
  isplitl [Hw]; · iexact Hw
  isplitl [HS HR HW Hc]
  · isplitl [HS]; · iexact HS
    isplitl [Hc HR]
    · isplitl [Hc] <;> iassumption
    iexact HW
  iexact Hr

theorem final_x (c : Dev nD) : (dats m ρ 0 c).arrAt (0 : Fin 2) cfg0.N = m ((c : Thread nD τ).loc main_arg0) :=
  (dats (F := F) m ρ 0 c).arrAt_in (0 : Fin 2) rfl _

theorem final_out (c : Dev nD) : (dats m ρ 0 c).arrAt (1 : Fin 2) cfg0.N = outAt m c := by
  have h := (dats (F := F) m ρ 0 c).arrAt_succ (1 : Fin 2) t₀
  rw [flush0_1 t₀, if_pos rfl] at h
  refine h.trans ?_
  exact Memref.write_access_unit_zero_univ (Elt F) main_v1 (funext fun a => Nat.zero_mul _) _ _ _

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_dma_low c _ (Or.inl (by fin_cases w <;> fin_cases s <;> decide))) _ (by
      rcases t with ⟨_ | _, ht⟩
      · exact Or.inl rfl
      · exact Or.inr rfl)

end Launch

open Launch in
set_option maxRecDepth 16384 in

theorem run_main : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := wPts m) (Z := fun _ => iprop(emp))
    (hX := start_intro m ρ) (hin := phi0_intro m ρ) (hout := phi1_exit m ρ)
    (QY := fun c s => s.mem ((c : Thread nD τ).loc main_arg1) = m ((c : Thread nD τ).loc main_arg1))
    (hY := fun c s' => by
      unfold wPts win
      iintro ⟨Hw, -, HSI⟩
      icombine HSI Hw gives %hw
      imodintro
      isplitr; · ipureintro; exact Buf.eq_of_forall_mem_univ hw
      iexact HSI)
    (hQ := fun s h c => ⟨((h c).1 1).trans (final_out m ρ c), ((h c).1 0).trans (final_x m ρ c), (h c).2.2⟩)

/-- info: 'Cert.KernelIdeal.A2A.run_main' depends on axioms: [propext, Classical.choice, Quot.sound] -/
#guard_msgs in #print axioms run_main

end Cert.KernelIdeal.A2A

end
-- ==== Proof.A2AK.Peers.lean ====
import proofs.«900488_g7700000000000489_dist_a2a_gemm_m4096_k4096_n8192_f32_none_v7x_i8_1_alg».proof.Proof.Gen.Kernel

namespace Cert.Kernel.A2A

open Cert.Kernel Cert.Kernel.Gen Idealize.ShloMosaic

def base (c : Dev nD) : Nat := c.val / 4 * 4

def pos (c : Dev nD) : Nat := c.val - c.val / 4 * 4

def obase (c : Dev nD) : Nat := 4 - c.val / 4 * 4

def ringAt (c : Dev nD) (i : Fin 7) : Dev nD := ⟨(c.val + 1 + i.val) % 8, Nat.mod_lt _ (by decide)⟩

def dstAt (c : Dev nD) (i : Fin 7) : Dev nD :=
  if h : i.val < 3 then ⟨base c + (pos c + (i.val + 1)) % 4, by
    have hc : c.val < 8 := c.isLt
    show c.val / 4 * 4 + (c.val - c.val / 4 * 4 + (i.val + 1)) % 4 < 8
    omega⟩
  else ⟨obase c + (pos c + (i.val - 3)) % 4, by
    have hc : c.val < 8 := c.isLt
    show 4 - c.val / 4 * 4 + (c.val - c.val / 4 * 4 + (i.val - 3)) % 4 < 8
    omega⟩

def srcAt (c : Dev nD) (h : Fin 8) : Dev nD :=
  if h0 : h.val = 0 then c
  else if h3 : h.val ≤ 3 then ⟨base c + (pos c + 4 - h.val) % 4, by
    have hc : c.val < 8 := c.isLt
    show c.val / 4 * 4 + (c.val - c.val / 4 * 4 + 4 - h.val) % 4 < 8
    omega⟩
  else ⟨obase c + (pos c + 4 - (h.val - 4)) % 4, by
    have hc : c.val < 8 := c.isLt
    show 4 - c.val / 4 * 4 + (c.val - c.val / 4 * 4 + 4 - (h.val - 4)) % 4 < 8
    omega⟩

theorem dev1_eq (c : Dev nD) : (⟨k0_dev1 c, k0_dev1_lt c⟩ : Dev nD) = ringAt c 0 := Fin.ext (k0_dev1_eq c)
theorem dev2_eq (c : Dev nD) : (⟨k0_dev2 c, k0_dev2_lt c⟩ : Dev nD) = ringAt c 1 := Fin.ext (k0_dev2_eq c)
theorem dev3_eq (c : Dev nD) : (⟨k0_dev3 c, k0_dev3_lt c⟩ : Dev nD) = ringAt c 2 := Fin.ext (k0_dev3_eq c)
theorem dev4_eq (c : Dev nD) : (⟨k0_dev4 c, k0_dev4_lt c⟩ : Dev nD) = ringAt c 3 := Fin.ext (k0_dev4_eq c)
theorem dev5_eq (c : Dev nD) : (⟨k0_dev5 c, k0_dev5_lt c⟩ : Dev nD) = ringAt c 4 := Fin.ext (k0_dev5_eq c)
theorem dev6_eq (c : Dev nD) : (⟨k0_dev6 c, k0_dev6_lt c⟩ : Dev nD) = ringAt c 5 := Fin.ext (k0_dev6_eq c)
theorem dev7_eq (c : Dev nD) : (⟨k0_dev7 c, k0_dev7_lt c⟩ : Dev nD) = ringAt c 6 := Fin.ext (k0_dev7_eq c)

theorem dev8_eq : ∀ c : Dev nD, (⟨k0_dev8 c, k0_dev8_lt c⟩ : Dev nD) = dstAt c 0 := by decide +kernel
theorem dev9_eq : ∀ c : Dev nD, (⟨k0_dev9 c, k0_dev9_lt c⟩ : Dev nD) = dstAt c 1 := by decide +kernel
theorem dev10_eq : ∀ c : Dev nD, (⟨k0_dev10 c, k0_dev10_lt c⟩ : Dev nD) = dstAt c 2 := by decide +kernel
theorem dev11_eq : ∀ c : Dev nD, (⟨k0_dev11 c, k0_dev11_lt c⟩ : Dev nD) = dstAt c 3 := by decide +kernel
theorem dev12_eq : ∀ c : Dev nD, (⟨k0_dev12 c, k0_dev12_lt c⟩ : Dev nD) = dstAt c 4 := by decide +kernel
theorem dev13_eq : ∀ c : Dev nD, (⟨k0_dev13 c, k0_dev13_lt c⟩ : Dev nD) = dstAt c 5 := by decide +kernel
theorem dev14_eq : ∀ c : Dev nD, (⟨k0_dev14 c, k0_dev14_lt c⟩ : Dev nD) = dstAt c 6 := by decide +kernel

theorem ringAt_ne : ∀ (c : Dev nD) (i : Fin 7), ringAt c i ≠ c := by decide
theorem ringAt_inj : ∀ (c : Dev nD) (i j : Fin 7), ringAt c i = ringAt c j → i = j := by decide
theorem dstAt_ne : ∀ (c : Dev nD) (i : Fin 7), dstAt c i ≠ c := by decide
theorem dstAt_inj : ∀ (c : Dev nD) (i j : Fin 7), dstAt c i = dstAt c j → i = j := by decide
theorem srcAt_inj : ∀ (c : Dev nD) (h k : Fin 8), srcAt c h = srcAt c k → h = k := by decide
theorem srcAt_surj : ∀ (c j : Dev nD), ∃ h : Fin 8, srcAt c h = j := by decide

theorem dstAt_surj : ∀ (c d : Dev nD), d ≠ c → ∃ i : Fin 7, dstAt c i = d := by decide

end Cert.Kernel.A2A
-- ==== Proof.A2AK.Data.lean ====
import proofs.«900488_g7700000000000489_dist_a2a_gemm_m4096_k4096_n8192_f32_none_v7x_i8_1_alg».proof.Proof.Gen.Kernel.Skeleton
import proofs.«900488_g7700000000000489_dist_a2a_gemm_m4096_k4096_n8192_f32_none_v7x_i8_1_alg».proof.Proof.A2AK.Peers
import Idealize.ShloMosaic.Lib.ValueIdx

noncomputable section

namespace Cert.Kernel.A2A

open Cert.Kernel Cert.Kernel.Gen Idealize.ShloMosaic Idealize.ShloMosaic.ValueIdx

variable {F : FTy → Type} [FloatOps F]

def rowsF (X : Vec F S4096x512 .f32) (c : Dev nD) : Vec F S512x512 .f32 := fun i =>
  X (ix2 (n0 := 4096) (n1 := 512) ⟨512 * c.val + (i 0).val, by
      have hc : c.val < 8 := c.isLt
      have h0 : (i 0).val < 512 := (i 0).isLt
      omega⟩ ⟨(i 1).val, (i 1).isLt⟩)

def rowsB (X : Vec F S4096x512 .bf16) (c : Dev nD) : Vec F S1x512x512 .bf16 := fun i =>
  X (ix2 (n0 := 4096) (n1 := 512) ⟨512 * c.val + (i 1).val, by
      have hc : c.val < 8 := c.isLt
      have h1 : (i 1).val < 512 := (i 1).isLt
      omega⟩ ⟨(i 2).val, (i 2).isLt⟩)

def wBlk (W : Vec F S4096x8192 .f32) (j : Dev nD) (q : Fin 4) : Vec F S1x512x2048 .f32 := fun i =>
  W (ix2 (n0 := 4096) (n1 := 8192) ⟨512 * j.val + (i 1).val, by
      have hj : j.val < 8 := j.isLt
      have h1 : (i 1).val < 512 := (i 1).isLt
      omega⟩ ⟨2048 * q.val + (i 2).val, by
      have hq : q.val < 4 := q.isLt
      have h2 : (i 2).val < 2048 := (i 2).isLt
      omega⟩)

def narrow (X : Vec F S4096x512 .f32) : Vec F S4096x512 .bf16 := k0_pay1 X

def mm0 (a : Vec F S512x512 .f32) (w : Vec F S1x512x2048 .f32) : Vec F S512x2048 .f32 := k0_pay2 a w

def mmAcc (a : Vec F S1x512x512 .bf16) (w : Vec F S1x512x2048 .f32) (o : Vec F S512x2048 .f32) : Vec F S512x2048 .f32 :=
  k0_pay7 a w o

def roundOf (h : Nat) : Fin 8 := ⟨h % 8, Nat.mod_lt _ (by decide)⟩

def chunkAt (X : Dev nD → Vec F S4096x512 .f32) (W : Vec F S4096x8192 .f32) (c : Dev nD) (q : Fin 4) : Nat → Vec F S512x2048 .f32
  | 0 => mm0 (rowsF (X c) c) (wBlk W c q)
  | h + 1 => mmAcc (rowsB (narrow (X (srcAt c (roundOf (h + 1))))) c) (wBlk W (srcAt c (roundOf (h + 1))) q) (chunkAt X W c q h)

def outOf (X : Dev nD → Vec F S4096x512 .f32) (W : Vec F S4096x8192 .f32) (c : Dev nD) : Vec F S512x8192 .f32 := fun i =>
  chunkAt X W c ⟨(i 1).val / 2048, by
      have h1 : (i 1).val < 8192 := (i 1).isLt
      omega⟩ 7
    (ix2 (n0 := 512) (n1 := 2048) ⟨(i 0).val, (i 0).isLt⟩ ⟨(i 1).val % 2048, Nat.mod_lt _ (by decide)⟩)

end Cert.Kernel.A2A

end
-- ==== Proof.A2AK.Sched.lean ====
import proofs.«900488_g7700000000000489_dist_a2a_gemm_m4096_k4096_n8192_f32_none_v7x_i8_1_alg».proof.Proof.A2AK.Data
import proofs.«900488_g7700000000000489_dist_a2a_gemm_m4096_k4096_n8192_f32_none_v7x_i8_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

abbrev barS : Sem sig := (SemArray.scalar (sig.barrier 0 rfl) : Sems sig S_).sem

def sendS (i : Fin 7) : DmaSem sig := ⟨2 + i.val, by have := i.isLt; show 2 + i.val < 23; omega⟩
def recvS (j : Dev nD) : DmaSem sig := ⟨9 + j.val, by have : j.val < 8 := j.isLt; show 9 + j.val < 23; omega⟩
def wS (s : Fin 6) : DmaSem sig := ⟨17 + s.val, by have := s.isLt; show 17 + s.val < 23; omega⟩

abbrev barCell (c : Dev nD) : GSem nD τ sig := ((c : Thread nD τ), .reg barS)
abbrev sendCell (c : Dev nD) (i : Fin 7) : GSem nD τ sig := ((c : Thread nD τ), .dma (sendS i))
abbrev recvCell (c j : Dev nD) : GSem nD τ sig := ((c : Thread nD τ), .dma (recvS j))

abbrev xM : Memref sig .tc .vmem S4096x512 .f32 := Memref.whole cc0_stg0_0
abbrev oM : Memref sig .tc .vmem S512x8192 .f32 := Memref.whole cc0_stg1_0
abbrev nM : Memref sig .tc .vmem S4096x512 .bf16 := Memref.whole cc0_scratch0
abbrev lM : Memref sig .tc .vmem S8x512x512 .bf16 := Memref.whole cc0_scratch1
abbrev wM : Memref sig .tc .vmem S6x512x2048 .f32 := Memref.whole cc0_scratch2

def xin (c : Dev nD) : (cc0_stg0_0 : Ref sig .tc).ty.Contents (Elt F) :=
  (win0_0.blk t0_0).view.read (Elt F) (m ((c : Thread nD τ).loc main_arg0))

def win (c : Dev nD) : Buf (Elt F) ((c : Thread nD τ).loc main_arg1) := m ((c : Thread nD τ).loc main_arg1)

def x16 (c : Dev nD) : (cc0_scratch0 : Ref sig .tc).ty.Contents (Elt F) := narrow (xin m c)

def landedAll (c : Dev nD) : (cc0_scratch1 : Ref sig .tc).ty.Contents (Elt F) := fun i =>
  rowsB (x16 m ⟨(i 0).val, (i 0).isLt⟩) c
    (ValueIdx.ix3 (n0 := 1) (n1 := 512) (n2 := 512) ⟨0, by decide⟩ ⟨(i 1).val, (i 1).isLt⟩ ⟨(i 2).val, (i 2).isLt⟩)

abbrev slotM (j : Dev nD) : Memref sig .tc .vmem S512x512 .bf16 :=
  ((lM.slice (Rect.unit (s := S8x512x512) (k0_off7 j) S1x512x512.size (k0_off7_inb j)) (fun _ => rfl)).squeeze S512x512 squeezes_S1x512x512_S512x512)

abbrev N : ℕ := (slotM (0 : Dev nD)).view.dmaCredit

def slotPts (d j : Dev nD) (f : Buf (Elt F) ((slotM j).view.loc (d : Thread nD τ))) : sProp 𝕄 :=
  (slotM j).view.loc (d : Thread nD τ) ↦[(slotM j).view.set]{fullShare} f

def srcOff (c : Dev nD) (i : Fin 7) : Fin 2 → Nat :=
  if i.val < 3 then k0_off8 c (BitVec.ofNat 32 (1 + i.val)) else k0_off9 c (BitVec.ofNat 32 (i.val - 3))

theorem srcOff_inb (c : Dev nD) (i : Fin 7) : ∀ a, srcOff c i a + S512x512.size a ≤ S4096x512.size a := by
  unfold srcOff
  by_cases h : i.val < 3
  · rw [if_pos h]; exact k0_off8_inb c ⟨i.val, h⟩
  · rw [if_neg h]; exact k0_off9_inb c ⟨i.val - 3, by have := i.isLt; omega⟩

abbrev srcSliceM (c : Dev nD) (i : Fin 7) : Memref sig .tc .vmem S512x512 .bf16 :=
  nM.slice (Rect.unit (s := S4096x512) (srcOff c i) S512x512.size (srcOff_inb c i)) (fun _ => rfl)

def srcPts (c : Dev nD) (i : Fin 7) : sProp 𝕄 :=
  (srcSliceM c i).view.loc (c : Thread nD τ) ↦[(srcSliceM c i).view.set]{fullShare} x16 m c

def barPay (c d : Dev nD) : sProp 𝕄 := iprop((∃ f, slotPts d c f) ∗ reached ER (recvCell d c) 0)

def recvPay (c j : Dev nD) : sProp 𝕄 := slotPts c j (landedAll m c)

inductive Role where
  | bar
  | send (i : Fin 7)
  | recv (j : Dev nD)
  | other

def roleOf : SemLoc sig → Role
  | .reg s => if s = barS then .bar else .other
  | .dma q =>
    if h : 2 ≤ q.val ∧ q.val < 9 then .send ⟨q.val - 2, by omega⟩
    else if h' : 9 ≤ q.val ∧ q.val < 17 then .recv ⟨q.val - 9, by show q.val - 9 < 8; omega⟩
    else .other

theorem roleOf_bar : roleOf (.reg barS) = .bar := by
  show (if (barS : Sem sig) = barS then Role.bar else Role.other) = Role.bar
  exact if_pos rfl
theorem roleOf_send (i : Fin 7) : roleOf (.dma (sendS i)) = .send i := by
  have hi := i.isLt
  show (if h : 2 ≤ 2 + i.val ∧ 2 + i.val < 9 then Role.send ⟨2 + i.val - 2, by omega⟩ else _) = _
  rw [dif_pos ⟨by omega, by omega⟩]
  exact congrArg Role.send (Fin.ext (by show 2 + i.val - 2 = i.val; omega))
theorem roleOf_recv (j : Dev nD) : roleOf (.dma (recvS j)) = .recv j := by
  have hj : j.val < 8 := j.isLt
  show (if h : 2 ≤ 9 + j.val ∧ 9 + j.val < 9 then Role.send ⟨9 + j.val - 2, by omega⟩
    else if h' : 9 ≤ 9 + j.val ∧ 9 + j.val < 17 then Role.recv ⟨9 + j.val - 9, by show 9 + j.val - 9 < 8; omega⟩ else Role.other) = _
  rw [dif_neg (by omega), dif_pos ⟨by omega, by omega⟩]
  exact congrArg Role.recv (Fin.ext (by show 9 + j.val - 9 = j.val; omega))

theorem N_pos : 0 < N := View.dmaCredit_pos _ (by decide)

def dutiesOf (c : Dev nD) : Role → Finset (Dev nD)
  | .bar => Finset.univ.erase c
  | .send _ => {c}
  | .recv j => if j = c then ∅ else {j}
  | .other => ∅

def unitsOf : Role → ℕ
  | .bar => 1
  | _ => N

theorem unitsOf_pos : (ρ : Role) → 0 < unitsOf ρ
  | .bar => Nat.one_pos
  | .send _ => N_pos
  | .recv _ => N_pos
  | .other => N_pos

def payOf (c d : Dev nD) : Role → sProp 𝕄
  | .bar => barPay c d
  | .send i => srcPts m c i
  | .recv j => recvPay m c j
  | .other => iprop(emp)

instance payOf_storable (c d : Dev nD) : (ρ : Role) → BI.Storable (upEmb : UEmb _ 𝕄) (payOf m c d ρ)
  | .bar => by show BI.Storable upEmb (barPay c d); unfold barPay slotPts; infer_instance
  | .send i => by show BI.Storable upEmb (srcPts m c i); unfold srcPts; infer_instance
  | .recv j => by show BI.Storable upEmb (recvPay m c j); unfold recvPay slotPts; infer_instance
  | .other => by show BI.Storable upEmb (iprop(emp) : sProp 𝕄); infer_instance

def sched : Rounds.Schedule (GSem nD τ sig) (Dev nD) 𝕄 where
  duties g r := if r = 0 ∧ g.1.2 = .tc then dutiesOf g.1.1 (roleOf g.2) else ∅
  amount g _ _ := unitsOf (roleOf g.2)
  payload g _ d := payOf m g.1.1 d (roleOf g.2)
  amount_pos g _ _ _ := unitsOf_pos _

instance sched_payload_storable (g : GSem nD τ sig) (r : ℕ) (d : Dev nD) :
    BI.Storable (upEmb : UEmb _ 𝕄) ((sched m).payload g r d) :=
  payOf_storable m g.1.1 d (roleOf g.2)

def Orecv (c : Dev nD) : CellTallies nD τ sig Unit :=
  tallyAt (recvCell (dstAt c 6) c) () N + tallyAt (recvCell (dstAt c 5) c) () N + tallyAt (recvCell (dstAt c 4) c) () N
    + tallyAt (recvCell (dstAt c 3) c) () N + tallyAt (recvCell (dstAt c 2) c) () N + tallyAt (recvCell (dstAt c 1) c) () N
    + tallyAt (recvCell (dstAt c 0) c) () N

def O₀ (c : Dev nD) : CellTallies nD τ sig Unit :=
  Orecv c + tallyAt (barCell (ringAt c 6)) () 1 + tallyAt (barCell (ringAt c 5)) () 1 + tallyAt (barCell (ringAt c 4)) () 1
    + tallyAt (barCell (ringAt c 3)) () 1 + tallyAt (barCell (ringAt c 2)) () 1 + tallyAt (barCell (ringAt c 1)) () 1
    + tallyAt (barCell (ringAt c 0)) () 1

def L (g : GSem nD τ sig) : Finset Unit := if g.1.2 = .tc then {()} else ∅

def lv (g : GSem nD τ sig) (_ : Unit) : ℕ :=
  match roleOf g.2 with
  | .bar => 1
  | .recv _ => 2
  | _ => 0

theorem dstAt_eq_iff (c : Dev nD) (i j : Fin 7) : dstAt c i = dstAt c j ↔ i = j :=
  ⟨dstAt_inj c i j, fun h => h ▸ rfl⟩
theorem erase_eq_image_dst (c : Dev nD) : Finset.univ.erase c = Finset.univ.image (dstAt c) := by
  ext d
  rw [Finset.mem_erase, Finset.mem_image]
  constructor
  · rintro ⟨h, -⟩; obtain ⟨i, hi⟩ := dstAt_surj c d h; exact ⟨i, Finset.mem_univ _, hi⟩
  · rintro ⟨i, -, rfl⟩; exact ⟨dstAt_ne c i, Finset.mem_univ _⟩

theorem erase_eq_dst (c : Dev nD) :
    Finset.univ.erase c = {dstAt c 0, dstAt c 1, dstAt c 2, dstAt c 3, dstAt c 4, dstAt c 5, dstAt c 6} := by
  rw [erase_eq_image_dst, show (Finset.univ : Finset (Fin 7)) = {0, 1, 2, 3, 4, 5, 6} from by decide]
  simp only [Finset.image_insert, Finset.image_singleton]

theorem duties_eq (c : Dev nD) (s : SemLoc sig) : (sched m).duties ((c : Thread nD τ), s) 0 = dutiesOf c (roleOf s) := by
  dsimp only [sched]; exact if_pos ⟨rfl, rfl⟩
theorem amount_eq (g : GSem nD τ sig) (r : ℕ) (d : Dev nD) : (sched m).amount g r d = unitsOf (roleOf g.2) := rfl
theorem payload_eq (c : Dev nD) (s : SemLoc sig) (r : ℕ) (d : Dev nD) :
    (sched m).payload ((c : Thread nD τ), s) r d = payOf m c d (roleOf s) := rfl

section Tables
variable (c : Dev nD)

theorem duties_bar : (sched m).duties (barCell c) 0 = Finset.univ.erase c := by rw [duties_eq, roleOf_bar]; rfl
theorem duties_bar_list : (sched m).duties (barCell c) 0
    = {dstAt c 0, dstAt c 1, dstAt c 2, dstAt c 3, dstAt c 4, dstAt c 5, dstAt c 6} := by rw [duties_bar, erase_eq_dst]
theorem duties_send (i : Fin 7) : (sched m).duties (sendCell c i) 0 = {c} := by rw [duties_eq, roleOf_send]; rfl
theorem duties_recv (j : Dev nD) (h : j ≠ c) : (sched m).duties (recvCell c j) 0 = {j} := by
  rw [duties_eq, roleOf_recv]; exact if_neg h

theorem duties_recv_dst (i : Fin 7) : (sched m).duties (recvCell (dstAt c i) c) 0 = {c} :=
  duties_recv m (dstAt c i) c (dstAt_ne c i).symm
theorem duties_later (g : GSem nD τ sig) : ∀ r, 1 ≤ r → (sched m).duties g r = ∅ :=
  fun r hr => by dsimp only [sched]; exact if_neg fun h => by omega

theorem mem_bar (d : Dev nD) (h : d ≠ c) : d ∈ (sched m).duties (barCell c) 0 := by
  rw [duties_bar]; exact Finset.mem_erase.mpr ⟨h, Finset.mem_univ _⟩

theorem mem_bar_ring (i : Fin 7) : c ∈ (sched m).duties (barCell (ringAt c i)) 0 := mem_bar m _ c (ringAt_ne c i).symm

theorem mem_send (i : Fin 7) : c ∈ (sched m).duties (sendCell c i) 0 := by rw [duties_send]; exact Finset.mem_singleton_self _

theorem mem_recv_dst (i : Fin 7) : c ∈ (sched m).duties (recvCell (dstAt c i) c) 0 := by
  rw [duties_recv_dst]; exact Finset.mem_singleton_self _

theorem amount_bar (r : ℕ) (d : Dev nD) : (sched m).amount (barCell c) r d = 1 := by rw [amount_eq, roleOf_bar]; rfl
theorem amount_send (i : Fin 7) (r : ℕ) (d : Dev nD) : (sched m).amount (sendCell c i) r d = N := by rw [amount_eq, roleOf_send]; rfl
theorem amount_recv (j : Dev nD) (r : ℕ) (d : Dev nD) : (sched m).amount (recvCell c j) r d = N := by rw [amount_eq, roleOf_recv]; rfl

theorem expect_bar : (sched m).expect (barCell c) 0 = 7 := by
  unfold Schedule.expect Schedule.amountOf
  rw [duties_bar, Finset.sum_congr rfl fun d _ => amount_bar m c 0 d, Finset.sum_const, Finset.card_erase_of_mem (Finset.mem_univ c),
    Finset.card_univ, Fintype.card_fin, smul_eq_mul]
  rfl
theorem expect_send (i : Fin 7) : (sched m).expect (sendCell c i) 0 = N := by
  unfold Schedule.expect Schedule.amountOf; rw [duties_send, Finset.sum_singleton, amount_send]
theorem expect_recv (j : Dev nD) (h : j ≠ c) : (sched m).expect (recvCell c j) 0 = N := by
  unfold Schedule.expect Schedule.amountOf; rw [duties_recv m c j h, Finset.sum_singleton, amount_recv]

theorem payload_bar (r : ℕ) (d : Dev nD) : (sched m).payload (barCell c) r d = barPay c d := by rw [payload_eq, roleOf_bar]; rfl
theorem payload_send (i : Fin 7) (r : ℕ) (d : Dev nD) : (sched m).payload (sendCell c i) r d = srcPts m c i := by
  rw [payload_eq, roleOf_send]; rfl
theorem payload_recv (j : Dev nD) (r : ℕ) (d : Dev nD) : (sched m).payload (recvCell c j) r d = recvPay m c j := by
  rw [payload_eq, roleOf_recv]; rfl

theorem payload_bar' (r : ℕ) (d : Dev nD) : (sched m).payload (barCell c) r d
    = iprop((∃ f, (slotM c).view.loc (d : Thread nD τ) ↦[(slotM c).view.set]{fullShare} f) ∗ reached ER (recvCell d c) 0) := payload_bar m c r d
theorem payload_send' (i : Fin 7) (r : ℕ) (d : Dev nD) : (sched m).payload (sendCell c i) r d
    = ((srcSliceM c i).view.loc (c : Thread nD τ) ↦[(srcSliceM c i).view.set]{fullShare} x16 m c : sProp 𝕄) := payload_send m c i r d
theorem payload_recv' (j : Dev nD) (r : ℕ) (d : Dev nD) : (sched m).payload (recvCell c j) r d
    = ((slotM j).view.loc (c : Thread nD τ) ↦[(slotM j).view.set]{fullShare} landedAll m c : sProp 𝕄) := payload_recv m c j r d

end Tables

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) : () ∈ L ((c : Thread nD τ), sm) := by rw [L_tc]; exact Finset.mem_singleton_self _

theorem lv_bar (c : Dev nD) : lv (barCell c) () = 1 := by unfold lv; rw [roleOf_bar]
theorem lv_recv (c j : Dev nD) : lv (recvCell c j) () = 2 := by unfold lv; rw [roleOf_recv]
theorem lv_dma_low (c : Dev nD) (q : DmaSem sig) (h : q.val < 9 ∨ 17 ≤ q.val) : lv ((c : Thread nD τ), .dma q) () = 0 := by
  unfold lv
  show (match (if h : 2 ≤ q.val ∧ q.val < 9 then Role.send ⟨q.val - 2, by omega⟩
    else if h' : 9 ≤ q.val ∧ q.val < 17 then Role.recv ⟨q.val - 9, by show q.val - 9 < 8; omega⟩ else Role.other) with
    | .bar => 1 | .recv _ => 2 | _ => 0) = 0
  by_cases h1 : 2 ≤ q.val ∧ q.val < 9
  · rw [dif_pos h1]
  · rw [dif_neg h1, dif_neg (by omega)]
theorem pos_add_tally {D : CellTallies nD τ sig Unit} {g' g : GSem nD τ sig} {k : ℕ} {u : Unit}
    (h : 0 < (D + tallyAt g' () k) g u) : 0 < D g u ∨ g = g' :=
  (Pipeline.add_pos_cases h).imp id fun h' => (Pipeline.tallyAt_pos h').1

theorem Orecv_pos {c : Dev nD} {g : GSem nD τ sig} {u : Unit} (h : 0 < Orecv c g u) : ∃ i, g = recvCell (dstAt c i) c := by
  unfold Orecv at h
  rcases pos_add_tally h with h | h; swap; · exact ⟨0, h⟩
  rcases pos_add_tally h with h | h; swap; · exact ⟨1, h⟩
  rcases pos_add_tally h with h | h; swap; · exact ⟨2, h⟩
  rcases pos_add_tally h with h | h; swap; · exact ⟨3, h⟩
  rcases pos_add_tally h with h | h; swap; · exact ⟨4, h⟩
  rcases pos_add_tally h with h | h; swap; · exact ⟨5, h⟩
  exact ⟨6, (Pipeline.tallyAt_pos h).1⟩

theorem O₀_pos {c : Dev nD} {g : GSem nD τ sig} {u : Unit} (h : 0 < O₀ c g u) :
    (∃ i, g = recvCell (dstAt c i) c) ∨ ∃ i, g = barCell (ringAt c i) := by
  unfold O₀ at h
  rcases pos_add_tally h with h | h; swap; · exact .inr ⟨0, h⟩
  rcases pos_add_tally h with h | h; swap; · exact .inr ⟨1, h⟩
  rcases pos_add_tally h with h | h; swap; · exact .inr ⟨2, h⟩
  rcases pos_add_tally h with h | h; swap; · exact .inr ⟨3, h⟩
  rcases pos_add_tally h with h | h; swap; · exact .inr ⟨4, h⟩
  rcases pos_add_tally h with h | h; swap; · exact .inr ⟨5, h⟩
  rcases pos_add_tally h with h | h; swap; · exact .inr ⟨6, h⟩
  exact .inl (Orecv_pos h)

omit [FloatOps F] in

theorem mayWait_stage (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L c _) fun g u hg => ?_
    rcases O₀_pos hg with ⟨i, rfl⟩ | ⟨i, rfl⟩
    · exact ⟨mem_L _ _, by rw [hq, lv_recv]; decide⟩
    · exact ⟨mem_L _ _, by rw [hq, lv_bar]; decide⟩
  · rw [MayWait_zero]; iintro -; iempintro

omit [FloatOps F] in

theorem mayWait_bar (c : Dev nD) :
    (levAts L lv : sProp 𝕄) ⊢ MayWait (c : Thread nD τ) (.reg barS) () (Orecv c) :=
  Pipeline.mayWait_of_levAts (mem_L c _) fun g u hg => by
    obtain ⟨i, rfl⟩ := Orecv_pos hg
    exact ⟨mem_L _ _, by rw [show lv ((c : Thread nD τ), SemLoc.reg barS) () = 1 from lv_bar c, lv_recv]; decide⟩

/-- info: 'Cert.Kernel.A2A.mayWait_bar' depends on axioms: [propext, Classical.choice, Quot.sound] -/
#guard_msgs in #print axioms mayWait_bar

end Cert.Kernel.A2A

end
-- ==== Proof.A2AK.State.lean ====
import proofs.«900488_g7700000000000489_dist_a2a_gemm_m4096_k4096_n8192_f32_none_v7x_i8_1_alg».proof.Proof.A2AK.Sched
import proofs.«900488_g7700000000000489_dist_a2a_gemm_m4096_k4096_n8192_f32_none_v7x_i8_1_alg».proof.Proof.Gen.Kernel.Points
import Idealize.ShloMosaic.Lib.Pipeline.Launch
import Idealize.ShloMosaic.Lib.Pipeline.Kit
import Idealize.ShloMosaic.Lib.Tactic

set_option maxRecDepth 16384

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev 𝒱₀ : Variants := Variants.none

def t₀ : Fin cfg0.N := t0_0
theorem fin_N (t : Fin cfg0.N) : t = t₀ := fin_N0 t

theorem src_succ_ne : ∀ (c : Dev nD) (h : Fin 7), srcAt c h.succ ≠ c := by decide

theorem src_succ_inj : ∀ (c : Dev nD) (h k : Fin 7), srcAt c h.succ = srcAt c k.succ → h = k := by decide

theorem src_dst : ∀ (d : Dev nD) (i : Fin 7), srcAt (dstAt d i) i.succ = d := by decide
theorem dst_src : ∀ (c : Dev nD) (i : Fin 7), dstAt (srcAt c i.succ) i = c := by decide

theorem src_succ_surj : ∀ (c j : Dev nD), j ≠ c → ∃ h : Fin 7, srcAt c h.succ = j := by decide

def ringBack (c : Dev nD) (i : Fin 7) : Dev nD := ⟨(c.val + 7 - i.val) % 8, Nat.mod_lt _ (by decide)⟩
theorem ring_back : ∀ (c : Dev nD) (i : Fin 7), ringAt (ringBack c i) i = c := by decide
theorem back_ring : ∀ (d : Dev nD) (i : Fin 7), ringBack (ringAt d i) i = d := by decide

omit [FloatOps F] in

theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in

theorem bigSep_fin6 {M : Type} [URA M] (Φ : Fin 6 → sProp M) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

def outAt (c : Dev nD) : (cc0_stg1_0 : Ref sig .tc).ty.Contents (Elt F) := outOf (fun d => xin m d) (win m c) c

def wPts (c : Dev nD) : sProp 𝕄 := (((c : Thread nD τ).loc main_arg1) ↦{fullShare} win m c : sProp 𝕄)

def scratch3 (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def wsems (c : Dev nD) : sProp 𝕄 :=
  iprop((bigSep Finset.univ fun s : Fin 6 => semVal (((c : Thread nD τ), SemLoc.dma (wS s)) : GSem nD τ sig) 0) ∗ semVal (recvCell c c) 0)

def invs (K : GSem nD τ sig → ℕ) (c : Dev nD) : sProp 𝕄 :=
  iprop(cellInv ER (sched m) (K (barCell c)) (barCell c)
    ∗ (bigSep Finset.univ fun i : Fin 7 => cellInv ER (sched m) (K (sendCell c i)) (sendCell c i))
    ∗ (bigSep Finset.univ fun h : Fin 7 => cellInv ER (sched m) (K (recvCell c (srcAt c h.succ))) (recvCell c (srcAt c h.succ)))
    ∗ (bigSep Finset.univ fun i : Fin 7 => cellInv ER (sched m) (K (barCell (ringAt c i))) (barCell (ringAt c i)))
    ∗ (bigSep Finset.univ fun i : Fin 7 => cellInv ER (sched m) (K (recvCell (dstAt c i) c)) (recvCell (dstAt c i) c)))

instance invs_persistent (K : GSem nD τ sig → ℕ) (c : Dev nD) : BI.Persistent (invs m K c) := by unfold invs; infer_instance

def posns (c : Dev nD) : sProp 𝕄 :=
  iprop(atPos ER (barCell c) 0 ∅ 0
    ∗ (bigSep Finset.univ fun i : Fin 7 => atPos ER (sendCell c i) 0 ∅ 0)
    ∗ (bigSep Finset.univ fun h : Fin 7 => atPos ER (recvCell c (srcAt c h.succ)) 0 ∅ 0))

def marks (c : Dev nD) : sProp 𝕄 :=
  iprop(reached ER (barCell c) 0
    ∗ (bigSep Finset.univ fun i : Fin 7 => reached ER (sendCell c i) 0)
    ∗ (bigSep Finset.univ fun h : Fin 7 => reached ER (recvCell c (srcAt c h.succ)) 0)
    ∗ (bigSep Finset.univ fun i : Fin 7 => reached ER (barCell (ringAt c i)) 0)
    ∗ (bigSep Finset.univ fun i : Fin 7 => reached ER (recvCell (dstAt c i) c) 0))

instance marks_persistent (c : Dev nD) : BI.Persistent (marks (F := F) c) := by unfold marks; infer_instance

def payToks (c : Dev nD) : sProp 𝕄 :=
  iprop((bigSep Finset.univ fun i : Fin 7 => dutyTok ER (barCell (ringAt c i)) 0 c)
    ∗ (bigSep Finset.univ fun i : Fin 7 => dutyTok ER (recvCell (dstAt c i) c) 0 c)
    ∗ (bigSep Finset.univ fun i : Fin 7 => dutyTok ER (sendCell c i) 0 c))

def ghost (K : GSem nD τ sig → ℕ) (c : Dev nD) : sProp 𝕄 :=
  iprop(invs m K c ∗ posns c ∗ marks c ∗ payToks c)

def start (c : Dev nD) : sProp 𝕄 :=
  iprop((∃ K, ghost m K c) ∗ cred (tallyAt (barCell c) () 7)
    ∗ (bigSep Finset.univ fun h : Fin 7 => cred (tallyAt (recvCell c (srcAt c h.succ)) () N))
    ∗ levAts L lv ∗ wsems c ∗ wPts m c)

def Φ₀ (c : Dev nD) : sProp 𝕄 := iprop(start m c ∗ scratch3 c)

def ownZero (c : Dev nD) : sProp 𝕄 :=
  iprop((bigSep Finset.univ fun i : Fin 7 => semVal (sendCell c i) 0)
    ∗ (bigSep Finset.univ fun h : Fin 7 => semVal (recvCell c (srcAt c h.succ)) 0)
    ∗ wsems c)

def Φ₁ (c : Dev nD) : sProp 𝕄 := iprop(scratch3 c ∗ ownZero c ∗ wPts m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xin m c) ∗ stg c cc0_stg1_0 (outAt m c))

end Cert.Kernel.A2A

end
-- ==== Proof.A2AK.Offsets.lean ====
import proofs.«900488_g7700000000000489_dist_a2a_gemm_m4096_k4096_n8192_f32_none_v7x_i8_1_alg».proof.Proof.A2AK.Peers

namespace Cert.Kernel.A2A

open Cert.Kernel Cert.Kernel.Gen Idealize.ShloMosaic

def hLo (r : Fin 3) : Fin 8 := ⟨1 + r.val, by have := r.isLt; omega⟩
def hHi (r : Fin 4) : Fin 8 := ⟨4 + r.val, by have := r.isLt; omega⟩
def iLo (r : Fin 3) : Fin 7 := ⟨r.val, by have := r.isLt; omega⟩
def iHi (r : Fin 4) : Fin 7 := ⟨3 + r.val, by have := r.isLt; omega⟩

theorem off5_eq : ∀ (c : Dev nD) (r : Fin 3), k0_off5 c (BitVec.ofNat 32 (1 + r.val)) = ![512 * (srcAt c (hLo r)).val, 2048 * (0 : Fin 4).val] := by decide +kernel
theorem off10_eq : ∀ (c : Dev nD) (r : Fin 3), k0_off10 c (BitVec.ofNat 32 (1 + r.val)) = ![512 * (srcAt c (hLo r)).val, 2048 * (1 : Fin 4).val] := by decide +kernel
theorem off12_eq : ∀ (c : Dev nD) (r : Fin 3), k0_off12 c (BitVec.ofNat 32 (1 + r.val)) = ![512 * (srcAt c (hLo r)).val, 2048 * (2 : Fin 4).val] := by decide +kernel
theorem off13_eq : ∀ (c : Dev nD) (r : Fin 3), k0_off13 c (BitVec.ofNat 32 (1 + r.val)) = ![512 * (srcAt c (hLo r)).val, 2048 * (3 : Fin 4).val] := by decide +kernel
theorem off17_eq : ∀ (c : Dev nD) (r : Fin 4), k0_off17 c (BitVec.ofNat 32 r.val) = ![512 * (srcAt c (hHi r)).val, 2048 * (0 : Fin 4).val] := by decide +kernel
theorem off18_eq : ∀ (c : Dev nD) (r : Fin 4), k0_off18 c (BitVec.ofNat 32 r.val) = ![512 * (srcAt c (hHi r)).val, 2048 * (1 : Fin 4).val] := by decide +kernel
theorem off19_eq : ∀ (c : Dev nD) (r : Fin 4), k0_off19 c (BitVec.ofNat 32 r.val) = ![512 * (srcAt c (hHi r)).val, 2048 * (2 : Fin 4).val] := by decide +kernel
theorem off20_eq : ∀ (c : Dev nD) (r : Fin 4), k0_off20 c (BitVec.ofNat 32 r.val) = ![512 * (srcAt c (hHi r)).val, 2048 * (3 : Fin 4).val] := by decide +kernel

theorem off8_eq : ∀ (c : Dev nD) (r : Fin 3), k0_off8 c (BitVec.ofNat 32 (1 + r.val)) = ![512 * (dstAt c (iLo r)).val, 0] := by decide +kernel
theorem off9_eq : ∀ (c : Dev nD) (r : Fin 4), k0_off9 c (BitVec.ofNat 32 r.val) = ![512 * (dstAt c (iHi r)).val, 0] := by decide +kernel

theorem off15_eq : ∀ (c : Dev nD) (r : Fin 3), k0_off15 c (BitVec.ofNat 32 (1 + r.val)) = ![(srcAt c (hLo r)).val, 0, 0] := by decide +kernel
theorem off16_eq : ∀ (c : Dev nD) (r : Fin 3), k0_off16 c (BitVec.ofNat 32 (1 + r.val)) = ![(srcAt c (hLo r)).val, 0, 0] := by decide +kernel
theorem off22_eq : ∀ (c : Dev nD) (r : Fin 4), k0_off22 c (BitVec.ofNat 32 r.val) = ![(srcAt c (hHi r)).val, 0, 0] := by decide +kernel
theorem off23_eq : ∀ (c : Dev nD) (r : Fin 4), k0_off23 c (BitVec.ofNat 32 r.val) = ![(srcAt c (hHi r)).val, 0, 0] := by decide +kernel

end Cert.Kernel.A2A
-- ==== Proof.A2AK.Reads.lean ====
import proofs.«900488_g7700000000000489_dist_a2a_gemm_m4096_k4096_n8192_f32_none_v7x_i8_1_alg».proof.Proof.A2AK.Data
import proofs.«900488_g7700000000000489_dist_a2a_gemm_m4096_k4096_n8192_f32_none_v7x_i8_1_alg».proof.Proof.A2AK.Offsets
import proofs.«900488_g7700000000000489_dist_a2a_gemm_m4096_k4096_n8192_f32_none_v7x_i8_1_alg».proof.Proof.A2AK.Sched
import Idealize.ShloMosaic.Lib.Pipeline.Value
import Idealize.ShloMosaic.Lib.ValueIdx

noncomputable section

namespace Cert.Kernel.A2A

open Cert.Kernel Cert.Kernel.Gen Idealize.ShloMosaic Idealize.ShloMosaic.ValueIdx
open Idealize.ShloMosaic.TcCoe

variable {F : FTy → Type} [FloatOps F]

def chunkOf (f : Vec F S512x8192 .f32) (q : Fin 4) : Vec F S512x2048 .f32 := fun x =>
  f (ix2 (n0 := 512) (n1 := 8192) ⟨(x 0).val, (x 0).isLt⟩
    ⟨2048 * q.val + (x 1).val, by have := q.isLt; have h1 : (x 1).val < 2048 := (x 1).isLt; omega⟩)

theorem chunkOf_apply (G : (cc0_stg1_0 : Ref sig .tc).ty.Contents (Elt F)) (q : Fin 4) (x : S512x2048.Idx) :
    chunkOf G q x = oM.view.read (Elt F) G (ix2 (n0 := 512) (n1 := 8192) ⟨(x 0).val, (x 0).isLt⟩
      ⟨2048 * q.val + (x 1).val, by have := q.isLt; have h1 : (x 1).val < 2048 := (x 1).isLt; omega⟩) := rfl

theorem chunk_emb (off : Fin 2 → Nat) (inb : ∀ a, off a + S512x2048.size a ≤ S512x8192.size a) (q : Fin 4)
    (h0 : off 0 = 0) (h1 : off 1 = 2048 * q.val) (x : S512x2048.Idx) :
    (Rect.unit (s := S512x8192) off S512x2048.size inb).emb x
      = ix2 (n0 := 512) (n1 := 8192) ⟨(x 0).val, (x 0).isLt⟩
          ⟨2048 * q.val + (x 1).val, by have := q.isLt; have h1 : (x 1).val < 2048 := (x 1).isLt; omega⟩ :=
  Shape.idx_ext₂ (by show off 0 + 1 * (x 0).val = (x 0).val; omega) (by show off 1 + 1 * (x 1).val = 2048 * q.val + (x 1).val; omega)

theorem readAt_chunk (off : Fin 2 → Nat) (inb : ∀ a, off a + S512x2048.size a ≤ S512x8192.size a) (q : Fin 4)
    (h0 : off 0 = 0) (h1 : off 1 = 2048 * q.val) (f : (cc0_stg1_0 : Ref sig .tc).ty.Contents (Elt F)) :
    View.readAt (Elt F) oM.view (Rect.unit (s := S512x8192) off S512x2048.size inb).toLoadRect f = chunkOf f q := by
  funext x
  rw [chunkOf_apply, ← chunk_emb off inb q h0 h1 x]
  rfl

/-- After a store through window `q`, chunk `q` is what was stored. -/
theorem chunkOf_writes_same (off : Fin 2 → Nat) (inb : ∀ a, off a + S512x2048.size a ≤ S512x8192.size a) (q : Fin 4)
    (h : off = ![0, 2048 * q.val]) (f : (cc0_stg1_0 : Ref sig .tc).ty.Contents (Elt F))
    (p : Vec F S512x2048 .f32) (L : List (View.Piece (Elt F) S512x8192 .f32)) :
    chunkOf (oM.view.writes (Elt F) f (⟨Rect.unit (s := S512x8192) off S512x2048.size inb, p⟩ :: L)) q = p := by
  funext x
  rw [chunkOf_apply, ← chunk_emb off inb q (by rw [h]; rfl) (by rw [h]; rfl) x]
  exact View.read_writes_cons_emb oM.view f (Rect.unit (s := S512x8192) off S512x2048.size inb) p L x

/-- A store through another window (its first column another multiple of 2048) leaves chunk `q` as it was. -/
theorem chunkOf_writes_other (off : Fin 2 → Nat) (inb : ∀ a, off a + S512x2048.size a ≤ S512x8192.size a) (q : Fin 4)
    (h : off 1 % 2048 = 0 ∧ off 1 ≠ 2048 * q.val) (f : (cc0_stg1_0 : Ref sig .tc).ty.Contents (Elt F))
    (p : Vec F S512x2048 .f32) (L : List (View.Piece (Elt F) S512x8192 .f32)) :
    chunkOf (oM.view.writes (Elt F) f (⟨Rect.unit (s := S512x8192) off S512x2048.size inb, p⟩ :: L)) q
      = chunkOf (oM.view.writes (Elt F) f L) q := by
  funext x
  have hx : (x 1).val < 2048 := (x 1).isLt
  have hq4 := q.isLt
  rw [chunkOf_apply, chunkOf_apply, View.writes_cons]
  refine View.read_slice_write_of_not_mem (v := oM.view) (Rect.unit (s := S512x8192) off S512x2048.size inb)
    (oM.view.writes (Elt F) f L) p Finset.univ ?_
  rw [Rect.map_emb_univ, Rect.mem_set_unit]
  intro h'
  have e1 : off 1 ≤ 2048 * q.val + (x 1).val ∧ 2048 * q.val + (x 1).val < off 1 + 2048 := h' 1
  omega

theorem chunks_ext {f g : Vec F S512x8192 .f32} (h : ∀ q, chunkOf f q = chunkOf g q) : f = g := by
  funext i
  have h1 : (i 1).val < 8192 := (i 1).isLt
  have e := congrFun (h ⟨(i 1).val / 2048, by omega⟩)
    (ix2 (n0 := 512) (n1 := 2048) ⟨(i 0).val, (i 0).isLt⟩ ⟨(i 1).val % 2048, Nat.mod_lt _ (by decide)⟩)
  have ei : ix2 (n0 := 512) (n1 := 8192) ⟨(i 0).val, (i 0).isLt⟩
      ⟨2048 * ((i 1).val / 2048) + (i 1).val % 2048, by omega⟩ = i :=
    Shape.idx_ext₂ rfl (by show 2048 * ((i 1).val / 2048) + (i 1).val % 2048 = (i 1).val; omega)
  have e' : f (ix2 (n0 := 512) (n1 := 8192) ⟨(i 0).val, (i 0).isLt⟩ ⟨2048 * ((i 1).val / 2048) + (i 1).val % 2048, by omega⟩)
      = g (ix2 (n0 := 512) (n1 := 8192) ⟨(i 0).val, (i 0).isLt⟩ ⟨2048 * ((i 1).val / 2048) + (i 1).val % 2048, by omega⟩) := e
  rw [ei] at e'
  exact e'

theorem chunkOf_outOf (X : Dev nD → Vec F S4096x512 .f32) (W : Vec F S4096x8192 .f32) (c : Dev nD) (q : Fin 4) :
    chunkOf (outOf X W c) q = chunkAt X W c q 7 := by
  funext x
  have hx1 : (x 1).val < 2048 := (x 1).isLt
  have hq := q.isLt
  have e1 : (⟨(2048 * q.val + (x 1).val) / 2048, by omega⟩ : Fin 4) = q :=
    Fin.ext (by show (2048 * q.val + (x 1).val) / 2048 = q.val; omega)
  have e2 : ix2 (n0 := 512) (n1 := 2048) ⟨(x 0).val, (x 0).isLt⟩ ⟨(2048 * q.val + (x 1).val) % 2048, Nat.mod_lt _ (by decide)⟩ = x :=
    Shape.idx_ext₂ rfl (by show (2048 * q.val + (x 1).val) % 2048 = (x 1).val; omega)
  show chunkAt X W c ⟨(2048 * q.val + (x 1).val) / 2048, by omega⟩ 7
      (ix2 (n0 := 512) (n1 := 2048) ⟨(x 0).val, (x 0).isLt⟩ ⟨(2048 * q.val + (x 1).val) % 2048, Nat.mod_lt _ (by decide)⟩) = _
  rw [e1, e2]

theorem eq_outOf_of_chunks (X : Dev nD → Vec F S4096x512 .f32) (W : Vec F S4096x8192 .f32) (c : Dev nD)
    (G : Vec F S512x8192 .f32) (h : ∀ q, chunkOf G q = chunkAt X W c q 7) : G = outOf X W c :=
  chunks_ext fun q => (h q).trans (chunkOf_outOf X W c q).symm

theorem readAt_chunk0 (inb : ∀ a, (![0, 0] : Fin 2 → Nat) a + S512x2048.size a ≤ S512x8192.size a)
    (f : (cc0_stg1_0 : Ref sig .tc).ty.Contents (Elt F)) :
    View.readAt (Elt F) oM.view (Rect.unit (s := S512x8192) ![0, 0] S512x2048.size inb).toLoadRect f = chunkOf f 0 :=
  readAt_chunk ![0, 0] inb 0 rfl rfl f
theorem readAt_chunk1 (inb : ∀ a, (![0, 2048] : Fin 2 → Nat) a + S512x2048.size a ≤ S512x8192.size a)
    (f : (cc0_stg1_0 : Ref sig .tc).ty.Contents (Elt F)) :
    View.readAt (Elt F) oM.view (Rect.unit (s := S512x8192) ![0, 2048] S512x2048.size inb).toLoadRect f = chunkOf f 1 :=
  readAt_chunk ![0, 2048] inb 1 rfl rfl f
theorem readAt_chunk2 (inb : ∀ a, (![0, 4096] : Fin 2 → Nat) a + S512x2048.size a ≤ S512x8192.size a)
    (f : (cc0_stg1_0 : Ref sig .tc).ty.Contents (Elt F)) :
    View.readAt (Elt F) oM.view (Rect.unit (s := S512x8192) ![0, 4096] S512x2048.size inb).toLoadRect f = chunkOf f 2 :=
  readAt_chunk ![0, 4096] inb 2 rfl rfl f
theorem readAt_chunk3 (inb : ∀ a, (![0, 6144] : Fin 2 → Nat) a + S512x2048.size a ≤ S512x8192.size a)
    (f : (cc0_stg1_0 : Ref sig .tc).ty.Contents (Elt F)) :
    View.readAt (Elt F) oM.view (Rect.unit (s := S512x8192) ![0, 6144] S512x2048.size inb).toLoadRect f = chunkOf f 3 :=
  readAt_chunk ![0, 6144] inb 3 rfl rfl f
end Cert.Kernel.A2A

end
-- ==== Proof.A2AK.BodyCtx.lean ====
import proofs.«900488_g7700000000000489_dist_a2a_gemm_m4096_k4096_n8192_f32_none_v7x_i8_1_alg».proof.Proof.A2AK.State
import proofs.«900488_g7700000000000489_dist_a2a_gemm_m4096_k4096_n8192_f32_none_v7x_i8_1_alg».proof.Proof.A2AK.Reads

set_option maxRecDepth 16384

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev aM : Memref sig .tc .hbm S4096x8192 .f32 := Memref.whole main_arg1

theorem succ_round0 : (0 : Fin 7).succ = (1 : Fin 8) := rfl
theorem succ_round1 : (1 : Fin 7).succ = (2 : Fin 8) := rfl
theorem succ_round2 : (2 : Fin 7).succ = (3 : Fin 8) := rfl
theorem succ_round3 : (3 : Fin 7).succ = (4 : Fin 8) := rfl
theorem succ_round4 : (4 : Fin 7).succ = (5 : Fin 8) := rfl
theorem succ_round5 : (5 : Fin 7).succ = (6 : Fin 8) := rfl
theorem succ_round6 : (6 : Fin 7).succ = (7 : Fin 8) := rfl
theorem wS_0 : wS 0 = 17 := rfl
theorem wS_1 : wS 1 = 18 := rfl
theorem wS_2 : wS 2 = 19 := rfl
theorem wS_3 : wS 3 = 20 := rfl
theorem wS_4 : wS 4 = 21 := rfl
theorem wS_5 : wS 5 = 22 := rfl

/-- The i-th read share of device `c`'s weights. -/
abbrev wTok (c : Dev nD) (i : ℕ) : sProp 𝕄 :=
  ((aM : Memref sig .tc .hbm S4096x8192 .f32).view.loc (c : Thread nD τ) ↦{Transfers.shareTokN fullShare i} win m c)

/-- The six read shares that go with the weight-slot semaphores. -/
def wShares (c : Dev nD) : sProp 𝕄 :=
  iprop(wTok m c 17 ∗ wTok m c 18 ∗ wTok m c 19 ∗ wTok m c 20 ∗ wTok m c 21 ∗ wTok m c 22)

/-- Slot `j` of device `c`'s landing buffer at contents `f`, by its own elements. -/
abbrev slotAt (c j : Dev nD) (f : (cc0_scratch1 : Ref sig .tc).ty.Contents (Elt F)) : sProp 𝕄 :=
  ((slotM j).view.loc (c : Thread nD τ) ↦[(slotM j).view.set]{fullShare} f)

/-- What the body runs from: its cells' ghost state, its credit and debt, its counters, and the buffers (the weights as six read shares, the landing buffer slot by slot). -/
def Ctx0 (K : GSem nD τ sig → ℕ) (c : Dev nD)
    (fo : (cc0_stg1_0 : Ref sig .tc).ty.Contents (Elt F)) (f16 : (cc0_scratch0 : Ref sig .tc).ty.Contents (Elt F))
    (fl : (cc0_scratch1 : Ref sig .tc).ty.Contents (Elt F)) (fw : (cc0_scratch2 : Ref sig .tc).ty.Contents (Elt F))
    (W : Waits sig Unit) : sProp 𝕄 :=
  iprop(invs m K c ∗ marks c
    ∗ (bigSep Finset.univ fun i : Fin 7 => reached ER (recvCell c (ringAt c i)) 0)
    ∗ posns c ∗ payToks c
    ∗ cred (tallyAt (barCell c) () 7)
    ∗ (bigSep Finset.univ fun h : Fin 7 => cred (tallyAt (recvCell c (srcAt c h.succ)) () N))
    ∗ levAts L lv
    ∗ owes (c : Thread nD τ) (O₀ c) W
    ∗ wsems c
    ∗ ((xM : Memref sig .tc .vmem S4096x512 .f32).view.loc (c : Thread nD τ) ↦{fullShare} xin m c)
    ∗ ((oM : Memref sig .tc .vmem S512x8192 .f32).view.loc (c : Thread nD τ) ↦{fullShare} fo)
    ∗ wShares m c
    ∗ ((nM : Memref sig .tc .vmem S4096x512 .bf16).view.loc (c : Thread nD τ) ↦{fullShare} f16)
    ∗ ((wM : Memref sig .tc .vmem S6x512x2048 .f32).view.loc (c : Thread nD τ) ↦{fullShare} fw)
    ∗ (bigSep Finset.univ fun i : Fin 7 => slotAt c (ringAt c i) fl)
    ∗ slotAt c c fl)

/-- What the run ends with: each send and receive cell a round on, nothing owed, counters and buffers back, every other device's rows landed, the result's four chunks at the eight rounds' sums. -/
def Ctx1 (K : GSem nD τ sig → ℕ) (c : Dev nD) (W' : Waits sig Unit) : sProp 𝕄 :=
  iprop(((bigSep Finset.univ fun i : Fin 7 => iprop(cellInv ER (sched m) (K (sendCell c i)) (sendCell c i) ∗ atPos ER (sendCell c i) 1 ∅ 0))
    ∗ (bigSep Finset.univ fun h : Fin 7 => iprop(cellInv ER (sched m) (K (recvCell c (srcAt c h.succ))) (recvCell c (srcAt c h.succ))
        ∗ atPos ER (recvCell c (srcAt c h.succ)) 1 ∅ 0))
    ∗ owes (c : Thread nD τ) 0 W'
    ∗ wsems c
    ∗ ((xM : Memref sig .tc .vmem S4096x512 .f32).view.loc (c : Thread nD τ) ↦{fullShare} xin m c)
    ∗ wShares m c
    ∗ (∃ f, (nM : Memref sig .tc .vmem S4096x512 .bf16).view.loc (c : Thread nD τ) ↦{fullShare} f)
    ∗ (∃ f, (wM : Memref sig .tc .vmem S6x512x2048 .f32).view.loc (c : Thread nD τ) ↦{fullShare} f)
    ∗ (bigSep Finset.univ fun h : Fin 7 => slotAt c (srcAt c h.succ) (landedAll m c))
    ∗ (∃ f, slotAt c c f))
    ∗ (∃ fo1, ((oM : Memref sig .tc .vmem S512x8192 .f32).view.loc (c : Thread nD τ) ↦{fullShare} fo1)
      ∗ ⌜chunkOf fo1 0 = chunkAt (fun d => xin m d) (win m c) c 0 7 ∧ chunkOf fo1 1 = chunkAt (fun d => xin m d) (win m c) c 1 7
        ∧ chunkOf fo1 2 = chunkAt (fun d => xin m d) (win m c) c 2 7 ∧ chunkOf fo1 3 = chunkAt (fun d => xin m d) (win m c) c 3 7⌝))

end Cert.Kernel.A2A

end
-- ==== Proof.A2AK.Landing.lean ====
import proofs.«900488_g7700000000000489_dist_a2a_gemm_m4096_k4096_n8192_f32_none_v7x_i8_1_alg».proof.Proof.A2AK.Data
import proofs.«900488_g7700000000000489_dist_a2a_gemm_m4096_k4096_n8192_f32_none_v7x_i8_1_alg».proof.Proof.A2AK.Offsets
import proofs.«900488_g7700000000000489_dist_a2a_gemm_m4096_k4096_n8192_f32_none_v7x_i8_1_alg».proof.Proof.A2AK.Sched
import Idealize.ShloMosaic.Lib.Pipeline.Value
import Idealize.ShloMosaic.Lib.ValueIdx

noncomputable section

namespace Cert.Kernel.A2A

open Cert.Kernel Cert.Kernel.Gen Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem slot_emb (j : Dev nD) (x : S512x512.Idx) :
    (slotM j).view.emb x
      = ix3 (n0 := 8) (n1 := 512) (n2 := 512) ⟨j.val, j.isLt⟩ ⟨(x 0).val, (x 0).isLt⟩ ⟨(x 1).val, (x 1).isLt⟩ := by
  have hr := Shape.reshapeEquiv_cons_one (n := 2) (d := ![512, 512]) squeezes_S1x512x512_S512x512.numel_eq x
  have v0 : ((Shape.reshapeEquiv squeezes_S1x512x512_S512x512.numel_eq x : S1x512x512.Idx) 0).val = 0 := by rw [hr]; rfl
  have v1 : ((Shape.reshapeEquiv squeezes_S1x512x512_S512x512.numel_eq x : S1x512x512.Idx) 1).val = (x 0).val := by rw [hr]; rfl
  have v2 : ((Shape.reshapeEquiv squeezes_S1x512x512_S512x512.numel_eq x : S1x512x512.Idx) 2).val = (x 1).val := by rw [hr]; rfl
  have o0 : k0_off7 j 0 = j.val := by rw [k0_off7_eq]; rfl
  have o1 : k0_off7 j 1 = 0 := by rw [k0_off7_eq]; rfl
  have o2 : k0_off7 j 2 = 0 := by rw [k0_off7_eq]; rfl
  funext a
  refine Fin.ext ?_
  match a with
  | ⟨0, _⟩ =>
    show k0_off7 j 0 + 1 * ((Shape.reshapeEquiv squeezes_S1x512x512_S512x512.numel_eq x : S1x512x512.Idx) 0).val = j.val
    omega
  | ⟨1, _⟩ =>
    show k0_off7 j 1 + 1 * ((Shape.reshapeEquiv squeezes_S1x512x512_S512x512.numel_eq x : S1x512x512.Idx) 1).val = (x 0).val
    omega
  | ⟨2, _⟩ =>
    show k0_off7 j 2 + 1 * ((Shape.reshapeEquiv squeezes_S1x512x512_S512x512.numel_eq x : S1x512x512.Idx) 2).val = (x 1).val
    omega

theorem slot_write_emb (j d : Dev nD) (off : Fin 2 → Nat) (inb : ∀ a, off a + S512x512.size a ≤ S4096x512.size a)
    (h0 : off 0 = 512 * d.val) (h1 : off 1 = 0)
    (fd : (cc0_scratch1 : Ref sig .tc).ty.Contents (Elt F)) (fs : (cc0_scratch0 : Ref sig .tc).ty.Contents (Elt F)) (x : S512x512.Idx) :
    (slotM j).view.write (Elt F) fd
        ((nM.slice (Rect.unit (s := S4096x512) off S512x512.size inb) (fun _ => rfl)).view.read (Elt F) fs) Finset.univ
        ((slotM j).view.emb x)
      = fs (ix2 (n0 := 4096) (n1 := 512)
          ⟨512 * d.val + (x 0).val, by have hd : d.val < 8 := d.isLt; have hx : (x 0).val < 512 := (x 0).isLt; omega⟩
          ⟨(x 1).val, (x 1).isLt⟩) := by
  rw [View.write_emb_of_mem _ _ (Finset.mem_univ x)]
  show fs ((Rect.unit (s := S4096x512) off S512x512.size inb).emb x) = _
  refine congrArg fs (Shape.idx_ext₂ ?_ ?_)
  · show off 0 + 1 * (x 0).val = 512 * d.val + (x 0).val
    omega
  · show off 1 + 1 * (x 1).val = (x 1).val
    omega

theorem srcOff_eq (c : Dev nD) (i : Fin 7) : srcOff c i = ![512 * (dstAt c i).val, 0] := by
  unfold srcOff
  by_cases h : i.val < 3
  · rw [if_pos h]
    have e : iLo ⟨i.val, h⟩ = i := Fin.ext rfl
    have := off8_eq c ⟨i.val, h⟩
    rw [e] at this
    exact this
  · rw [if_neg h]
    have hi := i.isLt
    have e : iHi ⟨i.val - 3, by omega⟩ = i := Fin.ext (by show 3 + (i.val - 3) = i.val; omega)
    have := off9_eq c ⟨i.val - 3, by omega⟩
    rw [e] at this
    exact this

/-- On slot `j` of device `dstAt j i`, what `j`'s i-th transfer leaves is that device's landed buffer. -/
theorem slot_landedAll (m : (ℓ : Loc nD τ sig) → Buf (Elt F) ℓ) (j : Dev nD) (i : Fin 7)
    (fd : (cc0_scratch1 : Ref sig .tc).ty.Contents (Elt F)) :
    ∀ k ∈ (slotM j).view.set,
      (slotM j).view.write (Elt F) fd ((srcSliceM j i).view.read (Elt F) (x16 m j)) Finset.univ k
        = landedAll m (dstAt j i) k := by
  intro k hk
  obtain ⟨x, -, rfl⟩ := Finset.mem_map.mp hk
  refine (slot_write_emb j (dstAt j i) (srcOff j i) (srcOff_inb j i) (by rw [srcOff_eq]; rfl) (by rw [srcOff_eq]; rfl) fd (x16 m j) x).trans ?_
  rw [slot_emb j x]
  rfl

/-- A load of slot `j` from device `c`'s landed buffer reads rows 512 c .. of device `j`'s narrowed activations. -/
theorem readAt_landedAll (m : (ℓ : Loc nD τ sig) → Buf (Elt F) ℓ) (c j : Dev nD)
    (off : Fin 3 → Nat) (inb : ∀ a, off a + S1x512x512.size a ≤ S8x512x512.size a) (h : off = ![j.val, 0, 0]) :
    View.readAt (Elt F) lM.view (Rect.unit (s := S8x512x512) off S1x512x512.size inb).toLoadRect (landedAll m c)
      = rowsB (x16 m j) c := by
  subst h
  funext y
  have hy0 : (y 0).val < 1 := (y 0).isLt
  have ej : (⟨j.val + 1 * (y 0).val, by have hj : j.val < 8 := j.isLt; show j.val + 1 * (y 0).val < 8; omega⟩ : Dev nD) = j :=
    Fin.ext (by show j.val + 1 * (y 0).val = j.val; omega)
  have ey : ix3 (n0 := 1) (n1 := 512) (n2 := 512) ⟨0, by decide⟩
      ⟨0 + 1 * (y 1).val, by have : (y 1).val < 512 := (y 1).isLt; omega⟩
      ⟨0 + 1 * (y 2).val, by have : (y 2).val < 512 := (y 2).isLt; omega⟩ = y := by
    funext a
    refine Fin.ext ?_
    match a with
    | ⟨0, _⟩ => show 0 = (y 0).val; omega
    | ⟨1, _⟩ => show 0 + 1 * (y 1).val = (y 1).val; omega
    | ⟨2, _⟩ => show 0 + 1 * (y 2).val = (y 2).val; omega
  show rowsB (x16 m ⟨j.val + 1 * (y 0).val, _⟩) c
      (ix3 (n0 := 1) (n1 := 512) (n2 := 512) ⟨0, by decide⟩ ⟨0 + 1 * (y 1).val, _⟩ ⟨0 + 1 * (y 2).val, _⟩) = _
  rw [ej, ey]

/-- info: 'Cert.Kernel.A2A.readAt_landedAll' depends on axioms: [propext, Classical.choice, Quot.sound] -/
#guard_msgs in #print axioms readAt_landedAll

end Cert.Kernel.A2A

end
-- ==== Proof.A2AK.Shares.lean ====
import proofs.«900488_g7700000000000489_dist_a2a_gemm_m4096_k4096_n8192_f32_none_v7x_i8_1_alg».proof.Proof.A2AK.BodyCtx
import proofs.«900488_g7700000000000489_dist_a2a_gemm_m4096_k4096_n8192_f32_none_v7x_i8_1_alg».proof.Proof.A2AK.Landing
import Idealize.ShloMosaic.Lib.Ring
import Idealize.ShloMosaic.Lib.Tactic

set_option maxRecDepth 16384

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

def Rest (c : Dev nD) : sProp 𝕄 :=
  iprop(((aM : Memref sig .tc .hbm S4096x8192 .f32).view.loc (c : Thread nD τ) ↦{Transfers.shareDrop fullShare 23} win m c)
    ∗ bigSep (Finset.range 17) (fun i => wTok m c i))

omit [FloatOps F] in
/-- The weights held whole are the six shares of the weight-slot semaphores and what is set aside. -/
theorem weights_shares (c : Dev nD) : wPts m c ⊣⊢ iprop(wShares m c ∗ Rest m c) := by
  have hb : bigSep (Finset.range 23) (fun i => wTok m c i)
      = iprop(wTok m c 22 ∗ wTok m c 21 ∗ wTok m c 20 ∗ wTok m c 19 ∗ wTok m c 18 ∗ wTok m c 17 ∗ bigSep (Finset.range 17) (fun i => wTok m c i)) := by
    iterate 6 rw [Finset.range_add_one, bigSep_insert Finset.notMem_range_self]
    rfl
  have h : (((aM : Memref sig .tc .hbm S4096x8192 .f32).view.loc (c : Thread nD τ) ↦{fullShare} win m c) : sProp 𝕄)
      ⊣⊢ iprop(((aM : Memref sig .tc .hbm S4096x8192 .f32).view.loc (c : Thread nD τ) ↦{Transfers.shareDrop fullShare 23} win m c)
        ∗ bigSep (Finset.range 23) (fun i => wTok m c i)) :=
    Transfers.pointsTo_toks_range fullShare 23
  rw [hb] at h
  unfold wPts Rest wShares
  constructor
  · refine h.1.trans ?_
    iintro ⟨Hd, H22, H21, H20, H19, H18, H17, Hr⟩
    sl_close
  · refine BIBase.Entails.trans ?_ h.2
    iintro ⟨⟨H17, H18, H19, H20, H21, H22⟩, Hd, Hr⟩
    sl_close

def slotSet (j : Dev nD) : Finset (cc0_scratch1 : Ref sig .tc).ty.Idx := (slotM j).view.set

theorem slotSet_eq (j : Dev nD) :
    slotSet j = (Rect.unit (s := S8x512x512) (k0_off7 j) S1x512x512.size (k0_off7_inb j)).set := by
  unfold slotSet
  show ((lM.view.slice (Rect.unit (s := S8x512x512) (k0_off7 j) S1x512x512.size (k0_off7_inb j))).reshape S512x512 squeezes_S1x512x512_S512x512.numel_eq).set = _
  rw [View.set_reshape]
  exact View.set_slice_whole cc0_scratch1 _

theorem slot_disjoint (j j' : Dev nD) (h : j ≠ j') : Disjoint (slotSet j) (slotSet j') := by
  rw [slotSet_eq, slotSet_eq]
  refine Rect.unit_disjoint (s := S8x512x512) (off := k0_off7 j) (size := S1x512x512.size) (off' := k0_off7 j') (size' := S1x512x512.size)
    (inb := k0_off7_inb j) (inb' := k0_off7_inb j') 0 ?_
  rw [k0_off7_eq, k0_off7_eq]
  have hne : j.val ≠ j'.val := fun e => h (Fin.ext e)
  show j.val + 1 ≤ j'.val ∨ j'.val + 1 ≤ j.val
  omega

theorem slot_cover : (Finset.univ.biUnion slotSet) = Finset.univ := by
  refine Finset.eq_univ_iff_forall.mpr fun i => Finset.mem_biUnion.mpr ⟨⟨(i 0).val, (i 0).isLt⟩, Finset.mem_univ _, ?_⟩
  rw [slotSet_eq, Rect.mem_set_unit, k0_off7_eq]
  intro a
  fin_cases a
  · exact ⟨Nat.le_refl _, Nat.lt_succ_self _⟩
  · exact ⟨Nat.zero_le _, by show (i 1).val < 0 + 512; have h1 : (i 1).val < 512 := (i 1).isLt; omega⟩
  · exact ⟨Nat.zero_le _, by show (i 2).val < 0 + 512; have h2 : (i 2).val < 512 := (i 2).isLt; omega⟩

theorem others_ring : ∀ c : Dev nD, Finset.univ.erase c = Finset.univ.map ⟨ringAt c, fun i j h => ringAt_inj c i j h⟩ := by decide
theorem others_src : ∀ c : Dev nD, Finset.univ.erase c = Finset.univ.map ⟨fun h : Fin 7 => srcAt c h.succ, fun i j h => src_succ_inj c i j h⟩ := by decide

omit [FloatOps F] in
/-- A family over all eight devices: device `c`'s member and its seven ring successors', -/
theorem bigSep_dev_ring (c : Dev nD) (Φ : Dev nD → sProp 𝕄) :
    bigSep Finset.univ Φ = iprop(Φ c ∗ bigSep Finset.univ fun i : Fin 7 => Φ (ringAt c i)) := by
  rw [BI.bigSep_erase (Finset.mem_univ c), others_ring c, bigSep_map]; rfl

omit [FloatOps F] in
/-- or those of the devices of rounds 1..7. -/
theorem bigSep_dev_src (c : Dev nD) (Φ : Dev nD → sProp 𝕄) :
    bigSep Finset.univ Φ = iprop(Φ c ∗ bigSep Finset.univ fun h : Fin 7 => Φ (srcAt c h.succ)) := by
  rw [BI.bigSep_erase (Finset.mem_univ c), others_src c, bigSep_map]; rfl

omit [FloatOps F] in

theorem land_split (c : Dev nD) (fl : (cc0_scratch1 : Ref sig .tc).ty.Contents (Elt F)) :
    ((((c : Thread nD τ).loc cc0_scratch1) ↦{fullShare} fl) : sProp 𝕄)
      = bigSep Finset.univ fun j : Dev nD => ((((c : Thread nD τ).loc cc0_scratch1) ↦[slotSet j]{fullShare} fl) : sProp 𝕄) :=
  Ring.pointsTo_blocks (ℓ := (c : Thread nD τ).loc cc0_scratch1) slotSet slot_disjoint slot_cover fl

omit [FloatOps F] in
/-- The landing buffer held whole: the device's own slot and its seven ring successors'. -/
theorem land_split_ring (c : Dev nD) (fl : (cc0_scratch1 : Ref sig .tc).ty.Contents (Elt F)) :
    ((((c : Thread nD τ).loc cc0_scratch1) ↦{fullShare} fl) : sProp 𝕄)
      = iprop(slotAt c c fl ∗ bigSep Finset.univ fun i : Fin 7 => slotAt c (ringAt c i) fl) :=
  (land_split c fl).trans (bigSep_dev_ring c _)

/-- The rows of the narrowed activations that go to device `d` (for `d = c`, the rows that stay): rows 512 d .. 512 d + 511. -/
def rowSet (d : Dev nD) : Finset (cc0_scratch0 : Ref sig .tc).ty.Idx := Finset.univ.filter fun i => (i 0).val / 512 = d.val

theorem rowSet_disjoint (d d' : Dev nD) (h : d ≠ d') : Disjoint (rowSet d) (rowSet d') :=
  Finset.disjoint_filter.mpr fun i _ e e' => h (Fin.ext (e.symm.trans e'))

theorem rowSet_cover : (Finset.univ.biUnion rowSet) = Finset.univ :=
  Finset.eq_univ_iff_forall.mpr fun i => Finset.mem_biUnion.mpr
    ⟨⟨(i 0).val / 512, by have h0 : (i 0).val < 4096 := (i 0).isLt; show (i 0).val / 512 < 8; omega⟩, Finset.mem_univ _, Finset.mem_filter.mpr ⟨Finset.mem_univ _, rfl⟩⟩

/-- The i-th transfer sends exactly the rows kept for its destination. -/
theorem srcSet_rows (c : Dev nD) (i : Fin 7) : (srcSliceM c i).view.set = rowSet (dstAt c i) := by
  rw [show (srcSliceM c i).view.set = (Rect.unit (s := S4096x512) (srcOff c i) S512x512.size (srcOff_inb c i)).set
    from View.set_slice_whole cc0_scratch0 _]
  ext x
  have hx1 : (x 1).val < 512 := (x 1).isLt
  rw [Rect.mem_set_unit, srcOff_eq]
  unfold rowSet
  rw [Finset.mem_filter]
  constructor
  · intro h
    have e : 512 * (dstAt c i).val ≤ (x 0).val ∧ (x 0).val < 512 * (dstAt c i).val + 512 := h 0
    exact ⟨Finset.mem_univ _, by omega⟩
  · rintro ⟨-, e⟩ a
    fin_cases a
    · show 512 * (dstAt c i).val ≤ (x 0).val ∧ (x 0).val < 512 * (dstAt c i).val + 512
      omega
    · show 0 ≤ (x 1).val ∧ (x 1).val < 0 + 512
      omega

omit [FloatOps F] in
/-- A family over all eight devices: device `c`'s member and its seven destinations'. -/
theorem bigSep_dev_dst (c : Dev nD) (Φ : Dev nD → sProp 𝕄) :
    bigSep Finset.univ Φ = iprop(Φ c ∗ Φ (dstAt c 0) ∗ Φ (dstAt c 1) ∗ Φ (dstAt c 2) ∗ Φ (dstAt c 3) ∗ Φ (dstAt c 4) ∗ Φ (dstAt c 5) ∗ Φ (dstAt c 6)) := by
  rw [BI.bigSep_erase (Finset.mem_univ c), erase_eq_image_dst, bigSep_image_of_injOn (fun i _ j _ h => dstAt_inj c i j h), bigSep_fin7]
  rfl

omit [FloatOps F] in
theorem rows_pts (c : Dev nD) (i : Fin 7) (X : (cc0_scratch0 : Ref sig .tc).ty.Contents (Elt F)) :
    ((((c : Thread nD τ).loc cc0_scratch0) ↦[rowSet (dstAt c i)]{fullShare} X) : sProp 𝕄)
      = ((srcSliceM c i).view.loc (c : Thread nD τ) ↦[(srcSliceM c i).view.set]{fullShare} X) :=
  congrArg (fun S => ((((c : Thread nD τ).loc cc0_scratch0) ↦[S]{fullShare} X) : sProp 𝕄)) (srcSet_rows c i).symm

omit [FloatOps F] in
/-- The narrowed activations held whole are the rows that stay and the seven row blocks that are sent. -/
theorem nM_split (c : Dev nD) (X : (cc0_scratch0 : Ref sig .tc).ty.Contents (Elt F)) :
    ((nM : Memref sig .tc .vmem S4096x512 .bf16).view.loc (c : Thread nD τ) ↦{fullShare} X : sProp 𝕄)
      = iprop(((nM : Memref sig .tc .vmem S4096x512 .bf16).view.loc (c : Thread nD τ) ↦[rowSet c]{fullShare} X)
        ∗ ((srcSliceM c 0).view.loc (c : Thread nD τ) ↦[(srcSliceM c 0).view.set]{fullShare} X)
        ∗ ((srcSliceM c 1).view.loc (c : Thread nD τ) ↦[(srcSliceM c 1).view.set]{fullShare} X)
        ∗ ((srcSliceM c 2).view.loc (c : Thread nD τ) ↦[(srcSliceM c 2).view.set]{fullShare} X)
        ∗ ((srcSliceM c 3).view.loc (c : Thread nD τ) ↦[(srcSliceM c 3).view.set]{fullShare} X)
        ∗ ((srcSliceM c 4).view.loc (c : Thread nD τ) ↦[(srcSliceM c 4).view.set]{fullShare} X)
        ∗ ((srcSliceM c 5).view.loc (c : Thread nD τ) ↦[(srcSliceM c 5).view.set]{fullShare} X)
        ∗ ((srcSliceM c 6).view.loc (c : Thread nD τ) ↦[(srcSliceM c 6).view.set]{fullShare} X)) := by
  rw [← rows_pts c 0 X, ← rows_pts c 1 X, ← rows_pts c 2 X, ← rows_pts c 3 X, ← rows_pts c 4 X, ← rows_pts c 5 X, ← rows_pts c 6 X]
  exact (Ring.pointsTo_blocks (ℓ := (c : Thread nD τ).loc cc0_scratch0) rowSet rowSet_disjoint rowSet_cover X).trans
    (bigSep_dev_dst c _)

/-- info: 'Cert.Kernel.A2A.land_split' depends on axioms: [propext, Classical.choice, Quot.sound] -/
#guard_msgs in #print axioms land_split
/-- info: 'Cert.Kernel.A2A.bigSep_dev_src' depends on axioms: [propext, Classical.choice, Quot.sound] -/
#guard_msgs in #print axioms bigSep_dev_src
/-- info: 'Cert.Kernel.A2A.weights_shares' depends on axioms: [propext, Classical.choice, Quot.sound] -/
#guard_msgs in #print axioms weights_shares

end Cert.Kernel.A2A

end
-- ==== Proof.A2AK.Rules.lean ====
import proofs.«900488_g7700000000000489_dist_a2a_gemm_m4096_k4096_n8192_f32_none_v7x_i8_1_alg».proof.Proof.A2AK.State

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wp_send_at (K : GSem nD τ sig → ℕ) (c : Dev nD) (i : Fin 7) (n : Dev nD) (hn : n = dstAt c i)
    (O : CellTallies nD τ sig Unit) (W : Waits sig Unit)
    (fn : Buf (Elt F) ((slotM c).view.loc (dstAt c i : Thread nD τ)))
    (hland : ∀ x ∈ (slotM c).view.set,
      (slotM c).view.write (Elt F) fn ((srcSliceM c i).view.read (Elt F) (x16 m c)) Finset.univ x = landedAll m (dstAt c i) x)
    {hsc : (slotM c : Memref sig (Dev.tc n : Thread nD τ).2.kind .vmem S512x512 .bf16).view.ref.isScScratch = false}
    {hsrc : (srcSliceM c i).view.WordExact} {hdst : (slotM c).view.WordExact}
    {hsem : DmaTarget.Typed .vmem (.dma (recvS c)) (.remote (Dev.tc n : Thread nD τ) (slotM c) (.dma (sendS i)) hsc)}
    {α : Type} {Q : α → sProp 𝕄} {k : PUnit → Prog (TpuEff nD τ sig (Elt F) Λ₀ .tc) α} :
    iprop(cellInv ER (sched m) (K (sendCell c i)) (sendCell c i)
        ∗ cellInv ER (sched m) (K (recvCell (dstAt c i) c)) (recvCell (dstAt c i) c)
        ∗ srcPts m c i ∗ slotPts (dstAt c i) c fn
        ∗ owes (c : Thread nD τ) (O + tallyAt (recvCell (dstAt c i) c) () N) W
        ∗ dutyTok ER (sendCell c i) 0 c ∗ reached ER (sendCell c i) 0
        ∗ dutyTok ER (recvCell (dstAt c i) c) 0 c ∗ reached ER (recvCell (dstAt c i) c) 0)
      ⊢ iprop(((cred (tallyAt (sendCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcSliceM c i) (.remote (Dev.tc n : Thread nD τ) (slotM c) (.dma (sendS i)) hsc) (.dma (recvS c)) hsrc hdst hsem) k) Q) := by
  subst hn
  unfold srcPts slotPts
  exact Rounds.wp_send_pointsTo 𝒱₀ ER (sched m) (c : Thread nD τ) none (c' := (dstAt c i : Thread nD τ))
    (src := srcSliceM c i) (dst := slotM c) (q := fullShare) (fs := x16 m c) (fd := fn)
    (κ₁ := K (sendCell c i)) (κ₂ := K (recvCell (dstAt c i) c)) (r₁ := 0) (r₂ := 0) (d₁ := c) (d₂ := c)
    (mem_send m c i) (mem_recv_dst m c i) () () N rfl (amount_send m c i 0 c) (amount_recv m (dstAt c i) c 0 c) O rfl (W := W)
    (by rw [payload_send]; unfold srcPts; exact BI.Entails.refl _)
    (by rw [payload_recv]; unfold recvPay slotPts; exact Entails.of_eq (BI.Region.is_congr hland))

/-- info: 'Cert.Kernel.A2A.wp_send_at' depends on axioms: [propext, Classical.choice, Quot.sound] -/
#guard_msgs in #print axioms wp_send_at

end Cert.Kernel.A2A

end
-- ==== Proof.A2AK.ReadsW.lean ====
import proofs.«900488_g7700000000000489_dist_a2a_gemm_m4096_k4096_n8192_f32_none_v7x_i8_1_alg».proof.Proof.A2AK.Data
import proofs.«900488_g7700000000000489_dist_a2a_gemm_m4096_k4096_n8192_f32_none_v7x_i8_1_alg».proof.Proof.A2AK.Offsets
import Idealize.ShloMosaic.Lib.Pipeline.Value
import Idealize.ShloMosaic.Lib.Tactic

noncomputable section

namespace Cert.Kernel.A2A

open Cert.Kernel Cert.Kernel.Gen
open Idealize.ShloMosaic Idealize.ShloMosaic.ValueIdx
open Idealize.ShloMosaic.TcCoe

variable {F : FTy → Type} [FloatOps F]

theorem squeeze_slot_idx (i : S1x512x2048.Idx) :
    (Shape.reshapeEquiv (s := S1x512x2048) (s' := S512x2048) squeezes_S1x512x2048_S512x2048.numel_eq).symm i
      = ((fun a => i (Fin.succ a)) : S512x2048.Idx) := by
  refine (Equiv.symm_apply_eq _).mpr ?_
  refine Eq.trans ?_ (Shape.reshapeEquiv_cons_one (n := 2) (d := ![512, 2048]) _ _).symm
  funext a
  refine Fin.cases ?_ (fun b => ?_) a
  · refine Fin.ext ?_
    show (i 0).val = 0
    have := (i 0).isLt; simp [S1x512x2048] at this; exact this
  · rfl

/-- A slot read back right after a copy into it of the block of the weights at row 512j, column 2048q: it holds `wBlk`. -/
theorem wslot_read_last (c j : Dev nD) (q : Fin 4)
    (off : Fin 2 → Nat) (hoff : ∀ a, off a + S512x2048.size a ≤ S4096x8192.size a) (h : off = ![512 * j.val, 2048 * q.val])
    (soff : Fin 3 → Nat) (hs : ∀ a, soff a + S1x512x2048.size a ≤ S6x512x2048.size a)
    (fw : (cc0_scratch2 : Ref sig .tc).ty.Contents (Elt F)) (fh : Buf (Elt F) ((c : Thread nD τ).loc main_arg1)) :
    View.readAt (Elt F) (Memref.whole cc0_scratch2 : Memref sig .tc .vmem S6x512x2048 .f32).view (Rect.unit (s := S6x512x2048) soff S1x512x2048.size hs).toLoadRect
      (View.write (Elt F) (((Memref.whole cc0_scratch2 : Memref sig .tc .vmem S6x512x2048 .f32).slice (Rect.unit (s := S6x512x2048) soff S1x512x2048.size hs) (fun _ => rfl)).squeeze S512x2048 squeezes_S1x512x2048_S512x2048).view fw
        (ReadAs.same.apply (View.read (Elt F) ((Memref.whole main_arg1 : Memref sig .tc .hbm S4096x8192 .f32).slice (Rect.unit (s := S4096x8192) off S512x2048.size hoff) (fun _ => rfl)).view fh)) Finset.univ)
      = wBlk fh j q := by
  subst h
  funext i
  show View.read (Elt F) ((Memref.whole cc0_scratch2 : Memref sig .tc .vmem S6x512x2048 .f32).view.slice (Rect.unit (s := S6x512x2048) soff S1x512x2048.size hs))
      (View.write (Elt F) (((Memref.whole cc0_scratch2 : Memref sig .tc .vmem S6x512x2048 .f32).view.slice (Rect.unit (s := S6x512x2048) soff S1x512x2048.size hs)).reshape S512x2048 squeezes_S1x512x2048_S512x2048.numel_eq) fw _ Finset.univ) i = _
  rw [View.write_reshape_univ, View.read_write_univ, squeeze_slot_idx]
  show fh ((Rect.unit (s := S4096x8192) ![512 * j.val, 2048 * q.val] S512x2048.size hoff).emb ((fun a => i (Fin.succ a)) : S512x2048.Idx)) = _
  unfold wBlk
  refine congrArg fh (funext fun a => Fin.ext ?_)
  fin_cases a
  · show 512 * j.val + 1 * (i (Fin.succ 0)).val = 512 * j.val + (i 1).val
    rw [Nat.one_mul]; rfl
  · show 2048 * q.val + 1 * (i (Fin.succ 1)).val = 2048 * q.val + (i 2).val
    rw [Nat.one_mul]; rfl

theorem read_slice_write_reshape_of_disjoint {sig' : RefSig} {κ : Kind} {sp : Space} {s : Shape} {e : EltTy} {Val : EltTy → Type}
    (v : View sig' κ sp s e) (r r' : Rect s) (s' : Shape) (h' : s'.numel = r'.shape.numel) (f : v.ty.Contents Val) (w : s'.Idx → Val e)
    (hd : Disjoint r.set r'.set) :
    (v.slice r).read Val (((v.slice r').reshape s' h').write Val f w Finset.univ) = (v.slice r).read Val f := by
  rw [View.write_reshape_univ]
  refine View.read_slice_write_slice_of_disjoint r r' f _ Finset.univ ?_
  rw [View.setOn_univ, View.set_slice, View.set_slice]
  exact (Finset.disjoint_map _).mpr hd

theorem wslot_read_other
    (soff soff' : Fin 3 → Nat) (hs : ∀ a, soff a + S1x512x2048.size a ≤ S6x512x2048.size a) (hs' : ∀ a, soff' a + S1x512x2048.size a ≤ S6x512x2048.size a)
    (fw : (cc0_scratch2 : Ref sig .tc).ty.Contents (Elt F)) (w : S512x2048.Idx → Elt F .f32)
    (h : soff 0 + S1x512x2048.size 0 ≤ soff' 0 ∨ soff' 0 + S1x512x2048.size 0 ≤ soff 0) :
    View.readAt (Elt F) (Memref.whole cc0_scratch2 : Memref sig .tc .vmem S6x512x2048 .f32).view (Rect.unit (s := S6x512x2048) soff S1x512x2048.size hs).toLoadRect
      (View.write (Elt F) (((Memref.whole cc0_scratch2 : Memref sig .tc .vmem S6x512x2048 .f32).slice (Rect.unit (s := S6x512x2048) soff' S1x512x2048.size hs') (fun _ => rfl)).squeeze S512x2048 squeezes_S1x512x2048_S512x2048).view fw w Finset.univ)
      = View.readAt (Elt F) (Memref.whole cc0_scratch2 : Memref sig .tc .vmem S6x512x2048 .f32).view (Rect.unit (s := S6x512x2048) soff S1x512x2048.size hs).toLoadRect fw := by
  show View.read (Elt F) ((Memref.whole cc0_scratch2 : Memref sig .tc .vmem S6x512x2048 .f32).view.slice (Rect.unit (s := S6x512x2048) soff S1x512x2048.size hs))
      (View.write (Elt F) (((Memref.whole cc0_scratch2 : Memref sig .tc .vmem S6x512x2048 .f32).view.slice (Rect.unit (s := S6x512x2048) soff' S1x512x2048.size hs')).reshape S512x2048 squeezes_S1x512x2048_S512x2048.numel_eq) fw w Finset.univ)
    = View.read (Elt F) ((Memref.whole cc0_scratch2 : Memref sig .tc .vmem S6x512x2048 .f32).view.slice (Rect.unit (s := S6x512x2048) soff S1x512x2048.size hs)) fw
  exact read_slice_write_reshape_of_disjoint (Memref.whole cc0_scratch2 : Memref sig .tc .vmem S6x512x2048 .f32).view _ _ _ _ fw w (Rect.unit_disjoint (s := S6x512x2048) (off := soff) (size := S1x512x2048.size) (off' := soff') (size' := S1x512x2048.size) (inb := hs) (inb' := hs') 0 h)

theorem xrows_read (c : Dev nD) (off : Fin 2 → Nat) (hoff : ∀ a, off a + S512x512.size a ≤ S4096x512.size a) (h : off = ![512 * c.val, 0])
    (fx : (cc0_stg0_0 : Ref sig .tc).ty.Contents (Elt F)) :
    View.readAt (Elt F) (Memref.whole cc0_stg0_0 : Memref sig .tc .vmem S4096x512 .f32).view (Rect.unit (s := S4096x512) off S512x512.size hoff).toLoadRect fx
      = rowsF fx c := by
  subst h
  funext i
  show fx ((Rect.unit (s := S4096x512) ![512 * c.val, 0] S512x512.size hoff).emb i) = _
  unfold rowsF
  refine congrArg fx (funext fun a => Fin.ext ?_)
  fin_cases a
  · show 512 * c.val + 1 * (i 0).val = 512 * c.val + (i 0).val
    rw [Nat.one_mul]
  · show 0 + 1 * (i 1).val = (i 1).val
    rw [Nat.one_mul, Nat.zero_add]

theorem xrows_read_off11 (c : Dev nD) (fx : (cc0_stg0_0 : Ref sig .tc).ty.Contents (Elt F)) :
    View.readAt (Elt F) (Memref.whole cc0_stg0_0 : Memref sig .tc .vmem S4096x512 .f32).view (Rect.unit (s := S4096x512) (k0_off11 c) S512x512.size (k0_off11_inb c)).toLoadRect fx
      = rowsF fx c :=
  xrows_read c (k0_off11 c) (k0_off11_inb c) (k0_off11_eq c) fx

/-- info: 'Cert.Kernel.A2A.wslot_read_last' depends on axioms: [propext, Classical.choice, Quot.sound] -/
#guard_msgs in #print axioms wslot_read_last
/-- info: 'Cert.Kernel.A2A.wslot_read_other' depends on axioms: [propext, Classical.choice, Quot.sound] -/
#guard_msgs in #print axioms wslot_read_other
/-- info: 'Cert.Kernel.A2A.xrows_read_off11' depends on axioms: [propext, Classical.choice, Quot.sound] -/
#guard_msgs in #print axioms xrows_read_off11

end Cert.Kernel.A2A

end
-- ==== Proof.A2AK.Steps.lean ====
import proofs.«900488_g7700000000000489_dist_a2a_gemm_m4096_k4096_n8192_f32_none_v7x_i8_1_alg».proof.Proof.A2AK.State

noncomputable section

namespace Cert.Kernel.A2A

open Cert.Kernel Cert.Kernel.Gen
open Idealize.ShloMosaic
open Idealize.ShloMosaic.TcCoe

variable {F : FTy → Type} [FloatOps F]

variable (m : (ℓ : Loc nD τ sig) → Buf (Elt F) ℓ)

/-- The first store of chunk `q`: the device's own rows against rows 512c.. of the weights' chunk. -/
theorem chunk_first (c : Dev nD) (q : Fin 4) {a : Vec F S512x512 .f32} {w : Vec F S1x512x2048 .f32}
    (ha : a = rowsF (xin m c) c) (hw : w = wBlk (win m c) c q) :
    mm0 a w = chunkAt (fun d => xin m d) (win m c) c q 0 := by
  subst ha hw; rfl

/-- A later store: what the chunk held after round `h`, plus the rows the device of round `h + 1` sent against its rows of the weights' chunk. -/
theorem chunk_acc (c : Dev nD) (q : Fin 4) (h : Nat) {a : Vec F S1x512x512 .bf16} {w : Vec F S1x512x2048 .f32} {o : Vec F S512x2048 .f32}
    (ha : a = rowsB (x16 m (srcAt c (roundOf (h + 1)))) c) (hw : w = wBlk (win m c) (srcAt c (roundOf (h + 1))) q)
    (ho : o = chunkAt (fun d => xin m d) (win m c) c q h) :
    mmAcc a w o = chunkAt (fun d => xin m d) (win m c) c q (h + 1) := by
  subst ha hw ho; rfl

end Cert.Kernel.A2A

end
-- ==== Proof.A2AK.Canon.lean ====
import proofs.«900488_g7700000000000489_dist_a2a_gemm_m4096_k4096_n8192_f32_none_v7x_i8_1_alg».proof.Proof.A2AK.Sched
import proofs.«900488_g7700000000000489_dist_a2a_gemm_m4096_k4096_n8192_f32_none_v7x_i8_1_alg».proof.Proof.A2AK.Offsets

noncomputable section

namespace Cert.Kernel.A2A

open Cert.Kernel Cert.Kernel.Gen
open Idealize.ShloMosaic
open Idealize.ShloMosaic.TcCoe

theorem recvSem_me : ∀ c : Dev nD, ((cc0_scratch4.slice (Rect.unit (s := S8) (k0_off6 c) S1.size (k0_off6_inb c))).squeeze S_ squeezes_S1_S_).sem = recvS c := by decide +kernel
theorem recvSem_1 : ∀ c : Dev nD, ((cc0_scratch4.slice (Rect.unit (s := S8) (k0_off14 c 1#32) S1.size (k0_off14_inb c 0))).squeeze S_ squeezes_S1_S_).sem = recvS (srcAt c 1) := by decide +kernel
theorem recvSem_2 : ∀ c : Dev nD, ((cc0_scratch4.slice (Rect.unit (s := S8) (k0_off14 c 2#32) S1.size (k0_off14_inb c 1))).squeeze S_ squeezes_S1_S_).sem = recvS (srcAt c 2) := by decide +kernel
theorem recvSem_3 : ∀ c : Dev nD, ((cc0_scratch4.slice (Rect.unit (s := S8) (k0_off14 c 3#32) S1.size (k0_off14_inb c 2))).squeeze S_ squeezes_S1_S_).sem = recvS (srcAt c 3) := by decide +kernel
theorem recvSem_4 : ∀ c : Dev nD, ((cc0_scratch4.slice (Rect.unit (s := S8) (k0_off21 c 0#32) S1.size (k0_off21_inb c 0))).squeeze S_ squeezes_S1_S_).sem = recvS (srcAt c 4) := by decide +kernel
theorem recvSem_5 : ∀ c : Dev nD, ((cc0_scratch4.slice (Rect.unit (s := S8) (k0_off21 c 1#32) S1.size (k0_off21_inb c 1))).squeeze S_ squeezes_S1_S_).sem = recvS (srcAt c 5) := by decide +kernel
theorem recvSem_6 : ∀ c : Dev nD, ((cc0_scratch4.slice (Rect.unit (s := S8) (k0_off21 c 2#32) S1.size (k0_off21_inb c 2))).squeeze S_ squeezes_S1_S_).sem = recvS (srcAt c 6) := by decide +kernel
theorem recvSem_7 : ∀ c : Dev nD, ((cc0_scratch4.slice (Rect.unit (s := S8) (k0_off21 c 3#32) S1.size (k0_off21_inb c 3))).squeeze S_ squeezes_S1_S_).sem = recvS (srcAt c 7) := by decide +kernel

/-- A slice of the landing buffer at the corner of slot `j`, squeezed, is slot `j`. -/
theorem slotM_of (off : Fin 3 → Nat) (inb : ∀ a, off a + S1x512x512.size a ≤ S8x512x512.size a) (j : Dev nD) (h : off = ![j.val, 0, 0]) :
    ((lM.slice (Rect.unit (s := S8x512x512) off S1x512x512.size inb) (fun _ => rfl)).squeeze S512x512 squeezes_S1x512x512_S512x512) = slotM j :=
  congrArg (fun M : Memref sig .tc .vmem S1x512x512 .bf16 => M.squeeze S512x512 squeezes_S1x512x512_S512x512)
    (Memref.slice_unit_congr lM (h.trans (k0_off7_eq j).symm) _ _ _ _)

theorem slotM_1 (c : Dev nD) :
    ((lM.slice (Rect.unit (s := S8x512x512) (k0_off15 c 1#32) S1x512x512.size (k0_off15_inb c 0)) (fun _ => rfl)).squeeze S512x512 squeezes_S1x512x512_S512x512)
      = slotM (srcAt c 1) := slotM_of _ _ _ (off15_eq c 0)
theorem slotM_2 (c : Dev nD) :
    ((lM.slice (Rect.unit (s := S8x512x512) (k0_off15 c 2#32) S1x512x512.size (k0_off15_inb c 1)) (fun _ => rfl)).squeeze S512x512 squeezes_S1x512x512_S512x512)
      = slotM (srcAt c 2) := slotM_of _ _ _ (off15_eq c 1)
theorem slotM_3 (c : Dev nD) :
    ((lM.slice (Rect.unit (s := S8x512x512) (k0_off15 c 3#32) S1x512x512.size (k0_off15_inb c 2)) (fun _ => rfl)).squeeze S512x512 squeezes_S1x512x512_S512x512)
      = slotM (srcAt c 3) := slotM_of _ _ _ (off15_eq c 2)
theorem slotM_4 (c : Dev nD) :
    ((lM.slice (Rect.unit (s := S8x512x512) (k0_off22 c 0#32) S1x512x512.size (k0_off22_inb c 0)) (fun _ => rfl)).squeeze S512x512 squeezes_S1x512x512_S512x512)
      = slotM (srcAt c 4) := slotM_of _ _ _ (off22_eq c 0)
theorem slotM_5 (c : Dev nD) :
    ((lM.slice (Rect.unit (s := S8x512x512) (k0_off22 c 1#32) S1x512x512.size (k0_off22_inb c 1)) (fun _ => rfl)).squeeze S512x512 squeezes_S1x512x512_S512x512)
      = slotM (srcAt c 5) := slotM_of _ _ _ (off22_eq c 1)
theorem slotM_6 (c : Dev nD) :
    ((lM.slice (Rect.unit (s := S8x512x512) (k0_off22 c 2#32) S1x512x512.size (k0_off22_inb c 2)) (fun _ => rfl)).squeeze S512x512 squeezes_S1x512x512_S512x512)
      = slotM (srcAt c 6) := slotM_of _ _ _ (off22_eq c 2)
theorem slotM_7 (c : Dev nD) :
    ((lM.slice (Rect.unit (s := S8x512x512) (k0_off22 c 3#32) S1x512x512.size (k0_off22_inb c 3)) (fun _ => rfl)).squeeze S512x512 squeezes_S1x512x512_S512x512)
      = slotM (srcAt c 7) := slotM_of _ _ _ (off22_eq c 3)

instance closedOff_off16_1 (c : Dev nD) : ClosedOff (k0_off16 c 1#32) := ⟨![(srcAt c 1).val, 0, 0], off16_eq c 0⟩
instance closedOff_off15_1 (c : Dev nD) : ClosedOff (k0_off15 c 1#32) := ⟨![(srcAt c 1).val, 0, 0], off15_eq c 0⟩
instance closedOff_off16_2 (c : Dev nD) : ClosedOff (k0_off16 c 2#32) := ⟨![(srcAt c 2).val, 0, 0], off16_eq c 1⟩
instance closedOff_off15_2 (c : Dev nD) : ClosedOff (k0_off15 c 2#32) := ⟨![(srcAt c 2).val, 0, 0], off15_eq c 1⟩
instance closedOff_off16_3 (c : Dev nD) : ClosedOff (k0_off16 c 3#32) := ⟨![(srcAt c 3).val, 0, 0], off16_eq c 2⟩
instance closedOff_off15_3 (c : Dev nD) : ClosedOff (k0_off15 c 3#32) := ⟨![(srcAt c 3).val, 0, 0], off15_eq c 2⟩
instance closedOff_off23_4 (c : Dev nD) : ClosedOff (k0_off23 c 0#32) := ⟨![(srcAt c 4).val, 0, 0], off23_eq c 0⟩
instance closedOff_off22_4 (c : Dev nD) : ClosedOff (k0_off22 c 0#32) := ⟨![(srcAt c 4).val, 0, 0], off22_eq c 0⟩
instance closedOff_off23_5 (c : Dev nD) : ClosedOff (k0_off23 c 1#32) := ⟨![(srcAt c 5).val, 0, 0], off23_eq c 1⟩
instance closedOff_off22_5 (c : Dev nD) : ClosedOff (k0_off22 c 1#32) := ⟨![(srcAt c 5).val, 0, 0], off22_eq c 1⟩
instance closedOff_off23_6 (c : Dev nD) : ClosedOff (k0_off23 c 2#32) := ⟨![(srcAt c 6).val, 0, 0], off23_eq c 2⟩
instance closedOff_off22_6 (c : Dev nD) : ClosedOff (k0_off22 c 2#32) := ⟨![(srcAt c 6).val, 0, 0], off22_eq c 2⟩
instance closedOff_off23_7 (c : Dev nD) : ClosedOff (k0_off23 c 3#32) := ⟨![(srcAt c 7).val, 0, 0], off23_eq c 3⟩
instance closedOff_off22_7 (c : Dev nD) : ClosedOff (k0_off22 c 3#32) := ⟨![(srcAt c 7).val, 0, 0], off22_eq c 3⟩

end Cert.Kernel.A2A

end
-- ==== Proof.A2AK.Body.lean ====
import proofs.«900488_g7700000000000489_dist_a2a_gemm_m4096_k4096_n8192_f32_none_v7x_i8_1_alg».proof.Proof.A2AK.Shares
import proofs.«900488_g7700000000000489_dist_a2a_gemm_m4096_k4096_n8192_f32_none_v7x_i8_1_alg».proof.Proof.A2AK.Rules
import proofs.«900488_g7700000000000489_dist_a2a_gemm_m4096_k4096_n8192_f32_none_v7x_i8_1_alg».proof.Proof.A2AK.Landing
import proofs.«900488_g7700000000000489_dist_a2a_gemm_m4096_k4096_n8192_f32_none_v7x_i8_1_alg».proof.Proof.A2AK.Reads
import proofs.«900488_g7700000000000489_dist_a2a_gemm_m4096_k4096_n8192_f32_none_v7x_i8_1_alg».proof.Proof.A2AK.ReadsW
import proofs.«900488_g7700000000000489_dist_a2a_gemm_m4096_k4096_n8192_f32_none_v7x_i8_1_alg».proof.Proof.A2AK.Steps
import proofs.«900488_g7700000000000489_dist_a2a_gemm_m4096_k4096_n8192_f32_none_v7x_i8_1_alg».proof.Proof.A2AK.Canon

set_option maxRecDepth 16384

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

theorem x16_written (c : Dev nD) (f16 : (cc0_scratch0 : Ref sig .tc).ty.Contents (Elt F)) :
    (nM : Memref sig .tc .vmem S4096x512 .bf16).view.writes (Elt F) f16
      [⟨Rect.unit (s := S4096x512) ![0, 0] S4096x512.size inb_S4096x512_S4096x512_0_0,
        k0_pay1 (View.readAt (Elt F) (xM : Memref sig .tc .vmem S4096x512 .f32).view
          (Rect.unit (s := S4096x512) ![0, 0] S4096x512.size inb_S4096x512_S4096x512_0_0).toLoadRect (xin m c))⟩]
      = x16 m c := by
  have hz : (![0, 0] : Fin 2 → Nat) = fun _ => 0 := funext fun a => by fin_cases a <;> rfl
  rw [View.writes_singleton,
    show View.readAt (Elt F) (xM : Memref sig .tc .vmem S4096x512 .f32).view
      (Rect.unit (s := S4096x512) ![0, 0] S4096x512.size inb_S4096x512_S4096x512_0_0).toLoadRect (xin m c) = xin m c
      from Memref.readAt_unit_zero (Elt F) cc0_stg0_0 hz _ _]
  exact Memref.write_access_unit_zero_univ (Elt F) cc0_scratch0 hz _ f16 _

/-- The narrowed activations, once stored, are held at `x16`. -/
theorem x16_stored (c : Dev nD) (f16 : (cc0_scratch0 : Ref sig .tc).ty.Contents (Elt F)) :
    ((nM : Memref sig .tc .vmem S4096x512 .bf16).view.loc (c : Thread nD τ) ↦{fullShare}
        (nM : Memref sig .tc .vmem S4096x512 .bf16).view.writes (Elt F) f16
          [⟨Rect.unit (s := S4096x512) ![0, 0] S4096x512.size inb_S4096x512_S4096x512_0_0,
            k0_pay1 (View.readAt (Elt F) (xM : Memref sig .tc .vmem S4096x512 .f32).view
              (Rect.unit (s := S4096x512) ![0, 0] S4096x512.size inb_S4096x512_S4096x512_0_0).toLoadRect (xin m c))⟩] : sProp 𝕄)
      = ((nM : Memref sig .tc .vmem S4096x512 .bf16).view.loc (c : Thread nD τ) ↦{fullShare} x16 m c) := by
  rw [x16_written]

theorem src_ne : ∀ (c : Dev nD) (k : Fin 8), k ≠ 0 → srcAt c k ≠ c := by decide
theorem duties_recv_1 (c : Dev nD) : (sched m).duties (recvCell c (srcAt c 1)) 0 = {srcAt c 1} := duties_recv m c _ (src_ne c 1 (by decide))
theorem expect_recv_1 (c : Dev nD) : (sched m).expect (recvCell c (srcAt c 1)) 0 = N := expect_recv m c _ (src_ne c 1 (by decide))
theorem duties_recv_2 (c : Dev nD) : (sched m).duties (recvCell c (srcAt c 2)) 0 = {srcAt c 2} := duties_recv m c _ (src_ne c 2 (by decide))
theorem expect_recv_2 (c : Dev nD) : (sched m).expect (recvCell c (srcAt c 2)) 0 = N := expect_recv m c _ (src_ne c 2 (by decide))
theorem duties_recv_3 (c : Dev nD) : (sched m).duties (recvCell c (srcAt c 3)) 0 = {srcAt c 3} := duties_recv m c _ (src_ne c 3 (by decide))
theorem expect_recv_3 (c : Dev nD) : (sched m).expect (recvCell c (srcAt c 3)) 0 = N := expect_recv m c _ (src_ne c 3 (by decide))
theorem duties_recv_4 (c : Dev nD) : (sched m).duties (recvCell c (srcAt c 4)) 0 = {srcAt c 4} := duties_recv m c _ (src_ne c 4 (by decide))
theorem expect_recv_4 (c : Dev nD) : (sched m).expect (recvCell c (srcAt c 4)) 0 = N := expect_recv m c _ (src_ne c 4 (by decide))
theorem duties_recv_5 (c : Dev nD) : (sched m).duties (recvCell c (srcAt c 5)) 0 = {srcAt c 5} := duties_recv m c _ (src_ne c 5 (by decide))
theorem expect_recv_5 (c : Dev nD) : (sched m).expect (recvCell c (srcAt c 5)) 0 = N := expect_recv m c _ (src_ne c 5 (by decide))
theorem duties_recv_6 (c : Dev nD) : (sched m).duties (recvCell c (srcAt c 6)) 0 = {srcAt c 6} := duties_recv m c _ (src_ne c 6 (by decide))
theorem expect_recv_6 (c : Dev nD) : (sched m).expect (recvCell c (srcAt c 6)) 0 = N := expect_recv m c _ (src_ne c 6 (by decide))
theorem duties_recv_7 (c : Dev nD) : (sched m).duties (recvCell c (srcAt c 7)) 0 = {srcAt c 7} := duties_recv m c _ (src_ne c 7 (by decide))
theorem expect_recv_7 (c : Dev nD) : (sched m).expect (recvCell c (srcAt c 7)) 0 = N := expect_recv m c _ (src_ne c 7 (by decide))

macro "prog_norm" : tactic =>
  `(tactic| conv => { arg 2; pattern (Idealize.SL.Sem.wp _ _ _ _); arg 4; simp (config := { proj := false }) only [Prog.lift, Prog.bind_op, Prog.bind_ret, Prog.pure_eq_ret, recvSem_me] })

theorem owes_zero_add (t : Thread nD τ) (O : CellTallies nD τ sig Unit) (W : Waits sig Unit) :
    (owes t O W : sProp 𝕄) ⊢ owes t (0 + O) W := Entails.of_eq (by rw [zero_add])

open Lean Elab Tactic Meta in

elab "run_names_once" : tactic => do
  let g ← getMainGoal
  let isRunName (n : Name) : Bool := n.components.dropLast.any (· == `sl)
  let t ← instantiateMVars (← g.getType)
  let t' ← Core.transform t (pre := fun e => do
    match (← Meta.delta? e isRunName) with
    | some e' => return .done e'.headBeta
    | none => return .continue)
  if t' == t then throwError "run_names_once: no run name in the goal"
  replaceMainGoal [← g.replaceTargetDefEq t']

macro "chunk_skip" : tactic => `(tactic| (rw [chunkOf_writes_other]; on_goal 2 => decide))
macro "chunk_hit" : tactic => `(tactic| (rw [chunkOf_writes_same]; on_goal 2 => decide))

syntax "chunk_find" : tactic
macro_rules
  | `(tactic| chunk_find) => `(tactic| first | chunk_hit | (chunk_skip; chunk_find) | (run_names_once; chunk_find))

macro "w_skip" : tactic => `(tactic| (refine Eq.trans (wslot_read_other _ _ _ _ _ _ ?_) ?_; · decide))

macro "w_solve_with" h:term : tactic => `(tactic| ((repeat w_skip); (first | exact wslot_read_last _ _ _ _ _ $h _ _ _ _ | (run_names_once; exact wslot_read_last _ _ _ _ _ $h _ _ _ _))))
macro "chunk_window" : tactic => `(tactic| ((first | unfold View.readCov | (run_names_once; unfold View.readCov) | (run_names_once; run_names_once; unfold View.readCov)); (first | rw [readAt_chunk0] | rw [readAt_chunk1] | rw [readAt_chunk2] | rw [readAt_chunk3])))

attribute [local sl_rounds] mem_bar_ring mem_send mem_recv_dst amount_bar amount_send amount_recv payload_bar' payload_send' payload_recv' expect_bar expect_send duties_bar_list dstAt_eq_iff duties_send duties_recv_1 expect_recv_1 duties_recv_2 expect_recv_2 duties_recv_3 expect_recv_3 duties_recv_4 expect_recv_4 duties_recv_5 expect_recv_5 duties_recv_6 expect_recv_6 duties_recv_7 expect_recv_7
attribute [local sl_canon] dev1_eq dev2_eq dev3_eq dev4_eq dev5_eq dev6_eq dev7_eq dev8_eq dev9_eq dev10_eq dev11_eq dev12_eq dev13_eq dev14_eq recvSem_me recvSem_1 recvSem_2 recvSem_3 recvSem_4 recvSem_5 recvSem_6 recvSem_7 slotM_1 slotM_2 slotM_3 slotM_4 slotM_5 slotM_6 slotM_7

set_option maxHeartbeats 4000000 in
set_option sl_exec.dmaWindow true in

theorem run_body (K : GSem nD τ sig → ℕ) (c : Dev nD)
    (fo : (cc0_stg1_0 : Ref sig .tc).ty.Contents (Elt F)) (f16 : (cc0_scratch0 : Ref sig .tc).ty.Contents (Elt F))
    (fl : (cc0_scratch1 : Ref sig .tc).ty.Contents (Elt F)) (fw : (cc0_scratch2 : Ref sig .tc).ty.Contents (Elt F))
    (W : Waits sig Unit) (Kt : PUnit → sProp 𝕄) :
    iprop(Ctx0 m K c fo f16 fl fw W ∗ (∀ W', Ctx1 m K c W' -∗ |={Set.univ}=> Kt ⟨⟩))
      ⊢ wp frame (wpE (defs₀ (F := F)) 𝒱₀ c none) Set.univ
      (cc0_body (Memref.whole cc0_stg0_0) (Memref.isWhole_whole _) (Memref.whole main_arg1) (Memref.isWhole_whole _)
        (Memref.whole cc0_stg1_0) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scratch5) Kt := by
  unfold Ctx0 invs marks posns payToks wsems wShares slotAt wTok
  simp (config := { proj := false }) only [bigSep_fin7, bigSep_fin6, succ_round0, succ_round1, succ_round2, succ_round3, succ_round4, succ_round5, succ_round6, wS_0, wS_1, wS_2, wS_3, wS_4, wS_5]
  iintro ⟨⟨⟨#H0, ⟨#H1, #H2, #H3, #H4, #H5, #H6, #H7⟩, ⟨#H8, #H9, #H10, #H11, #H12, #H13, #H14⟩, ⟨#H15, #H16, #H17, #H18, #H19, #H20, #H21⟩, #H22, #H23, #H24, #H25, #H26, #H27, #H28⟩,
    ⟨#H29, ⟨#H30, #H31, #H32, #H33, #H34, #H35, #H36⟩, ⟨#H37, #H38, #H39, #H40, #H41, #H42, #H43⟩, ⟨#H44, #H45, #H46, #H47, #H48, #H49, #H50⟩, #H51, #H52, #H53, #H54, #H55, #H56, #H57⟩,
    ⟨#H58, #H59, #H60, #H61, #H62, #H63, #H64⟩, ⟨H65, ⟨H66, H67, H68, H69, H70, H71, H72⟩, H73, H74, H75, H76, H77, H78, H79⟩, ⟨⟨H80, H81, H82, H83, H84, H85, H86⟩, ⟨H87, H88, H89, H90, H91, H92, H93⟩, H94, H95, H96, H97, H98, H99, H100⟩,
    H101, ⟨H102, H103, H104, H105, H106, H107, H108⟩, H109, H110, ⟨⟨H111, H112, H113, H114, H115, H116⟩, H117⟩, H118, H119, ⟨H120, H121, H122, H123, H124, H125⟩, H126, H127, ⟨H128, H129, H130, H131, H132, H133, H134⟩, H135⟩, Hk⟩
  unfold O₀ Orecv
  have hmw : (levAts L lv : sProp 𝕄) ⊢ MayWait (c : Thread nD τ) (.reg barS) () (Orecv c) := mayWait_bar c
  unfold Orecv at hmw
  sl_unfold [cc0_body]
  sl_exec (disch := first | exact mem_bar_ring m c _ | exact mem_send m c _ | exact mem_recv_dst m c _ | simp only [dev8_eq, dev9_eq, dev10_eq, dev11_eq, dev12_eq, dev13_eq, dev14_eq])
  ihave Hp := (show (_ : sProp 𝕄) ⊢ iprop(((∃ f, (slotM c).view.loc ((dstAt c 0 : Dev nD) : Thread nD τ) ↦[(slotM c).view.set]{fullShare} f) ∗ reached ER (recvCell (dstAt c 0) c) 0)
      ∗ ((∃ f, (slotM c).view.loc ((dstAt c 1 : Dev nD) : Thread nD τ) ↦[(slotM c).view.set]{fullShare} f) ∗ reached ER (recvCell (dstAt c 1) c) 0)
      ∗ ((∃ f, (slotM c).view.loc ((dstAt c 2 : Dev nD) : Thread nD τ) ↦[(slotM c).view.set]{fullShare} f) ∗ reached ER (recvCell (dstAt c 2) c) 0)
      ∗ ((∃ f, (slotM c).view.loc ((dstAt c 3 : Dev nD) : Thread nD τ) ↦[(slotM c).view.set]{fullShare} f) ∗ reached ER (recvCell (dstAt c 3) c) 0)
      ∗ ((∃ f, (slotM c).view.loc ((dstAt c 4 : Dev nD) : Thread nD τ) ↦[(slotM c).view.set]{fullShare} f) ∗ reached ER (recvCell (dstAt c 4) c) 0)
      ∗ ((∃ f, (slotM c).view.loc ((dstAt c 5 : Dev nD) : Thread nD τ) ↦[(slotM c).view.set]{fullShare} f) ∗ reached ER (recvCell (dstAt c 5) c) 0)
      ∗ ((∃ f, (slotM c).view.loc ((dstAt c 6 : Dev nD) : Thread nD τ) ↦[(slotM c).view.set]{fullShare} f) ∗ reached ER (recvCell (dstAt c 6) c) 0)) from BIBase.Entails.rfl) $$ H65_pay1
  icases Hp with ⟨⟨⟨%g0, Hd0⟩, -⟩, ⟨⟨%g1, Hd1⟩, -⟩, ⟨⟨%g2, Hd2⟩, -⟩, ⟨⟨%g3, Hd3⟩, -⟩, ⟨⟨%g4, Hd4⟩, -⟩, ⟨⟨%g5, Hd5⟩, -⟩, ⟨⟨%g6, Hd6⟩, -⟩⟩
  ihave Hn := (Entails.of_eq (x16_stored m c f16)) $$ H126
  ihave Hn := (Entails.of_eq (nM_split c (x16 m c))) $$ Hn
  icases Hn with ⟨Hnr, Hn0, Hn1, Hn2, Hn3, Hn4, Hn5, Hn6⟩

  iapply (wp_send_at m K c 0 (dstAt c 0) rfl _ _ g0 (slot_landedAll m c 0 g0)) $$ [Hn0 Hd0 H110 H94 H87]
  · unfold srcPts slotPts
    sl_close
  iintro ⟨Hcs0, H110⟩
  (set_option sl_exec.maxSteps 2 in sl_exec (disch := first | exact mem_bar_ring m c _ | exact mem_send m c _ | exact mem_recv_dst m c _ | simp only [dev8_eq, dev9_eq, dev10_eq, dev11_eq, dev12_eq, dev13_eq, dev14_eq]))
  sl_unfold [k0_part5]
  prog_norm

  iapply (wp_send_at m K c 1 (⟨k0_dev9 c, k0_dev9_lt c⟩ : Dev nD) (dev9_eq c) _ _ g1 (slot_landedAll m c 1 g1)) $$ [Hn1 Hd1 H110 H95 H88]
  · unfold srcPts slotPts
    sl_close
  iintro ⟨Hcs1, H110⟩
  prog_norm

  iapply (wp_send_at m K c 2 (⟨k0_dev10 c, k0_dev10_lt c⟩ : Dev nD) (dev10_eq c) _ _ g2 (slot_landedAll m c 2 g2)) $$ [Hn2 Hd2 H110 H96 H89]
  · unfold srcPts slotPts
    sl_close
  iintro ⟨Hcs2, H110⟩
  prog_norm

  iapply (wp_send_at m K c 3 (⟨k0_dev11 c, k0_dev11_lt c⟩ : Dev nD) (dev11_eq c) _ _ g3 (slot_landedAll m c 3 g3)) $$ [Hn3 Hd3 H110 H97 H90]
  · unfold srcPts slotPts
    sl_close
  iintro ⟨Hcs3, H110⟩
  prog_norm

  iapply (wp_send_at m K c 4 (⟨k0_dev12 c, k0_dev12_lt c⟩ : Dev nD) (dev12_eq c) _ _ g4 (slot_landedAll m c 4 g4)) $$ [Hn4 Hd4 H110 H98 H91]
  · unfold srcPts slotPts
    sl_close
  iintro ⟨Hcs4, H110⟩
  prog_norm
  (set_option sl_exec.maxSteps 1 in sl_exec (disch := first | exact mem_bar_ring m c _ | exact mem_send m c _ | exact mem_recv_dst m c _ | simp only [dev8_eq, dev9_eq, dev10_eq, dev11_eq, dev12_eq, dev13_eq, dev14_eq]))
  sl_unfold [k0_part6]
  prog_norm

  iapply (wp_send_at m K c 5 (⟨k0_dev13 c, k0_dev13_lt c⟩ : Dev nD) (dev13_eq c) _ _ g5 (slot_landedAll m c 5 g5)) $$ [Hn5 Hd5 H110 H99 H92]
  · unfold srcPts slotPts
    sl_close
  iintro ⟨Hcs5, H110⟩
  prog_norm
  ihave H110 := (owes_zero_add _ _ _) $$ H110

  iapply (wp_send_at m K c 6 (⟨k0_dev14 c, k0_dev14_lt c⟩ : Dev nD) (dev14_eq c) _ _ g6 (slot_landedAll m c 6 g6)) $$ [Hn6 Hd6 H110 H100 H93]
  · unfold srcPts slotPts
    sl_close
  iintro ⟨Hcs6, H110⟩
  prog_norm
  sl_exec (disch := first | exact mem_bar_ring m c _ | exact mem_send m c _ | exact mem_recv_dst m c _ | simp only [dev8_eq, dev9_eq, dev10_eq, dev11_eq, dev12_eq, dev13_eq, dev14_eq])
  rw [wp_ret]
  iapply Hk $$ %_
  ihave Hnn := (Entails.of_eq (nM_split c (x16 m c)).symm) $$ [Hnr H66_pay1 H67_pay1 H68_pay1 H69_pay1 H70_pay1 H71_pay1 H72_pay1]
  · sl_close
  unfold Ctx1 wsems wShares slotAt wTok
  simp (config := { proj := false }) only [bigSep_fin7, bigSep_fin6, succ_round0, succ_round1, succ_round2, succ_round3, succ_round4, succ_round5, succ_round6, wS_0, wS_1, wS_2, wS_3, wS_4, wS_5]
  isplitr [H119]
  · sl_close
  iexists _
  isplitl [H119]; · iexact H119
  ipureintro
  refine ⟨?_, ?_, ?_, ?_⟩
  all_goals
    chunk_find; run_names_once
    refine chunk_acc m c _ 6 (readAt_landedAll m c _ _ _ (off23_eq c 3)) ?_ ?_
    · first | (show _ = wBlk _ _ 0; w_solve_with (off17_eq c 3)) | (show _ = wBlk _ _ 1; w_solve_with (off18_eq c 3)) | (show _ = wBlk _ _ 2; w_solve_with (off19_eq c 3)) | (show _ = wBlk _ _ 3; w_solve_with (off20_eq c 3))
    · chunk_window; chunk_find; run_names_once
      refine chunk_acc m c _ 5 (readAt_landedAll m c _ _ _ (off23_eq c 2)) ?_ ?_
      · first | (show _ = wBlk _ _ 0; w_solve_with (off17_eq c 2)) | (show _ = wBlk _ _ 1; w_solve_with (off18_eq c 2)) | (show _ = wBlk _ _ 2; w_solve_with (off19_eq c 2)) | (show _ = wBlk _ _ 3; w_solve_with (off20_eq c 2))
      · chunk_window; chunk_find; run_names_once
        refine chunk_acc m c _ 4 (readAt_landedAll m c _ _ _ (off23_eq c 1)) ?_ ?_
        · first | (show _ = wBlk _ _ 0; w_solve_with (off17_eq c 1)) | (show _ = wBlk _ _ 1; w_solve_with (off18_eq c 1)) | (show _ = wBlk _ _ 2; w_solve_with (off19_eq c 1)) | (show _ = wBlk _ _ 3; w_solve_with (off20_eq c 1))
        · chunk_window; chunk_find; run_names_once
          refine chunk_acc m c _ 3 (readAt_landedAll m c _ _ _ (off23_eq c 0)) ?_ ?_
          · first | (show _ = wBlk _ _ 0; w_solve_with (off17_eq c 0)) | (show _ = wBlk _ _ 1; w_solve_with (off18_eq c 0)) | (show _ = wBlk _ _ 2; w_solve_with (off19_eq c 0)) | (show _ = wBlk _ _ 3; w_solve_with (off20_eq c 0))
          · chunk_window; chunk_find; run_names_once
            refine chunk_acc m c _ 2 (readAt_landedAll m c _ _ _ (off16_eq c 2)) ?_ ?_
            · first | (show _ = wBlk _ _ 0; w_solve_with (off5_eq c 2)) | (show _ = wBlk _ _ 1; w_solve_with (off10_eq c 2)) | (show _ = wBlk _ _ 2; w_solve_with (off12_eq c 2)) | (show _ = wBlk _ _ 3; w_solve_with (off13_eq c 2))
            · chunk_window; chunk_find; run_names_once
              refine chunk_acc m c _ 1 (readAt_landedAll m c _ _ _ (off16_eq c 1)) ?_ ?_
              · first | (show _ = wBlk _ _ 0; w_solve_with (off5_eq c 1)) | (show _ = wBlk _ _ 1; w_solve_with (off10_eq c 1)) | (show _ = wBlk _ _ 2; w_solve_with (off12_eq c 1)) | (show _ = wBlk _ _ 3; w_solve_with (off13_eq c 1))
              · chunk_window; chunk_find; run_names_once
                refine chunk_acc m c _ 0 (readAt_landedAll m c _ _ _ (off16_eq c 0)) ?_ ?_
                · first | (show _ = wBlk _ _ 0; w_solve_with (off5_eq c 0)) | (show _ = wBlk _ _ 1; w_solve_with (off10_eq c 0)) | (show _ = wBlk _ _ 2; w_solve_with (off12_eq c 0)) | (show _ = wBlk _ _ 3; w_solve_with (off13_eq c 0))
                · chunk_window; chunk_find; run_names_once
                  refine chunk_first m c _ (xrows_read_off11 c _) ?_
                  first | (show _ = wBlk _ _ 0; w_solve_with (k0_off1_eq c)) | (show _ = wBlk _ _ 1; w_solve_with (k0_off2_eq c)) | (show _ = wBlk _ _ 2; w_solve_with (k0_off3_eq c)) | (show _ = wBlk _ _ 3; w_solve_with (k0_off4_eq c))

/-- info: 'Cert.Kernel.A2A.run_body' depends on axioms: [propext, Classical.choice, Quot.sound] -/
#guard_msgs in #print axioms run_body

end Cert.Kernel.A2A

end
-- ==== Proof.A2AK.BodyIO.lean ====
import proofs.«900488_g7700000000000489_dist_a2a_gemm_m4096_k4096_n8192_f32_none_v7x_i8_1_alg».proof.Proof.A2AK.Shares
import Idealize.ShloMosaic.Lib.Pipeline.Launch
import Idealize.ShloMosaic.Lib.Pipeline.Kit
import Idealize.ShloMosaic.Lib.Tactic

set_option maxRecDepth 16384

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Every other device's receive cell has reached its first round: each is the cell of some round 1..7. -/
theorem marks_recv (c j : Dev nD) (hj : j ≠ c) : (marks (F := F) c : sProp 𝕄) ⊢ reached ER (recvCell c j) 0 := by
  obtain ⟨h, rfl⟩ := src_succ_surj c j hj
  unfold marks
  iintro ⟨-, -, H, -, -⟩
  ihave H' := (show (bigSep Finset.univ fun h : Fin 7 => (reached ER (recvCell c (srcAt c h.succ)) 0 : sProp 𝕄)) ⊢ reached ER (recvCell c (srcAt c h.succ)) 0
    from bigSep_elim (Finset.mem_univ h)) $$ H
  iexact H'

omit [FloatOps F] in
theorem marks_ring (c : Dev nD) :
    (marks (F := F) c : sProp 𝕄) ⊢ bigSep Finset.univ fun i : Fin 7 => reached ER (recvCell c (ringAt c i)) 0 :=
  bigSep_intro_persistent fun i _ => marks_recv c (ringAt c i) (ringAt_ne c i)

set_option maxHeartbeats 1600000 in
/-- The body's starting state restated: the landing buffer cut into its slots, the weights into the six read shares the copies use and a part set aside. -/
theorem pre_intro (c : Dev nD) :
    bodyPre' m ρ c ⊢ iprop(∃ K fo f16 fl fw W, Ctx0 m K c fo f16 fl fw W ∗ Rest m c) := by
  unfold bodyPre' Φ₀ start scratch3
  iintro ⟨⟨⟨⟨%K, Hg⟩, HcB, HcR, #Hlev, Hws, Hw⟩, ⟨%f16, Hn⟩, ⟨%fl, Hl⟩, ⟨%fw, Hwm⟩⟩, Ho, ⟨%d0, %g0, %hg0, Hx⟩, ⟨%d1, %fo, %hfo, Hout⟩⟩
  have hx : g0 = xin m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  unfold ghost
  icases Hg with ⟨#HI, Hp, #Hm, Ht⟩
  ihave Hr := (marks_ring c) $$ Hm
  ihave Hls := (Entails.of_eq (land_split_ring c fl)) $$ Hl
  icases Hls with ⟨Lc, Lr⟩
  ihave Has := (weights_shares m c).1 $$ Hw
  icases Has with ⟨Hsh, HR⟩
  iexists K, fo, f16, fl, fw, W
  unfold Ctx0
  sl_close

/-- info: 'Cert.Kernel.A2A.pre_intro' depends on axioms: [propext, Classical.choice, Quot.sound] -/
#guard_msgs in #print axioms pre_intro

end Cert.Kernel.A2A

end
-- ==== Proof.A2AK.BodyOut.lean ====
import proofs.«900488_g7700000000000489_dist_a2a_gemm_m4096_k4096_n8192_f32_none_v7x_i8_1_alg».proof.Proof.A2AK.Shares
import Idealize.ShloMosaic.Lib.Ring
import Idealize.ShloMosaic.Lib.Pipeline.Launch
import Idealize.ShloMosaic.Lib.Pipeline.Kit
import Idealize.ShloMosaic.Lib.Tactic

set_option maxRecDepth 16384

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
namespace Out

/-- Eight slots, each at some contents, are the landing buffer at some contents. -/
theorem land_join (c : Dev nD) :
    (bigSep Finset.univ fun j : Dev nD => iprop(∃ f, slotAt c j f) : sProp 𝕄)
      ⊢ iprop(∃ g : Buf (Elt F) ((c : Thread nD τ).loc cc0_scratch1), ((c : Thread nD τ).loc cc0_scratch1) ↦{fullShare} g) :=
  Ring.pointsTo_blocks_join_exists (ℓ := (c : Thread nD τ).loc cc0_scratch1) slotSet slot_disjoint slot_cover
    (fun _ => Classical.arbitrary _)

/-- Cells at their second round, which has no duty (nor has any later one): the owner closes them and takes the counters at zero. -/
theorem close_cells (K : GSem nD τ sig → ℕ) (g : Fin 7 → GSem nD τ sig) :
    (bigSep Finset.univ fun i => iprop(cellInv ER (sched m) (K (g i)) (g i) ∗ atPos ER (g i) 1 ∅ 0) : sProp 𝕄)
      ⊢ |={Set.univ}=> bigSep Finset.univ fun i => semVal (g i) 0 :=
  (bigSep_mono fun i _ => Rounds.cell_close ER (sched m) (Set.mem_univ (K (g i))) (fun h => h) (R := 1) (duties_later m (g i))).trans
    (bigSep_fupd _ _)

end Out

open Out in
/-- What the run leaves, with what was set aside around it, is the state after the point. -/
theorem post_intro (K : GSem nD τ sig → ℕ) (c : Dev nD) (W' : Waits sig Unit) :
    iprop(Ctx1 m K c W' ∗ Rest m c) ⊢ |={Set.univ}=> bodyPost m ρ c := by
  unfold Ctx1
  iintro ⟨⟨⟨HS, HR, HO, Hws, Hx, Hsh, ⟨%fn, Hn⟩, ⟨%fwb, Hwb⟩, HL, Lc⟩, ⟨%fo1, Hout, %hfo⟩⟩, HRest⟩
  imod (close_cells m K fun i => sendCell c i) $$ HS with ZS
  imod (close_cells m K fun h => recvCell c (srcAt c h.succ)) $$ HR with ZR
  imodintro
  ihave Hw := (weights_shares m c).2 $$ [Hsh HRest]
  · isplitl [Hsh] <;> iassumption
  ihave Hl := (land_join (F := F) c) $$ [HL Lc]
  · rw [bigSep_dev_src c]
    isplitl [Lc]; · iexact Lc
    iapply (show (bigSep Finset.univ fun h : Fin 7 => (slotAt c (srcAt c h.succ) (landedAll m c) : sProp 𝕄))
        ⊢ bigSep Finset.univ fun h : Fin 7 => iprop(∃ f, slotAt c (srcAt c h.succ) f)
      from bigSep_mono fun h _ => BIClass.exists_intro (Φ := fun f => (slotAt c (srcAt c h.succ) f : sProp 𝕄)) (landedAll m c)) $$ HL
  icases Hl with ⟨%fl1, Hl⟩
  have hout : fo1 = outAt m c :=
    eq_outOf_of_chunks (fun d => xin m d) (win m c) c fo1 fun q => by fin_cases q <;> [exact hfo.1; exact hfo.2.1; exact hfo.2.2.1; exact hfo.2.2.2]
  unfold bodyPost Φ₁ scratch3 ownZero Dat.owesAt Pipeline.owesWithin
  rw [show (dats m ρ 0 c).owed t₀.succ = 0 from rfl]
  isplitl [Hn Hl Hwb ZS ZR Hws Hw]
  · sl_close
  isplitl [HO]
  · iexists W'
    isplitr; · ipureintro; exact fun _ _ => Or.inl trivial
    iexact HO
  isplitl [Hx]
  · iexists _; isplitr; · (ipureintro; rfl)
    iexact Hx
  iexists fo1; isplitr; · (ipureintro; exact hout)
  iexact Hout

/-- info: 'Cert.Kernel.A2A.post_intro' depends on axioms: [propext, Classical.choice, Quot.sound] -/
#guard_msgs in #print axioms post_intro

end Cert.Kernel.A2A

end
-- ==== Proof.A2AK.SoundBody.lean ====
import proofs.«900488_g7700000000000489_dist_a2a_gemm_m4096_k4096_n8192_f32_none_v7x_i8_1_alg».proof.Proof.A2AK.Body
import proofs.«900488_g7700000000000489_dist_a2a_gemm_m4096_k4096_n8192_f32_none_v7x_i8_1_alg».proof.Proof.A2AK.BodyIO
import proofs.«900488_g7700000000000489_dist_a2a_gemm_m4096_k4096_n8192_f32_none_v7x_i8_1_alg».proof.Proof.A2AK.BodyOut
import Idealize.ShloMosaic.Lib.Pipeline.Launch
import Idealize.ShloMosaic.Lib.Pipeline.Kit
import Idealize.ShloMosaic.Lib.Tactic

set_option maxRecDepth 16384

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sound_body (c : Dev nD) :
    bodyPre' m ρ c ⊢ wp frame (wpE (defs₀ (F := F)) 𝒱₀ c none) Set.univ
      (cc0_body (Memref.whole cc0_stg0_0) (Memref.isWhole_whole _) (Memref.whole main_arg1) (Memref.isWhole_whole _)
        (Memref.whole cc0_stg1_0) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scratch5) (fun _ => bodyPost m ρ c) := by
  iintro H
  ihave H' := (pre_intro m ρ c) $$ H
  icases H' with ⟨%K, %fo, %f16, %fl, %fw, %W, Hc, Hrest⟩
  iapply (run_body m K c fo f16 fl fw W (fun _ => bodyPost m ρ c))
  isplitl [Hc]; · iexact Hc
  iintro %W' H1
  iapply (post_intro m ρ K c W')
  isplitl [H1] <;> iassumption

theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
      (cc0_body (Memref.whole cc0_stg0_0) (Memref.isWhole_whole _) (Memref.whole main_arg1) (Memref.isWhole_whole _)
        (Memref.whole cc0_stg1_0) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scratch5) (fun _ => bodyPost m ρ c)
  exact sound_body m ρ c

/-- info: 'Cert.Kernel.A2A.body_obligation' depends on axioms: [propext, Classical.choice, Quot.sound] -/
#guard_msgs in #print axioms body_obligation

end Cert.Kernel.A2A

end
-- ==== Proof.A2AK.Launch.lean ====
import proofs.«900488_g7700000000000489_dist_a2a_gemm_m4096_k4096_n8192_f32_none_v7x_i8_1_alg».proof.Proof.A2AK.SoundBody
import Idealize.ShloMosaic.Lib.Pipeline.Launch
import Idealize.ShloMosaic.Lib.Pipeline.Kit
import Idealize.ShloMosaic.Lib.Tactic

set_option maxRecDepth 16384

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

abbrev OwnSem : Type := Fin 7 ⊕ (Dev nD ⊕ Fin 6)

abbrev osem : OwnSem → SemLoc sig := fun k => match k with
  | .inl i => .dma (sendS i)
  | .inr (.inl j) => .dma (recvS j)
  | .inr (.inr s) => .dma (wS s)

theorem ownSemFacts : Pipeline.OwnSemFacts cfg0.spec osem := by decide

theorem sendS_inj {i i' : Fin 7} (h : sendS i = sendS i') : i = i' := by
  have e : 2 + i.val = 2 + i'.val := congrArg (fun q : DmaSem sig => q.val) h
  exact Fin.ext (by omega)
theorem recvS_inj {j j' : Dev nD} (h : recvS j = recvS j') : j = j' := by
  have e : 9 + j.val = 9 + j'.val := congrArg (fun q : DmaSem sig => q.val) h
  exact Fin.ext (by omega)
theorem send_ne_recv (i : Fin 7) (j : Dev nD) : sendS i ≠ recvS j := fun h => by
  have e : 2 + i.val = 9 + j.val := congrArg (fun q : DmaSem sig => q.val) h
  have := i.isLt; omega

abbrev OwnIx : Type := Unit ⊕ (Fin 7 ⊕ Fin 7)

abbrev kcell : Dev nD × OwnIx → GSem nD τ sig := fun ck => match ck.2 with
  | .inl _ => barCell ck.1
  | .inr (.inl i) => sendCell ck.1 i
  | .inr (.inr h) => recvCell ck.1 (srcAt ck.1 h.succ)

theorem kcell_injective : Function.Injective (kcell : Dev nD × OwnIx → GSem nD τ sig) := by
  rintro ⟨c, k⟩ ⟨c', k'⟩ h
  have h1 : c = c' := by
    rcases k with _ | i | a <;> rcases k' with _ | i' | a' <;> exact congrArg (fun g : GSem nD τ sig => g.1.1) h
  subst h1
  have h2 := congrArg Prod.snd h
  rcases k with _ | i | a <;> rcases k' with _ | i' | a'
  · rfl
  · exact absurd h2 (fun e => by cases e)
  · exact absurd h2 (fun e => by cases e)
  · exact absurd h2 (fun e => by cases e)
  · have e := sendS_inj (SemLoc.dma.inj h2); subst e; rfl
  · exact absurd (SemLoc.dma.inj h2) (send_ne_recv _ _)
  · exact absurd h2 (fun e => by cases e)
  · exact absurd (SemLoc.dma.inj h2).symm (send_ne_recv _ _)
  · have e := src_succ_inj c a a' (recvS_inj (SemLoc.dma.inj h2)); subst e; rfl

def ringCells : Finset (GSem nD τ sig) := Finset.univ.map ⟨kcell, kcell_injective⟩

theorem mem_cells (ck : Dev nD × OwnIx) : kcell ck ∈ ringCells := Finset.mem_map_of_mem _ (Finset.mem_univ ck)
theorem bar_mem (c : Dev nD) : barCell c ∈ ringCells := mem_cells (c, .inl ())
theorem send_mem (c : Dev nD) (i : Fin 7) : sendCell c i ∈ ringCells := mem_cells (c, .inr (.inl i))
theorem recv_mem (c : Dev nD) (h : Fin 7) : recvCell c (srcAt c h.succ) ∈ ringCells := mem_cells (c, .inr (.inr h))

theorem recv_dst_mem (c : Dev nD) (i : Fin 7) : recvCell (dstAt c i) c ∈ ringCells := by
  have h := recv_mem (dstAt c i) i; rwa [src_dst] at h

abbrev PayIx : Type := Fin 7 ⊕ (Fin 7 ⊕ Fin 7)

abbrev tokOf : Dev nD × PayIx → GSem nD τ sig × ℕ × Dev nD := fun ck => match ck.2 with
  | .inl i => (barCell (ringAt ck.1 i), 0, ck.1)
  | .inr (.inl i) => (recvCell (dstAt ck.1 i) ck.1, 0, ck.1)
  | .inr (.inr i) => (sendCell ck.1 i, 0, ck.1)

theorem tokOf_injective : Function.Injective (tokOf : Dev nD × PayIx → GSem nD τ sig × ℕ × Dev nD) := by
  rintro ⟨c, k⟩ ⟨c', k'⟩ h
  have h1 : c = c' := by
    rcases k with i | i | i <;> rcases k' with i' | i' | i' <;> exact congrArg (fun x : GSem nD τ sig × ℕ × Dev nD => x.2.2) h
  subst h1
  have hg := congrArg (fun x : GSem nD τ sig × ℕ × Dev nD => x.1) h
  rcases k with i | i | i <;> rcases k' with i' | i' | i'
  · have e := ringAt_inj c i i' (congrArg (fun g : GSem nD τ sig => g.1.1) hg); subst e; rfl
  · exact absurd (congrArg Prod.snd hg) (fun e => by cases e)
  · exact absurd (congrArg Prod.snd hg) (fun e => by cases e)
  · exact absurd (congrArg Prod.snd hg) (fun e => by cases e)
  · have e := dstAt_inj c i i' (congrArg (fun g : GSem nD τ sig => g.1.1) hg); subst e; rfl
  · exact absurd (SemLoc.dma.inj (congrArg Prod.snd hg)).symm (send_ne_recv _ _)
  · exact absurd (congrArg Prod.snd hg) (fun e => by cases e)
  · exact absurd (SemLoc.dma.inj (congrArg Prod.snd hg)) (send_ne_recv _ _)
  · have e := sendS_inj (SemLoc.dma.inj (congrArg Prod.snd hg)); subst e; rfl

def ringToks : Finset (GSem nD τ sig × ℕ × Dev nD) := Finset.univ.map ⟨tokOf, tokOf_injective⟩

def u₀ : UU :=
  (initOf (Pipeline.cells cfgs cellOf_inj) (Pipeline.launchToks cfgs cellOf_inj), (initOf ringCells ringToks, (1 : Counters)))

omit [FloatOps F] in
theorem bigSep_cells (Φ : GSem nD τ sig → sProp 𝕄) :
    bigSep ringCells Φ = bigSep Finset.univ fun c : Dev nD => bigSep Finset.univ fun k : OwnIx => Φ (kcell (c, k)) := by
  unfold ringCells; rw [bigSep_map, bigSep_univ_prod]; rfl

omit [FloatOps F] in

theorem bigSep_own (c : Dev nD) (Φ : GSem nD τ sig → sProp 𝕄) :
    (bigSep Finset.univ fun k : OwnIx => Φ (kcell (c, k)))
      = iprop(Φ (barCell c) ∗ (bigSep Finset.univ fun i : Fin 7 => Φ (sendCell c i))
          ∗ (bigSep Finset.univ fun h : Fin 7 => Φ (recvCell c (srcAt c h.succ)))) := by
  rw [bigSep_univ_sum, bigSep_univ_sum, bigSep_univ_of_subsingleton ()]; rfl

omit [FloatOps F] in
/-- A family over the devices other than `c`, in the order `c` consumes them. -/
theorem bigSep_others (c : Dev nD) (Φ : Dev nD → sProp 𝕄) :
    bigSep (Finset.univ.erase c) Φ = bigSep Finset.univ fun h : Fin 7 => Φ (srcAt c h.succ) := by
  rw [others_src c, bigSep_map]; rfl

def G (c : Dev nD) : sProp 𝕄 :=
  iprop((bigSep Finset.univ fun k : OwnIx => roundState ER (sched m) (kcell (c, k)) 0)
    ∗ (bigSep Finset.univ fun k : OwnIx => iprop(atPos ER (kcell (c, k)) 0 ∅ 0 ∗ reached ER (kcell (c, k)) 0)) ∗ payToks c)

def G' (c : Dev nD) : sProp 𝕄 := iprop((∃ K, ghost m K c) ∗ wsems c)

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => by unfold payToks; rw [bigSep_univ_sum, bigSep_univ_sum]; rfl
  iintro HX
  imod (Rounds.fund ER (sched m) ringCells ringToks) $$ HX with ⟨Hst, Hr, Hat, Htok⟩
  imodintro
  ihave Hst' := (Entails.of_eq (bigSep_cells (F := F) fun g => roundState ER (sched m) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_pair :
    BI.own ((embR : Emb (UB × Counters) (MT nD τ sig Unit (Elt F) ℕ UU ℕ)) (initOf ringCells ringToks, (1 : Counters)))
      ⊢ (|==> bigSep Finset.univ (G m) : sProp 𝕄) :=
  fund_ring m

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun i : Fin 7 => semVal (sendCell c i) 0)
        ∗ (bigSep Finset.univ fun j : Dev nD => semVal (recvCell c j) 0)
        ∗ (bigSep Finset.univ fun s : Fin 6 => semVal (((c : Thread nD τ), SemLoc.dma (wS s)) : GSem nD τ sig) 0)) := by
  unfold Pipeline.ownSems0; rw [bigSep_univ_sum, bigSep_univ_sum]; rfl

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in

theorem recv_split (c : Dev nD) :
    (bigSep Finset.univ fun j : Dev nD => (semVal (recvCell c j) 0 : sProp 𝕄))
      = iprop(semVal (recvCell c c) 0 ∗ bigSep Finset.univ fun h : Fin 7 => semVal (recvCell c (srcAt c h.succ)) 0) := by
  rw [bigSep_univ_at (fun j : Dev nD => (semVal (recvCell c j) 0 : sProp 𝕄)) c, bigSep_others]

omit [FloatOps F] in
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : OwnIx => semVal (kcell (c, k)) 0) ∗ wsems c) : sProp 𝕄) := by
  rw [ownSems0_eq, unscopedSems0_eq, bigSep_own c (fun g => (semVal g 0 : sProp 𝕄)), recv_split]
  unfold wsems
  iintro ⟨⟨HS, ⟨Hc, HR⟩, HW⟩, HB⟩
  isplitl [HB HS HR]
  · isplitl [HB]; · iexact HB
    isplitl [HS] <;> iassumption
  · isplitl [HW] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : OwnIx => iprop(∃ κ : ℕ, cellInv ER (sched m) κ (kcell (c, k))))
          ∗ (bigSep Finset.univ fun k : OwnIx => iprop(atPos ER (kcell (c, k)) 0 ∅ 0 ∗ reached ER (kcell (c, k)) 0)) ∗ payToks c ∗ wsems c) := by
  unfold G
  iintro ⟨Hos, Hus, Hst, Hat, Htok⟩
  ihave Hv := (sems0_split (F := F) c) $$ [Hos Hus]
  · isplitl [Hos] <;> iassumption
  icases Hv with ⟨Hv, Hws⟩
  imod (show iprop((bigSep Finset.univ fun k : OwnIx => semVal (kcell (c, k)) 0) ∗ bigSep Finset.univ fun k : OwnIx => roundState ER (sched m) (kcell (c, k)) 0)
      ⊢ (|={Set.univ}=> bigSep Finset.univ fun k : OwnIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

def records (K : GSem nD τ sig → ℕ) : sProp 𝕄 :=
  iprop((bigSep ringCells fun g => cellInv ER (sched m) (K g) g) ∗ bigSep ringCells fun g => reached ER g 0)

instance records_persistent (K : GSem nD τ sig → ℕ) : BI.Persistent (records m K) := by unfold records; infer_instance

theorem inv_at (K : GSem nD τ sig → ℕ) {g : GSem nD τ sig} (hg : g ∈ ringCells) :
    (bigSep ringCells fun g => (cellInv ER (sched m) (K g) g : sProp 𝕄)) ⊢ cellInv ER (sched m) (K g) g :=
  bigSep_elim hg
omit [FloatOps F] in
theorem reached_at {g : GSem nD τ sig} (hg : g ∈ ringCells) :
    (bigSep ringCells fun g => (reached ER g 0 : sProp 𝕄)) ⊢ reached ER g 0 :=
  bigSep_elim hg

theorem invs_intro (K : GSem nD τ sig → ℕ) (c : Dev nD) : records m K ⊢ invs m K c := by
  unfold records invs
  iintro ⟨#HI, -⟩
  isplitr; · iapply (inv_at m K (bar_mem c)); iexact HI
  isplitr; · iapply (bigSep_intro_persistent fun i _ => inv_at m K (send_mem c i)); iexact HI
  isplitr; · iapply (bigSep_intro_persistent fun h _ => inv_at m K (recv_mem c h)); iexact HI
  isplitr; · iapply (bigSep_intro_persistent fun i _ => inv_at m K (bar_mem (ringAt c i))); iexact HI
  iapply (bigSep_intro_persistent fun i _ => inv_at m K (recv_dst_mem c i)); iexact HI

theorem marks_intro (K : GSem nD τ sig → ℕ) (c : Dev nD) : records m K ⊢ marks c := by
  unfold records marks
  iintro ⟨-, #HR⟩
  isplitr; · iapply (reached_at (F := F) (bar_mem c)); iexact HR
  isplitr; · iapply (bigSep_intro_persistent fun i _ => reached_at (F := F) (send_mem c i)); iexact HR
  isplitr; · iapply (bigSep_intro_persistent fun h _ => reached_at (F := F) (recv_mem c h)); iexact HR
  isplitr; · iapply (bigSep_intro_persistent fun i _ => reached_at (F := F) (bar_mem (ringAt c i))); iexact HR
  iapply (bigSep_intro_persistent fun i _ => reached_at (F := F) (recv_dst_mem c i)); iexact HR

theorem G'_intro (K : GSem nD τ sig → ℕ) (c : Dev nD) :
    iprop(records m K ∗ (bigSep Finset.univ fun k : OwnIx => atPos ER (kcell (c, k)) 0 ∅ 0) ∗ payToks c ∗ wsems c) ⊢ G' m c := by
  rw [bigSep_own c (fun g => (atPos ER g 0 ∅ 0 : sProp 𝕄))]
  unfold G' ghost posns
  iintro ⟨#HR, Hp, Ht, Hw⟩
  isplitl [Hp Ht]
  · iexists K
    isplitr; · iapply (invs_intro m K c); iexact HR
    isplitl [Hp]; · iexact Hp
    isplitr; · iapply (marks_intro m K c); iexact HR
    iexact Ht
  · iexact Hw

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : OwnIx => iprop(∃ κ : ℕ, cellInv ER (sched m) κ (kcell (c, k))))
          ∗ (bigSep Finset.univ fun k : OwnIx => iprop(atPos ER (kcell (c, k)) 0 ∅ 0 ∗ reached ER (kcell (c, k)) 0)) ∗ payToks c ∗ wsems c) : sProp 𝕄)
      ⊢ bigSep Finset.univ (G' m) := by
  rw [bigSep_sep', bigSep_sep', bigSep_sep', ← bigSep_cells (fun g => iprop(∃ κ : ℕ, cellInv ER (sched m) κ g)),
    bigSep_congr (s := Finset.univ) (fun (c : Dev nD) _ => bigSep_sep' Finset.univ (fun k : OwnIx => (atPos ER (kcell (c, k)) 0 ∅ 0 : sProp 𝕄)) (fun k => reached ER (kcell (c, k)) 0)),
    bigSep_sep', ← bigSep_cells (fun g => (reached ER g 0 : sProp 𝕄))]
  iintro ⟨HI, ⟨Hat, #HR⟩, Htok, Hws⟩
  ihave HK := (BI.bigSep_exists_pi ringCells (fun (g : GSem nD τ sig) (κ : ℕ) => (cellInv ER (sched m) κ g : sProp 𝕄))) $$ HI
  icases HK with ⟨%K, #HI⟩
  iapply (bigSep_with_persistent (R := records m K) fun c _ => G'_intro m K c)
  isplitr
  · unfold records; isplitl; · iexact HI
    iexact HR
  · have e : (bigSep Finset.univ fun c : Dev nD => iprop((bigSep Finset.univ fun k : OwnIx => (atPos ER (kcell (c, k)) 0 ∅ 0 : sProp 𝕄)) ∗ payToks c ∗ wsems c))
        = iprop((bigSep Finset.univ fun c : Dev nD => bigSep Finset.univ fun k : OwnIx => (atPos ER (kcell (c, k)) 0 ∅ 0 : sProp 𝕄))
            ∗ (bigSep Finset.univ fun c : Dev nD => (payToks c : sProp 𝕄)) ∗ bigSep Finset.univ fun c : Dev nD => (wsems c : sProp 𝕄)) := by
      rw [bigSep_sep', bigSep_sep']
    iapply (Entails.of_eq e.symm)
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem O₀_sum (d : Dev nD) :
    O₀ d = (∑ i : Fin 7, tallyAt (barCell (ringAt d i)) () 1) + ∑ i : Fin 7, tallyAt (recvCell (dstAt d i) d) () N := by
  unfold O₀ Orecv
  rw [Fin.sum_univ_seven, Fin.sum_univ_seven]
  abel

omit [FloatOps F] in
theorem seven_units (g : GSem nD τ sig) : (∑ _i : Fin 7, (tallyAt g () 1 : CellTallies nD τ sig Unit)) = tallyAt g () 7 := by
  rw [Fin.sum_univ_seven]; simp only [tallyAt_add]

omit [FloatOps F] in

theorem recv_cred (c : Dev nD) (i : Fin 7) :
    (Pipeline.launchCred (fun d => tallyAt (recvCell (dstAt d i) d) () N) c : sProp 𝕄) ⊢ cred (tallyAt (recvCell c (srcAt c i.succ)) () N) := by
  refine (Pipeline.launchCred_elim _ c (.dma (recvS (srcAt c i.succ)))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ srcAt c i.succ →
      tallyOn (nD := nD) (sig := sig) (recvCell (dstAt d i) d) (Finsupp.single () N) (recvCell c (srcAt c i.succ)) = 0 := fun d _ hd => by
    unfold tallyOn
    refine Pi.single_eq_of_ne (fun h => hd ?_) _
    exact (recvS_inj (SemLoc.dma.inj (congrArg Prod.snd h))).symm
  rw [Finset.sum_eq_single (srcAt c i.succ) h0 (fun h => absurd (Finset.mem_univ _) h)]
  unfold tallyOn
  rw [dst_src, Pi.single_eq_same]

omit [FloatOps F] in
theorem creds (c : Dev nD) :
    (Pipeline.launchCred O₀ c : sProp 𝕄)
      ⊢ iprop(cred (tallyAt (barCell c) () 7) ∗ bigSep Finset.univ fun h : Fin 7 => cred (tallyAt (recvCell c (srcAt c h.succ)) () N)) := by
  rw [show (O₀ : Dev nD → CellTallies nD τ sig Unit)
      = fun d => (∑ i : Fin 7, tallyAt (barCell (ringAt d i)) () 1) + ∑ i : Fin 7, tallyAt (recvCell (dstAt d i) d) () N from funext O₀_sum,
    Pipeline.launchCred_add, Pipeline.launchCred_sum, Pipeline.launchCred_sum]
  refine BI.sep_mono ?_ (bigSep_mono fun i _ => recv_cred (F := F) c i)
  refine (bigSep_mono fun i _ => Pipeline.launchCred_tallyAt (.reg barS) (fun d => ringAt d i) (fun c => ringBack c i)
    (fun c => ring_back c i) (fun d => back_ring d i) () 1 c).trans ?_
  rw [← Pipeline.cred_finsetSum, seven_units]
  exact BI.Entails.refl _

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  icases Hc with ⟨H7, HN⟩
  unfold G'
  icases HG with ⟨HG, Hws⟩
  imodintro
  unfold start wPts win
  isplitl
  · isplitl [HG]; · iexact HG
    isplitl [H7]; · iexact H7
    isplitl [HN]; · iexact HN
    isplitl [Hlev]; · iexact Hlev
    isplitl [Hws]; · iexact Hws
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch3
  iintro ⟨Hs, -, Hr⟩
  isplitl [Hs] <;> iassumption

theorem phi1_exit (c : Dev nD) :
    (dats m ρ 0 c).Φ (Fin.last cfg0.N) ⊢ iprop(wPts m c ∗ Pipeline.ownSems0 osem c ∗ Pipeline.scopedRest cfg0.spec c) := by
  rw [show (dats m ρ 0 c).Φ (Fin.last cfg0.N) = Φ₁ m c from rfl, scopedRest0_eq, ownSems0_eq, recv_split]
  unfold Φ₁ scratch3 ownZero wsems
  iintro ⟨Hr, ⟨HS, HR, HW, Hc⟩, Hw⟩
  isplitl [Hw]; · iexact Hw
  isplitl [HS HR HW Hc]
  · isplitl [HS]; · iexact HS
    isplitl [Hc HR]
    · isplitl [Hc] <;> iassumption
    iexact HW
  iexact Hr

theorem final_x (c : Dev nD) : (dats m ρ 0 c).arrAt (0 : Fin 2) cfg0.N = m ((c : Thread nD τ).loc main_arg0) :=
  (dats (F := F) m ρ 0 c).arrAt_in (0 : Fin 2) rfl _

theorem final_out (c : Dev nD) : (dats m ρ 0 c).arrAt (1 : Fin 2) cfg0.N = outAt m c := by
  have h := (dats (F := F) m ρ 0 c).arrAt_succ (1 : Fin 2) t₀
  rw [flush0_1 t₀, if_pos rfl] at h
  refine h.trans ?_
  exact Memref.write_access_unit_zero_univ (Elt F) main_v1 (funext fun a => Nat.zero_mul _) _ _ _

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_dma_low c _ (Or.inl (by fin_cases w <;> fin_cases s <;> decide))) _ (by
      rcases t with ⟨_ | _, ht⟩
      · exact Or.inl rfl
      · exact Or.inr rfl)

end Launch

open Launch in
set_option maxRecDepth 16384 in

theorem run_main : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := wPts m) (Z := fun _ => iprop(emp))
    (hX := start_intro m ρ) (hin := phi0_intro m ρ) (hout := phi1_exit m ρ)
    (QY := fun c s => s.mem ((c : Thread nD τ).loc main_arg1) = m ((c : Thread nD τ).loc main_arg1))
    (hY := fun c s' => by
      unfold wPts win
      iintro ⟨Hw, -, HSI⟩
      icombine HSI Hw gives %hw
      imodintro
      isplitr; · ipureintro; exact Buf.eq_of_forall_mem_univ hw
      iexact HSI)
    (hQ := fun s h c => ⟨((h c).1 1).trans (final_out m ρ c), ((h c).1 0).trans (final_x m ρ c), (h c).2.2⟩)

/-- info: 'Cert.Kernel.A2A.run_main' depends on axioms: [propext, Classical.choice, Quot.sound] -/
#guard_msgs in #print axioms run_main

end Cert.Kernel.A2A

end
-- ==== Proof.A2A.RefRun.lean ====
import proofs.«900488_g7700000000000489_dist_a2a_gemm_m4096_k4096_n8192_f32_none_v7x_i8_1_alg».proof.Defs
import proofs.«900488_g7700000000000489_dist_a2a_gemm_m4096_k4096_n8192_f32_none_v7x_i8_1_alg».proof.Proof.Gen.ReferenceIdeal
import proofs.«900488_g7700000000000489_dist_a2a_gemm_m4096_k4096_n8192_f32_none_v7x_i8_1_alg».proof.Proof.Gen.ReferenceIdeal.Run
import proofs.«900488_g7700000000000489_dist_a2a_gemm_m4096_k4096_n8192_f32_none_v7x_i8_1_alg».proof.Proof.Gen.ReferenceIdeal.Read
-- ==== Proof.A2A.Value.lean ====
import proofs.«900488_g7700000000000489_dist_a2a_gemm_m4096_k4096_n8192_f32_none_v7x_i8_1_alg».proof.Proof.A2A.Data
import proofs.«900488_g7700000000000489_dist_a2a_gemm_m4096_k4096_n8192_f32_none_v7x_i8_1_alg».proof.Proof.A2A.RefRun
import Idealize.ShloMosaic.Lib.Layout
import Idealize.ShloMosaic.PureOps.Ideal.Laws
import Idealize.ShloMosaic.Lib.ValueIdx
import Idealize.ShloMosaic.Lib.Pipeline.Value

noncomputable section

namespace Cert.KernelIdeal.A2A

open Cert.KernelIdeal Cert.KernelIdeal.Gen Idealize.ShloMosaic Idealize.ShloMosaic.ValueIdx
open scoped BigOperators

theorem sum_blocks {M : Type*} [AddCommMonoid M] (σ : Fin 8 → Fin 8) (hσ : Function.Bijective σ) (g : Fin 4096 → M) :
    ∑ h : Fin 8, ∑ k : Fin 512, g ⟨(σ h).val * 512 + k.val, by have := (σ h).isLt; have := k.isLt; omega⟩ = ∑ kk : Fin 4096, g kk :=
  calc ∑ h : Fin 8, ∑ k : Fin 512, g ⟨(σ h).val * 512 + k.val, by have := (σ h).isLt; have := k.isLt; omega⟩
      = ∑ h : Fin 8, ∑ k : Fin 512, g (finProdFinEquiv (m := 8) (n := 512) (σ h, k)) :=
        Finset.sum_congr rfl fun h _ => Finset.sum_congr rfl fun k _ => congrArg g (Fin.ext (by
          show (σ h).val * 512 + k.val = k.val + 512 * (σ h).val
          omega))
    _ = ∑ j : Fin 8, ∑ k : Fin 512, g (finProdFinEquiv (m := 8) (n := 512) (j, k)) :=
        Equiv.sum_comp (Equiv.ofBijective σ hσ) (fun j => ∑ k : Fin 512, g (finProdFinEquiv (m := 8) (n := 512) (j, k)))
    _ = ∑ p : Fin 8 × Fin 512, g (finProdFinEquiv (m := 8) (n := 512) p) :=
        (Fintype.sum_prod_type (fun p : Fin 8 × Fin 512 => g (finProdFinEquiv (m := 8) (n := 512) p))).symm
    _ = ∑ kk : Fin 4096, g kk := Equiv.sum_comp (finProdFinEquiv (m := 8) (n := 512)) g

theorem lhs_blk_0 (i : S512x2048.Idx) (p : dot_S512x512_S512x2048_S512x2048_1_0_0_1_n_n.contr.Idx) :
    (dot_S512x512_S512x2048_S512x2048_1_0_0_1_n_n.lhsIdx i p 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_blk_1 (i : S512x2048.Idx) (p : dot_S512x512_S512x2048_S512x2048_1_0_0_1_n_n.contr.Idx) :
    (dot_S512x512_S512x2048_S512x2048_1_0_0_1_n_n.lhsIdx i p 1).val = (p ⟨0, by decide⟩).val :=
  dot_S512x512_S512x2048_S512x2048_1_0_0_1_n_n.lhsIdx_val_of_single rfl i p
theorem rhs_blk_0 (i : S512x2048.Idx) (p : dot_S512x512_S512x2048_S512x2048_1_0_0_1_n_n.contr.Idx) :
    (dot_S512x512_S512x2048_S512x2048_1_0_0_1_n_n.rhsIdx i p 0).val = (p ⟨0, by decide⟩).val :=
  dot_S512x512_S512x2048_S512x2048_1_0_0_1_n_n.rhsIdx_val_of_single rfl i p
theorem rhs_blk_1 (i : S512x2048.Idx) (p : dot_S512x512_S512x2048_S512x2048_1_0_0_1_n_n.contr.Idx) :
    (dot_S512x512_S512x2048_S512x2048_1_0_0_1_n_n.rhsIdx i p 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

theorem matmul_zero_at (l : S512x512.Idx → EReal) (rr : S512x2048.Idx → EReal) (r : Fin 512) (n : Fin 2048) :
    matmul (F := Ideal) (φ₁ := .f32) (φ₂ := .f32) dot_S512x512_S512x2048_S512x2048_1_0_0_1_n_n none l rr (constant (F := Ideal) S512x2048 .f32 0x00000000#32) (ix2 r n)
      = ∑ k : Fin 512, l (ix2 r k) * rr (ix2 k n) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 r n) ((contrEquiv1 dot_S512x512_S512x2048_S512x2048_1_0_0_1_n_n 512 rfl rfl).symm k) = ix2 r k := funext fun a => Fin.ext (by
    match a with
    | ⟨0, _⟩ => exact lhs_blk_0 _ _
    | ⟨1, _⟩ => exact (lhs_blk_1 _ _).trans hk)
  have er : dot_S512x512_S512x2048_S512x2048_1_0_0_1_n_n.rhsIdx (ix2 r n) ((contrEquiv1 dot_S512x512_S512x2048_S512x2048_1_0_0_1_n_n 512 rfl rfl).symm k) = ix2 k n := funext fun a => Fin.ext (by
    match a with
    | ⟨0, _⟩ => exact (rhs_blk_0 _ _).trans hk
    | ⟨1, _⟩ => exact rhs_blk_1 _ _)
  rw [el, er]

def blockSum (X0 : S4096x512.Idx → EReal) (W : S4096x8192.Idx → EReal) (c j : Dev nD) (q : Fin 4) (r : Fin 512) (n : Fin 2048) : EReal :=
  ∑ k : Fin 512,
    X0 (ix2 (n0 := 4096) (n1 := 512) ⟨512 * c.val + r.val, by have hc : c.val < 8 := c.isLt; have := r.isLt; omega⟩ k)
      * W (ix2 (n0 := 4096) (n1 := 8192) ⟨512 * j.val + k.val, by have hj : j.val < 8 := j.isLt; have := k.isLt; omega⟩
          ⟨2048 * q.val + n.val, by have := q.isLt; have := n.isLt; omega⟩)

theorem narrow_eq (X0 : S4096x512.Idx → EReal) : narrow (F := Ideal) X0 = X0 := by
  unfold narrow k0_pay1
  funext i
  simp only [shapeCast_self]
  rfl

theorem slot_at (X0 : S4096x512.Idx → EReal) (c : Dev nD) (r k : Fin 512) :
    shapeCast S512x512 (rowsB (F := Ideal) X0 c) shapeCasts_S1x512x512_S512x512 (ix2 r k)
      = X0 (ix2 (n0 := 4096) (n1 := 512) ⟨512 * c.val + r.val, by have hc : c.val < 8 := c.isLt; have := r.isLt; omega⟩ k) := by
  rw [shapeCast_dropUnit_apply (n := 2) ![512, 512]]
  rfl

theorem wslot_at (W : S4096x8192.Idx → EReal) (j : Dev nD) (q : Fin 4) (k : Fin 512) (n : Fin 2048) :
    shapeCast S512x2048 (wBlk (F := Ideal) W j q) shapeCasts_S1x512x2048_S512x2048 (ix2 k n)
      = W (ix2 (n0 := 4096) (n1 := 8192) ⟨512 * j.val + k.val, by have hj : j.val < 8 := j.isLt; have := k.isLt; omega⟩
          ⟨2048 * q.val + n.val, by have := q.isLt; have := n.isLt; omega⟩) := by
  rw [shapeCast_dropUnit_apply (n := 2) ![512, 2048]]
  rfl

theorem mm0_at (X0 : S4096x512.Idx → EReal) (W : S4096x8192.Idx → EReal) (c j : Dev nD) (q : Fin 4) (r : Fin 512) (n : Fin 2048) :
    mm0 (F := Ideal) (rowsF X0 c) (wBlk W j q) (ix2 r n) = blockSum X0 W c j q r n := by
  unfold blockSum
  refine (matmul_zero_at _ _ r n).trans (Finset.sum_congr rfl fun k _ => ?_)
  rw [shapeCast_self, wslot_at]
  rfl

theorem mmAcc_at (X0 : S4096x512.Idx → EReal) (W : S4096x8192.Idx → EReal) (c j : Dev nD) (q : Fin 4)
    (o : S512x2048.Idx → EReal) (r : Fin 512) (n : Fin 2048) :
    mmAcc (F := Ideal) (rowsB (narrow X0) c) (wBlk W j q) o (ix2 r n) = o (ix2 r n) + blockSum X0 W c j q r n := by
  unfold blockSum
  rw [narrow_eq]
  show shapeCast S512x2048 o shapeCasts_S512x2048_S512x2048 (ix2 r n)
      + matmul (F := Ideal) (φ₁ := .f32) (φ₂ := .f32) dot_S512x512_S512x2048_S512x2048_1_0_0_1_n_n none
          (extf .f32 (shapeCast S512x512 (rowsB (F := Ideal) X0 c) shapeCasts_S1x512x512_S512x512) bitsLt_bf16_f32)
          (shapeCast S512x2048 (wBlk (F := Ideal) W j q) shapeCasts_S1x512x2048_S512x2048)
          (constant (F := Ideal) S512x2048 .f32 0x00000000#32) (ix2 r n) = _
  rw [shapeCast_self]
  refine congrArg (o (ix2 r n) + ·) ?_
  refine (matmul_zero_at _ _ r n).trans (Finset.sum_congr rfl fun k _ => ?_)
  rw [wslot_at]
  show shapeCast S512x512 (rowsB (F := Ideal) X0 c) shapeCasts_S1x512x512_S512x512 (ix2 r k) * _ = _
  rw [slot_at]

theorem roundOf_val (h : Fin 8) : roundOf h.val = h := Fin.ext (Nat.mod_eq_of_lt h.isLt)

theorem chunkAt_at (X : Dev nD → S4096x512.Idx → EReal) (W : S4096x8192.Idx → EReal) (c : Dev nD) (q : Fin 4)
    (r : Fin 512) (n : Fin 2048) (h : Nat) :
    chunkAt (F := Ideal) X W c q h (ix2 r n)
      = ∑ i ∈ Finset.range (h + 1), blockSum (X (srcAt c (roundOf i))) W c (srcAt c (roundOf i)) q r n := by
  induction h with
  | zero =>
    rw [Finset.sum_range_one]
    exact mm0_at (X c) W c c q r n
  | succ h ih =>
    rw [Finset.sum_range_succ, ← ih]
    exact mmAcc_at (X (srcAt c (roundOf (h + 1)))) W c (srcAt c (roundOf (h + 1))) q (chunkAt (F := Ideal) X W c q h) r n

theorem chunk_done (X : Dev nD → S4096x512.Idx → EReal) (W : S4096x8192.Idx → EReal) (c : Dev nD) (q : Fin 4)
    (r : Fin 512) (n : Fin 2048) :
    chunkAt (F := Ideal) X W c q 7 (ix2 r n) = ∑ h : Fin 8, blockSum (X (srcAt c h)) W c (srcAt c h) q r n := by
  rw [chunkAt_at, Finset.sum_range]
  exact Finset.sum_congr rfl fun h _ => by rw [roundOf_val]

theorem srcAt_bijective (c : Dev nD) : Function.Bijective (srcAt c) :=
  ⟨fun h k e => srcAt_inj c h k e, fun j => srcAt_surj c j⟩

theorem outOf_eq_block_real (X : Cert.ReferenceIdeal.S4096x4096.Idx → EReal) (W : S4096x8192.Idx → EReal) (c : Dev nD) :
    outOf (F := Ideal) (fun d => Layout.block ⟨2, ![4096, 512]⟩ ⟨2, ![4096, 4096]⟩ 1 8 d X) W c
      = Layout.block ⟨2, ![512, 8192]⟩ ⟨2, ![4096, 8192]⟩ 0 8 c (Cert.ReferenceIdeal.Read.val_main_v0 (F := Ideal) X W) := by
  funext i
  rw [Layout.block_apply, Cert.ReferenceIdeal.Read.val_main_v0_apply]
  have hc : c.val < 8 := c.isLt
  have h0 : (i 0).val < 512 := (i 0).isLt
  have h1 : (i 1).val < 8192 := (i 1).isLt
  refine (chunk_done _ W c ⟨(i 1).val / 2048, by omega⟩ ⟨(i 0).val, h0⟩ ⟨(i 1).val % 2048, Nat.mod_lt _ (by decide)⟩).trans ?_
  refine Eq.trans ?_ (sum_blocks (srcAt c) (srcAt_bijective c) _)
  refine Finset.sum_congr rfl fun h _ => Finset.sum_congr rfl fun k _ => ?_
  have hj : (srcAt c h).val < 8 := (srcAt c h).isLt
  have hk : k.val < 512 := k.isLt
  refine congrArg₂ (· * ·) (congrArg X (Shape.idx_ext₂ ?_ ?_)) (congrArg W (Shape.idx_ext₂ ?_ ?_))
  · show 512 * c.val + (i 0).val = c.val * 512 + (i 0).val
    omega
  · show (srcAt c h).val * 512 + k.val = (srcAt c h).val * 512 + k.val
    rfl
  · show 512 * (srcAt c h).val + k.val = (srcAt c h).val * 512 + k.val
    omega
  · show 2048 * ((i 1).val / 2048) + (i 1).val % 2048 = (i 1).val
    omega

theorem outOf_eq_block (X : Vec Ideal Cert.ReferenceIdeal.S4096x4096 .f32) (W : Vec Ideal S4096x8192 .f32) (c : Dev nD) :
    outOf (F := Ideal) (fun d => Layout.block ⟨2, ![4096, 512]⟩ ⟨2, ![4096, 4096]⟩ 1 8 d X) W c
      = Layout.block ⟨2, ![512, 8192]⟩ ⟨2, ![4096, 8192]⟩ 0 8 c (Cert.ReferenceIdeal.Read.val_main_v0 (F := Ideal) X W) :=
  outOf_eq_block_real X W c

/-- info: 'Cert.KernelIdeal.A2A.outOf_eq_block' depends on axioms: [propext, Classical.choice, Quot.sound] -/
#guard_msgs in #print axioms outOf_eq_block

end Cert.KernelIdeal.A2A

end
-- ==== Proof.A2A.Join.lean ====
import proofs.«900488_g7700000000000489_dist_a2a_gemm_m4096_k4096_n8192_f32_none_v7x_i8_1_alg».proof.Proof.A2A.State
import proofs.«900488_g7700000000000489_dist_a2a_gemm_m4096_k4096_n8192_f32_none_v7x_i8_1_alg».proof.Proof.A2A.Value

noncomputable section

namespace Cert.KernelIdeal.A2A

open Cert.KernelIdeal Cert.KernelIdeal.Gen
open Idealize.ShloMosaic
open Idealize.ShloMosaic.TcCoe
open Idealize.SL.Sem

variable {F : FTy → Type} [FloatOps F]

theorem xin_eq (m : (ℓ : Loc nD τ sig) → Buf (Elt F) ℓ) (c : Dev nD) :
    xin m c = m ((c : Thread nD τ).loc main_arg0) := by
  unfold xin
  exact Memref.read_access_unit_zero (Elt F) main_arg0 (off := fun a => win0_0.index t0_0 a * win0_0.size a)
    (funext fun a => by fin_cases a <;> rfl) _ _

theorem outAt_eq_block (m : (ℓ : Loc nD τ sig) → Buf (Elt Ideal) ℓ)
    (X : Vec Ideal Cert.ReferenceIdeal.S4096x4096 .f32) (W : Vec Ideal S4096x8192 .f32)
    (hx : ∀ d : Dev nD, m ((d : Thread nD τ).loc main_arg0) = Layout.block ⟨2, ![4096, 512]⟩ ⟨2, ![4096, 4096]⟩ 1 8 d X)
    (hw : ∀ d : Dev nD, m ((d : Thread nD τ).loc main_arg1) = W) (c : Dev nD) :
    outAt (F := Ideal) m c
      = Layout.block ⟨2, ![512, 8192]⟩ ⟨2, ![4096, 8192]⟩ 0 8 c (Cert.ReferenceIdeal.Read.val_main_v0 (F := Ideal) X W) := by
  unfold outAt
  have hX : (fun d : Dev nD => xin m d) = fun d => Layout.block ⟨2, ![4096, 512]⟩ ⟨2, ![4096, 4096]⟩ 1 8 d X :=
    funext fun d => (xin_eq m d).trans (hx d)
  rw [hX, show win m c = W from hw c]
  exact outOf_eq_block X W c

end Cert.KernelIdeal.A2A

end
-- ==== Proof.lean ====
import proofs.«900488_g7700000000000489_dist_a2a_gemm_m4096_k4096_n8192_f32_none_v7x_i8_1_alg».proof.Defs
import proofs.«900488_g7700000000000489_dist_a2a_gemm_m4096_k4096_n8192_f32_none_v7x_i8_1_alg».proof.Proof.Gen.Kernel
import proofs.«900488_g7700000000000489_dist_a2a_gemm_m4096_k4096_n8192_f32_none_v7x_i8_1_alg».proof.Proof.Gen.Kernel.Skeleton
import proofs.«900488_g7700000000000489_dist_a2a_gemm_m4096_k4096_n8192_f32_none_v7x_i8_1_alg».proof.Proof.Gen.Kernel.Launch
import proofs.«900488_g7700000000000489_dist_a2a_gemm_m4096_k4096_n8192_f32_none_v7x_i8_1_alg».proof.Proof.Gen.Kernel.Points
import proofs.«900488_g7700000000000489_dist_a2a_gemm_m4096_k4096_n8192_f32_none_v7x_i8_1_alg».proof.Proof.Gen.Kernel.Frame
import proofs.«900488_g7700000000000489_dist_a2a_gemm_m4096_k4096_n8192_f32_none_v7x_i8_1_alg».proof.Proof.Gen.KernelIdeal
import proofs.«900488_g7700000000000489_dist_a2a_gemm_m4096_k4096_n8192_f32_none_v7x_i8_1_alg».proof.Proof.Gen.KernelIdeal.Skeleton
import proofs.«900488_g7700000000000489_dist_a2a_gemm_m4096_k4096_n8192_f32_none_v7x_i8_1_alg».proof.Proof.Gen.KernelIdeal.Launch
import proofs.«900488_g7700000000000489_dist_a2a_gemm_m4096_k4096_n8192_f32_none_v7x_i8_1_alg».proof.Proof.Gen.KernelIdeal.Points
import proofs.«900488_g7700000000000489_dist_a2a_gemm_m4096_k4096_n8192_f32_none_v7x_i8_1_alg».proof.Proof.Gen.KernelIdeal.Frame
import proofs.«900488_g7700000000000489_dist_a2a_gemm_m4096_k4096_n8192_f32_none_v7x_i8_1_alg».proof.Proof.Gen.ReferenceIdeal
import proofs.«900488_g7700000000000489_dist_a2a_gemm_m4096_k4096_n8192_f32_none_v7x_i8_1_alg».proof.Proof.Gen.Pre_finite_inputs_Kernel
import proofs.«900488_g7700000000000489_dist_a2a_gemm_m4096_k4096_n8192_f32_none_v7x_i8_1_alg».proof.Proof.Gen.Pre_finite_inputs_ReferenceIdeal
import Idealize.ShloMosaic.Adequacy
import Idealize.ShloMosaic.Init
import proofs.«900488_g7700000000000489_dist_a2a_gemm_m4096_k4096_n8192_f32_none_v7x_i8_1_alg».proof.Proof.A2A.Launch
import proofs.«900488_g7700000000000489_dist_a2a_gemm_m4096_k4096_n8192_f32_none_v7x_i8_1_alg».proof.Proof.A2AK.Launch
import proofs.«900488_g7700000000000489_dist_a2a_gemm_m4096_k4096_n8192_f32_none_v7x_i8_1_alg».proof.Proof.A2A.Join
import proofs.«900488_g7700000000000489_dist_a2a_gemm_m4096_k4096_n8192_f32_none_v7x_i8_1_alg».proof.Proof.A2A.RefRun

noncomputable section

namespace Cert.Proof

open Idealize.ShloMosaic Idealize.SL.Sem

/-- Each frame is the run with the result forgotten. -/
theorem frame_k : Cert.frame_Kernel := fun m ρ _ =>
  (θ_run _ _ _).mono (fun _ h c => ⟨(h c).2.1, (h c).2.2⟩) (Cert.Kernel.A2A.run_main (F := Bits) m ρ)

theorem frame_ki : Cert.frame_KernelIdeal := fun m ρ _ =>
  (θ_run _ _ _).mono (fun _ h c => ⟨(h c).2.1, (h c).2.2⟩) (Cert.KernelIdeal.A2A.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The reference ends at the product of the whole arrays, each device at its row block of it. -/
theorem algebraic : Cert.algebraic_KernelIdeal_ReferenceIdeal := by
  intro m ρ m' ρ' _ hagree
  refine ⟨Cert.ReferenceIdeal.Read.val_main_v0 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run _ _ _).mono (fun _ h c => ⟨(h c).1.trans ?_, (h c).2.1, (h c).2.2⟩) (Cert.KernelIdeal.A2A.run_main (F := Ideal) m ρ)
    exact Cert.KernelIdeal.A2A.outAt_eq_block m _ _ (fun d => (hagree d).1) (fun d => (hagree d).2) c
  · exact (θ_run Cert.ReferenceIdeal.defs _ _).mono (fun _ h => ⟨(h 0).1, (h 0).2.1, (h 0).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
